-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_45000" .f32 0x37BA69DC#32 ((1 / 45000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100x21 : Shape := ⟨3, ![4, 100, 21]⟩
abbrev S4x80000x100 : Shape := ⟨3, ![4, 80000, 100]⟩
abbrev S4x30x80000 : Shape := ⟨3, ![4, 30, 80000]⟩
abbrev S4x30 : Shape := ⟨2, ![4, 30]⟩
abbrev S4x45000 : Shape := ⟨2, ![4, 45000]⟩
abbrev S_ : Shape := ⟨0, ![]⟩
abbrev S4x30x1 : Shape := ⟨3, ![4, 30, 1]⟩
abbrev S4x1x30 : Shape := ⟨3, ![4, 1, 30]⟩
abbrev S4x30x30 : Shape := ⟨3, ![4, 30, 30]⟩
abbrev S30 : Shape := ⟨1, ![30]⟩
abbrev S30x1 : Shape := ⟨2, ![30, 1]⟩
abbrev S1x30 : Shape := ⟨2, ![1, 30]⟩
abbrev S30x30 : Shape := ⟨2, ![30, 30]⟩
abbrev S1x30x30 : Shape := ⟨3, ![1, 30, 30]⟩

class Facts : Prop where
  bcast_S_S4x100x21 : S_.BroadcastsInDim S4x100x21 (![] : Fin 0 → Fin S4x100x21.rank)
  reducesTo_S4x100x21_S_d0_1_2 : S4x100x21.ReducesTo [0, 1, 2] S_
  h_S_ : 0 < S_.numel
  bcast_S_S4x80000x100 : S_.BroadcastsInDim S4x80000x100 (![] : Fin 0 → Fin S4x80000x100.rank)
  reducesTo_S4x80000x100_S_d0_1_2 : S4x80000x100.ReducesTo [0, 1, 2] S_
  bcast_S_S4x30x80000 : S_.BroadcastsInDim S4x30x80000 (![] : Fin 0 → Fin S4x30x80000.rank)
  reducesTo_S4x30x80000_S_d0_1_2 : S4x30x80000.ReducesTo [0, 1, 2] S_
  bcast_S_S4x30 : S_.BroadcastsInDim S4x30 (![] : Fin 0 → Fin S4x30.rank)
  reducesTo_S4x30_S_d0_1 : S4x30.ReducesTo [0, 1] S_
  bcast_S_S4x45000 : S_.BroadcastsInDim S4x45000 (![] : Fin 0 → Fin S4x45000.rank)
  reducesTo_S4x45000_S_d0_1 : S4x45000.ReducesTo [0, 1] S_
  bcast_S4x30_S4x30x1_0_1 : S4x30.BroadcastsInDim S4x30x1 (![0, 1] : Fin 2 → Fin S4x30x1.rank)
  bcast_S4x30_S4x1x30_0_2 : S4x30.BroadcastsInDim S4x1x30 (![0, 2] : Fin 2 → Fin S4x1x30.rank)
  bcast_S4x30x1_S4x30x30_0_1_2 : S4x30x1.BroadcastsInDim S4x30x30 (![0, 1, 2] : Fin 3 → Fin S4x30x30.rank)
  bcast_S4x1x30_S4x30x30_0_1_2 : S4x1x30.BroadcastsInDim S4x30x30 (![0, 1, 2] : Fin 3 → Fin S4x30x30.rank)
  bcast_S30_S30x1_0 : S30.BroadcastsInDim S30x1 (![0] : Fin 1 → Fin S30x1.rank)
  bcast_S30_S1x30_1 : S30.BroadcastsInDim S1x30 (![1] : Fin 1 → Fin S1x30.rank)
  bcast_S30x1_S30x30_0_1 : S30x1.BroadcastsInDim S30x30 (![0, 1] : Fin 2 → Fin S30x30.rank)
  bcast_S1x30_S30x30_0_1 : S1x30.BroadcastsInDim S30x30 (![0, 1] : Fin 2 → Fin S30x30.rank)
  bcast_S30x30_S1x30x30_1_2 : S30x30.BroadcastsInDim S1x30x30 (![1, 2] : Fin 2 → Fin S1x30x30.rank)
  bcast_S1x30x30_S4x30x30_0_1_2 : S1x30x30.BroadcastsInDim S4x30x30 (![0, 1, 2] : Fin 3 → Fin S4x30x30.rank)
  reducesTo_S4x30x30_S_d0_1_2 : S4x30x30.ReducesTo [0, 1, 2] S_

variable [Facts]

def fn_part2 {F : FTy → Type} [FloatOps F] (main_arg5 : IVec S4x30 32) (main_v27 : IVec S_ 1) (main_v32 : IVec S4x45000 1) (main_c_12 : IVec S_ 1) : IVec S_ 1 :=
  let main_v33 : IVec S_ 1 := (fun x v => Host.reduce IntOp.andi x v reducesTo_S4x45000_S_d0_1 h_S_) main_v32 main_c_12
  let main_v34 : IVec S_ 1 := andi main_v27 main_v33
  let main_v35 : IVec S4x30x1 32 := broadcastInDim S4x30x1 ![0, 1] bcast_S4x30_S4x30x1_0_1 main_arg5
  let main_v36 : IVec S4x1x30 32 := broadcastInDim S4x1x30 ![0, 2] bcast_S4x30_S4x1x30_0_2 main_arg5
  let main_v37 : IVec S4x30x30 32 := broadcastInDim S4x30x30 ![0, 1, 2] bcast_S4x30x1_S4x30x30_0_1_2 main_v35
  let main_v38 : IVec S4x30x30 32 := broadcastInDim S4x30x30 ![0, 1, 2] bcast_S4x1x30_S4x30x30_0_1_2 main_v36
  let main_v39 : IVec S4x30x30 1 := cmpi .ne main_v37 main_v38
  let main_v40 : IVec S30 32 := iotaInDim S30 32 0
  let main_v41 : IVec S30x1 32 := broadcastInDim S30x1 ![0] bcast_S30_S30x1_0 main_v40
  let main_v42 : IVec S30 32 := iotaInDim S30 32 0
  let main_v43 : IVec S1x30 32 := broadcastInDim S1x30 ![1] bcast_S30_S1x30_1 main_v42
  let main_v44 : IVec S30x30 32 := broadcastInDim S30x30 ![0, 1] bcast_S30x1_S30x30_0_1 main_v41
  let main_v45 : IVec S30x30 32 := broadcastInDim S30x30 ![0, 1] bcast_S1x30_S30x30_0_1 main_v43
  let main_v46 : IVec S30x30 1 := cmpi .eq main_v44 main_v45
  let main_v47 : IVec S1x30x30 1 := broadcastInDim S1x30x30 ![1, 2] bcast_S30x30_S1x30x30_1_2 main_v46
  let main_v48 : IVec S4x30x30 1 := broadcastInDim S4x30x30 ![0, 1, 2] bcast_S1x30x30_S4x30x30_0_1_2 main_v47
  let main_v49 : IVec S4x30x30 1 := ori main_v39 main_v48
  let main_c_13 : IVec S_ 1 := constantI S_ 1 1#1
  let main_v50 : IVec S_ 1 := (fun x v => Host.reduce IntOp.andi x v reducesTo_S4x30x30_S_d0_1_2 h_S_) main_v49 main_c_13
  let main_v51 : IVec S_ 1 := andi main_v34 main_v50
  main_v51

def fn_part1 {F : FTy → Type} [FloatOps F] (main_arg4 : IVec S4x30 32) (main_arg5 : IVec S4x30 32) (main_arg6 : IVec S4x45000 32) (main_v13 : IVec S_ 1) (main_v15 : IVec S4x30 1) (main_c_5 : IVec S_ 32) : IVec S_ 1 :=
  let main_v16 : IVec S4x30 32 := broadcastInDim S4x30 ![] bcast_S_S4x30 main_c_5
  let main_v17 : IVec S4x30 1 := cmpi .slt main_arg4 main_v16
  let main_v18 : IVec S4x30 1 := andi main_v15 main_v17
  let main_c_6 : IVec S_ 1 := constantI S_ 1 1#1
  let main_v19 : IVec S_ 1 := (fun x v => Host.reduce IntOp.andi x v reducesTo_S4x30_S_d0_1 h_S_) main_v18 main_c_6
  let main_v20 : IVec S_ 1 := andi main_v13 main_v19
  let main_c_7 : IVec S_ 32 := constantI S_ 32 0#32
  let main_v21 : IVec S4x30 32 := broadcastInDim S4x30 ![] bcast_S_S4x30 main_c_7
  let main_v22 : IVec S4x30 1 := cmpi .sge main_arg5 main_v21
  let main_c_8 : IVec S_ 32 := constantI S_ 32 30#32
  let main_v23 : IVec S4x30 32 := broadcastInDim S4x30 ![] bcast_S_S4x30 main_c_8
  let main_v24 : IVec S4x30 1 := cmpi .slt main_arg5 main_v23
  let main_v25 : IVec S4x30 1 := andi main_v22 main_v24
  let main_c_9 : IVec S_ 1 := constantI S_ 1 1#1
  let main_v26 : IVec S_ 1 := (fun x v => Host.reduce IntOp.andi x v reducesTo_S4x30_S_d0_1 h_S_) main_v25 main_c_9
  let main_v27 : IVec S_ 1 := andi main_v20 main_v26
  let main_c_10 : IVec S_ 32 := constantI S_ 32 0#32
  let main_v28 : IVec S4x45000 32 := broadcastInDim S4x45000 ![] bcast_S_S4x45000 main_c_10
  let main_v29 : IVec S4x45000 1 := cmpi .sge main_arg6 main_v28
  let main_c_11 : IVec S_ 32 := constantI S_ 32 80000#32
  let main_v30 : IVec S4x45000 32 := broadcastInDim S4x45000 ![] bcast_S_S4x45000 main_c_11
  let main_v31 : IVec S4x45000 1 := cmpi .slt main_arg6 main_v30
  let main_v32 : IVec S4x45000 1 := andi main_v29 main_v31
  let main_c_12 : IVec S_ 1 := constantI S_ 1 1#1
  fn_part2 (F := F) main_arg5 main_v27 main_v32 main_c_12

def fn {F : FTy → Type} [FloatOps F] (main_arg0 : FVec F S4x100x21 .f32) (main_arg1 : FVec F S4x80000x100 .f32) (main_arg2 : FVec F S4x30x80000 .f32) (main_arg3 : IVec S4x30 32) (main_arg4 : IVec S4x30 32) (main_arg5 : IVec S4x30 32) (main_arg6 : IVec S4x45000 32) : IVec S_ 1 :=
  let main_v0 : FVec F S4x100x21 .f32 := Host.absf main_arg0
  let main_cst : FVec F S_ .f32 := constant S_ .f32 0x7F800000#32
  let main_v1 : FVec F S4x100x21 .f32 := broadcastInDim S4x100x21 ![] bcast_S_S4x100x21 main_cst
  let main_v2 : IVec S4x100x21 1 := cmpf .olt main_v0 main_v1
  let main_c : IVec S_ 1 := constantI S_ 1 1#1
  let main_v3 : IVec S_ 1 := (fun x v => Host.reduce IntOp.andi x v reducesTo_S4x100x21_S_d0_1_2 h_S_) main_v2 main_c
  let main_v4 : FVec F S4x80000x100 .f32 := Host.absf main_arg1
  let main_cst_0 : FVec F S_ .f32 := constant S_ .f32 0x7F800000#32
  let main_v5 : FVec F S4x80000x100 .f32 := broadcastInDim S4x80000x100 ![] bcast_S_S4x80000x100 main_cst_0
  let main_v6 : IVec S4x80000x100 1 := cmpf .olt main_v4 main_v5
  let main_c_1 : IVec S_ 1 := constantI S_ 1 1#1
  let main_v7 : IVec S_ 1 := (fun x v => Host.reduce IntOp.andi x v reducesTo_S4x80000x100_S_d0_1_2 h_S_) main_v6 main_c_1
  let main_v8 : IVec S_ 1 := andi main_v3 main_v7
  let main_v9 : FVec F S4x30x80000 .f32 := Host.absf main_arg2
  let main_cst_2 : FVec F S_ .f32 := constant S_ .f32 0x7F800000#32
  let main_v10 : FVec F S4x30x80000 .f32 := broadcastInDim S4x30x80000 ![] bcast_S_S4x30x80000 main_cst_2
  let main_v11 : IVec S4x30x80000 1 := cmpf .olt main_v9 main_v10
  let main_c_3 : IVec S_ 1 := constantI S_ 1 1#1
  let main_v12 : IVec S_ 1 := (fun x v => Host.reduce IntOp.andi x v reducesTo_S4x30x80000_S_d0_1_2 h_S_) main_v11 main_c_3
  let main_v13 : IVec S_ 1 := andi main_v8 main_v12
  let main_c_4 : IVec S_ 32 := constantI S_ 32 0#32
  let main_v14 : IVec S4x30 32 := broadcastInDim S4x30 ![] bcast_S_S4x30 main_c_4
  let main_v15 : IVec S4x30 1 := cmpi .sge main_arg4 main_v14
  let main_c_5 : IVec S_ 32 := constantI S_ 32 100#32
  fn_part1 (F := F) main_arg4 main_arg5 main_arg6 main_v13 main_v15 main_c_5
-- ==== Kernel.lean ====
abbrev S4x100x21 : Shape := ⟨3, ![4, 100, 21]⟩
abbrev S4x80000x100 : Shape := ⟨3, ![4, 80000, 100]⟩
abbrev S4x30x80000 : Shape := ⟨3, ![4, 30, 80000]⟩
abbrev S4x30 : Shape := ⟨2, ![4, 30]⟩
abbrev S4x45000 : Shape := ⟨2, ![4, 45000]⟩
abbrev S_ : Shape := ⟨0, ![]⟩
abbrev S21 : Shape := ⟨1, ![21]⟩
abbrev S1 : Shape := ⟨1, ![1]⟩
abbrev S4 : Shape := ⟨1, ![4]⟩
abbrev S4x1 : Shape := ⟨2, ![4, 1]⟩
abbrev S4x30x1 : Shape := ⟨3, ![4, 30, 1]⟩
abbrev S1x1x1 : Shape := ⟨3, ![1, 1, 1]⟩
abbrev S4x100 : Shape := ⟨2, ![4, 100]⟩
abbrev S4x30x2 : Shape := ⟨3, ![4, 30, 2]⟩
abbrev S4x100x1 : Shape := ⟨3, ![4, 100, 1]⟩
abbrev S4x100x1x1 : Shape := ⟨4, ![4, 100, 1, 1]⟩
abbrev S1x1x1x1 : Shape := ⟨4, ![1, 1, 1, 1]⟩
abbrev S4x100x30 : Shape := ⟨3, ![4, 100, 30]⟩
abbrev S4x30x3 : Shape := ⟨3, ![4, 30, 3]⟩
abbrev S4x45000x1 : Shape := ⟨3, ![4, 45000, 1]⟩
abbrev S4x45000x100 : Shape := ⟨3, ![4, 45000, 100]⟩
abbrev S4x45056x100 : Shape := ⟨3, ![4, 45056, 100]⟩
abbrev S4x30x45000 : Shape := ⟨3, ![4, 30, 45000]⟩
abbrev S4x30x45056 : Shape := ⟨3, ![4, 30, 45056]⟩
abbrev S1x5632x100 : Shape := ⟨3, ![1, 5632, 100]⟩
abbrev S1x100x30 : Shape := ⟨3, ![1, 100, 30]⟩
abbrev S1x30x5632 : Shape := ⟨3, ![1, 30, 5632]⟩
abbrev S1x30x2 : Shape := ⟨3, ![1, 30, 2]⟩
abbrev S30x1 : Shape := ⟨2, ![30, 1]⟩
abbrev S5632x100 : Shape := ⟨2, ![5632, 100]⟩
abbrev S100x30 : Shape := ⟨2, ![100, 30]⟩
abbrev S30x5632 : Shape := ⟨2, ![30, 5632]⟩
abbrev S5632x30 : Shape := ⟨2, ![5632, 30]⟩
abbrev S30 : Shape := ⟨1, ![30]⟩
abbrev S30x2 : Shape := ⟨2, ![30, 2]⟩
abbrev S3 : Shape := ⟨1, ![3]⟩

abbrev nBuf : Space → Nat
  | .hbm => 232
  | .vmem => 11
  | .smem => 0
  | _ => 0

abbrev hbmTy0_0 (i : Nat) : BufTy := match i % 128 with
  | 0 => ⟨S4x100x21, .f32⟩
  | 1 => ⟨S4x80000x100, .f32⟩
  | 2 => ⟨S4x30x80000, .f32⟩
  | 3 => ⟨S4x30, .i32⟩
  | 4 => ⟨S4x30, .i32⟩
  | 5 => ⟨S4x30, .i32⟩
  | 6 => ⟨S4x45000, .i32⟩
  | 7 => ⟨S_, .f32⟩
  | 8 => ⟨S21, .f32⟩
  | 9 => ⟨S_, .i32⟩
  | 10 => ⟨S1, .i32⟩
  | 11 => ⟨S_, .f32⟩
  | 12 => ⟨S21, .f32⟩
  | 13 => ⟨S_, .i32⟩
  | 14 => ⟨S1, .i32⟩
  | 15 => ⟨S_, .f32⟩
  | 16 => ⟨S21, .f32⟩
  | 17 => ⟨S4, .i32⟩
  | 18 => ⟨S4x1, .i32⟩
  | 19 => ⟨S_, .i32⟩
  | 20 => ⟨S4x30, .i32⟩
  | 21 => ⟨S4x30, .i1⟩
  | 22 => ⟨S_, .i32⟩
  | 23 => ⟨S4x30, .i32⟩
  | 24 => ⟨S4x30, .i32⟩
  | 25 => ⟨S4x30, .i32⟩
  | 26 => ⟨S4x30x1, .i32⟩
  | 27 => ⟨S1, .i32⟩
  | 28 => ⟨S_, .i32⟩
  | 29 => ⟨S4x30x1, .i32⟩
  | 30 => ⟨S4x30x1, .i1⟩
  | 31 => ⟨S1x1x1, .i32⟩
  | 32 => ⟨S4x30x1, .i32⟩
  | 33 => ⟨S4x30x1, .i1⟩
  | 34 => ⟨S4x30x1, .i1⟩
  | 35 => ⟨S_, .i1⟩
  | 36 => ⟨S4x30, .i1⟩
  | 37 => ⟨S4x30, .i32⟩
  | 38 => ⟨S_, .i32⟩
  | 39 => ⟨S4x30, .i32⟩
  | 40 => ⟨S4x30, .i32⟩
  | 41 => ⟨S_, .i32⟩
  | 42 => ⟨S4x100, .i32⟩
  | 43 => ⟨S_, .i32⟩
  | 44 => ⟨S4x1, .i32⟩
  | 45 => ⟨S4x1, .i1⟩
  | 46 => ⟨S_, .i32⟩
  | 47 => ⟨S4x1, .i32⟩
  | 48 => ⟨S4x1, .i32⟩
  | 49 => ⟨S4x1, .i32⟩
  | 50 => ⟨S_, .i32⟩
  | 51 => ⟨S4x30, .i32⟩
  | 52 => ⟨S4x30, .i1⟩
  | 53 => ⟨S_, .i32⟩
  | 54 => ⟨S4x30, .i32⟩
  | 55 => ⟨S4x30, .i32⟩
  | 56 => ⟨S4x30, .i32⟩
  | 57 => ⟨S4x30, .i32⟩
  | 58 => ⟨S4x30x1, .i32⟩
  | 59 => ⟨S4x30x1, .i32⟩
  | 60 => ⟨S4x30x2, .i32⟩
  | 61 => ⟨S4x100, .i32⟩
  | 62 => ⟨S_, .f32⟩
  | 63 => ⟨S4x100, .f32⟩
  | 64 => ⟨S_, .f32⟩
  | 65 => ⟨S4x100, .f32⟩
  | 66 => ⟨S4x100, .f32⟩
  | 67 => ⟨S4x100x1, .f32⟩
  | 68 => ⟨S4x100x21, .f32⟩
  | 69 => ⟨S4x100x21, .f32⟩
  | 70 => ⟨S4x100x21, .f32⟩
  | 71 => ⟨S_, .f32⟩
  | 72 => ⟨S4x100, .f32⟩
  | 73 => ⟨S4x100x1, .f32⟩
  | 74 => ⟨S4x100x1, .f32⟩
  | 75 => ⟨S4x100x21, .f32⟩
  | 76 => ⟨S4x100x21, .f32⟩
  | 77 => ⟨S4x100x1, .i32⟩
  | 78 => ⟨S_, .i32⟩
  | 79 => ⟨S4x100x1, .i32⟩
  | 80 => ⟨S4x100x1, .i1⟩
  | 81 => ⟨S_, .i32⟩
  | 82 => ⟨S4x100x1, .i32⟩
  | 83 => ⟨S4x100x1, .i32⟩
  | 84 => ⟨S4x100x1, .i32⟩
  | 85 => ⟨S4x100x1x1, .i32⟩
  | 86 => ⟨S1, .i32⟩
  | 87 => ⟨S_, .i32⟩
  | 88 => ⟨S4x100x1x1, .i32⟩
  | 89 => ⟨S4x100x1x1, .i1⟩
  | 90 => ⟨S1x1x1x1, .i32⟩
  | 91 => ⟨S4x100x1x1, .i32⟩
  | 92 => ⟨S4x100x1x1, .i1⟩
  | 93 => ⟨S4x100x1x1, .i1⟩
  | 94 => ⟨S_, .i1⟩
  | 95 => ⟨S4x100x1, .i1⟩
  | 96 => ⟨S4x100x1, .f32⟩
  | 97 => ⟨S_, .f32⟩
  | 98 => ⟨S4x100x1, .f32⟩
  | 99 => ⟨S4x100x1, .f32⟩
  | 100 => ⟨S4x100, .f32⟩
  | 101 => ⟨S4x100, .f32⟩
  | 102 => ⟨S_, .i32⟩
  | 103 => ⟨S4x100, .i32⟩
  | 104 => ⟨S4x100, .i1⟩
  | 105 => ⟨S_, .i32⟩
  | 106 => ⟨S4x100, .i32⟩
  | 107 => ⟨S4x100, .i32⟩
  | 108 => ⟨S4x100, .i32⟩
  | 109 => ⟨S4x100x1, .i32⟩
  | 110 => ⟨S4x100, .f32⟩
  | 111 => ⟨S_, .i32⟩
  | 112 => ⟨S4x100, .i32⟩
  | 113 => ⟨S4x100, .i1⟩
  | 114 => ⟨S4x100, .f32⟩
  | 115 => ⟨S4x100, .f32⟩
  | 116 => ⟨S4x100, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S4, .i32⟩
  | 125 => ⟨S4x1, .i32⟩
  | 126 => ⟨S_, .f32⟩
  | 127 => ⟨S4x100x30, .f32⟩
  | _ => ⟨S4x100x21, .f32⟩

abbrev hbmTy0_1 (i : Nat) : BufTy := match i % 128 with
  | 0 => ⟨S_, .i32⟩
  | 1 => ⟨S4x1, .i32⟩
  | 2 => ⟨S4x1, .i1⟩
  | 3 => ⟨S_, .i32⟩
  | 4 => ⟨S4x1, .i32⟩
  | 5 => ⟨S4x1, .i32⟩
  | 6 => ⟨S4x1, .i32⟩
  | 7 => ⟨S_, .i32⟩
  | 8 => ⟨S4x30, .i32⟩
  | 9 => ⟨S4x30, .i1⟩
  | 10 => ⟨S_, .i32⟩
  | 11 => ⟨S4x30, .i32⟩
  | 12 => ⟨S4x30, .i32⟩
  | 13 => ⟨S4x30, .i32⟩
  | 14 => ⟨S_, .i32⟩
  | 15 => ⟨S4x30, .i32⟩
  | 16 => ⟨S4x30, .i1⟩
  | 17 => ⟨S_, .i32⟩
  | 18 => ⟨S4x30, .i32⟩
  | 19 => ⟨S4x30, .i32⟩
  | 20 => ⟨S4x30, .i32⟩
  | 21 => ⟨S4x30, .i32⟩
  | 22 => ⟨S4x30x1, .i32⟩
  | 23 => ⟨S4x30x1, .i32⟩
  | 24 => ⟨S4x30x1, .i32⟩
  | 25 => ⟨S4x30x3, .i32⟩
  | 26 => ⟨S_, .f32⟩
  | 27 => ⟨S4x30, .f32⟩
  | 28 => ⟨S4x100x30, .f32⟩
  | 29 => ⟨S_, .i32⟩
  | 30 => ⟨S4x45000, .i32⟩
  | 31 => ⟨S4x45000, .i1⟩
  | 32 => ⟨S_, .i32⟩
  | 33 => ⟨S4x45000, .i32⟩
  | 34 => ⟨S4x45000, .i32⟩
  | 35 => ⟨S4x45000, .i32⟩
  | 36 => ⟨S4x45000x1, .i32⟩
  | 37 => ⟨S1, .i32⟩
  | 38 => ⟨S_, .i32⟩
  | 39 => ⟨S4x45000x1, .i32⟩
  | 40 => ⟨S4x45000x1, .i1⟩
  | 41 => ⟨S1x1x1, .i32⟩
  | 42 => ⟨S4x45000x1, .i32⟩
  | 43 => ⟨S4x45000x1, .i1⟩
  | 44 => ⟨S4x45000x1, .i1⟩
  | 45 => ⟨S_, .i1⟩
  | 46 => ⟨S4x45000, .i1⟩
  | 47 => ⟨S4x45000x100, .f32⟩
  | 48 => ⟨S4x45000x100, .i1⟩
  | 49 => ⟨S_, .f32⟩
  | 50 => ⟨S4x45000x100, .f32⟩
  | 51 => ⟨S4x45000x100, .f32⟩
  | 52 => ⟨S_, .i32⟩
  | 53 => ⟨S_, .f32⟩
  | 54 => ⟨S4x45056x100, .f32⟩
  | 55 => ⟨S_, .i32⟩
  | 56 => ⟨S4x45000, .i32⟩
  | 57 => ⟨S4x45000, .i1⟩
  | 58 => ⟨S_, .i32⟩
  | 59 => ⟨S4x45000, .i32⟩
  | 60 => ⟨S4x45000, .i32⟩
  | 61 => ⟨S4x45000, .i32⟩
  | 62 => ⟨S4x45000x1, .i32⟩
  | 63 => ⟨S1, .i32⟩
  | 64 => ⟨S_, .i32⟩
  | 65 => ⟨S4x45000x1, .i32⟩
  | 66 => ⟨S4x45000x1, .i1⟩
  | 67 => ⟨S1x1x1, .i32⟩
  | 68 => ⟨S4x45000x1, .i32⟩
  | 69 => ⟨S4x45000x1, .i1⟩
  | 70 => ⟨S4x45000x1, .i1⟩
  | 71 => ⟨S_, .i1⟩
  | 72 => ⟨S4x45000, .i1⟩
  | 73 => ⟨S4x30x45000, .f32⟩
  | 74 => ⟨S4x30x45000, .i1⟩
  | 75 => ⟨S_, .f32⟩
  | 76 => ⟨S4x30x45000, .f32⟩
  | 77 => ⟨S4x30x45000, .f32⟩
  | 78 => ⟨S_, .i32⟩
  | 79 => ⟨S_, .f32⟩
  | 80 => ⟨S4x30x45056, .f32⟩
  | 81 => ⟨S4x30x2, .f32⟩
  | 82 => ⟨S4x30x1, .f32⟩
  | 83 => ⟨S4x30, .f32⟩
  | 84 => ⟨S_, .f32⟩
  | 85 => ⟨S_, .f32⟩
  | 86 => ⟨S_, .f32⟩
  | 87 => ⟨S_, .f32⟩
  | 88 => ⟨S4x30x1, .f32⟩
  | 89 => ⟨S4x30, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S1, .f32⟩
  | 101 => ⟨S1, .f32⟩
  | 102 => ⟨S1, .f32⟩
  | 103 => ⟨S3, .f32⟩
  | _ => ⟨S4x100x21, .f32⟩

abbrev hbmTy (i : Nat) : BufTy := match i / 128 with
  | 0 => hbmTy0_0 i
  | 1 => hbmTy0_1 i
  | _ => ⟨S4x100x21, .f32⟩

abbrev bufTy : (tb : Table) → Fin (tcTables nBuf tb) → BufTy
  | .hbm, ⟨i, _⟩ => hbmTy i
  | .local _ .vmem, ⟨0, _⟩ => ⟨S1x5632x100, .f32⟩
  | .local _ .vmem, ⟨1, _⟩ => ⟨S1x5632x100, .f32⟩
  | .local _ .vmem, ⟨2, _⟩ => ⟨S1x100x30, .f32⟩
  | .local _ .vmem, ⟨3, _⟩ => ⟨S1x30x5632, .f32⟩
  | .local _ .vmem, ⟨4, _⟩ => ⟨S1x30x5632, .f32⟩
  | .local _ .vmem, ⟨5, _⟩ => ⟨S1x30x2, .f32⟩
  | .local _ .vmem, ⟨6, _⟩ => ⟨S1x30x2, .f32⟩
  | .local _ .vmem, ⟨7, _⟩ => ⟨S30x1, .f32⟩
  | .local _ .vmem, ⟨8, _⟩ => ⟨S30x1, .f32⟩
  | .local _ .vmem, ⟨9, _⟩ => ⟨S30x1, .f32⟩
  | .local _ .vmem, ⟨10, _⟩ => ⟨S30x1, .f32⟩
  | _, _ => ⟨S4x100x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_c_4 : Ref sig .tc := ⟨.hbm, 38, rfl⟩
abbrev main_call0_v14 : Ref sig .tc := ⟨.hbm, 39, rfl⟩
abbrev main_v7 : Ref sig .tc := ⟨.hbm, 40, rfl⟩
abbrev main_c_3 : Ref sig .tc := ⟨.hbm, 41, rfl⟩
abbrev main_v8 : Ref sig .tc := ⟨.hbm, 42, rfl⟩
abbrev main_c_4 : Ref sig .tc := ⟨.hbm, 43, rfl⟩
abbrev main_v9 : Ref sig .tc := ⟨.hbm, 44, rfl⟩
abbrev main_v10 : Ref sig .tc := ⟨.hbm, 45, rfl⟩
abbrev main_c_5 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_c_6 : Ref sig .tc := ⟨.hbm, 50, rfl⟩
abbrev main_v14 : Ref sig .tc := ⟨.hbm, 51, rfl⟩
abbrev main_v15 : Ref sig .tc := ⟨.hbm, 52, rfl⟩
abbrev main_c_7 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_call1_cst : Ref sig .tc := ⟨.hbm, 62, rfl⟩
abbrev main_call1_v0 : Ref sig .tc := ⟨.hbm, 63, rfl⟩
abbrev main_call1_cst_0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_cst_1 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_v24 : Ref sig .tc := ⟨.hbm, 76, rfl⟩
abbrev main_v25 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_cst : Ref sig .tc := ⟨.hbm, 97, rfl⟩
abbrev main_call2_v14 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_c_8 : Ref sig .tc := ⟨.hbm, 102, rfl⟩
abbrev main_v29 : Ref sig .tc := ⟨.hbm, 103, rfl⟩
abbrev main_v30 : Ref sig .tc := ⟨.hbm, 104, rfl⟩
abbrev main_c_9 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_c_10 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_cst_11 : Ref sig .tc := ⟨.hbm, 117, rfl⟩
abbrev main_v41 : Ref sig .tc := ⟨.hbm, 118, rfl⟩
abbrev main_cst_12 : Ref sig .tc := ⟨.hbm, 119, rfl⟩
abbrev main_v42 : Ref sig .tc := ⟨.hbm, 120, rfl⟩
abbrev main_cst_13 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_cst_14 : Ref sig .tc := ⟨.hbm, 126, rfl⟩
abbrev main_v47 : Ref sig .tc := ⟨.hbm, 127, rfl⟩
abbrev main_c_15 : Ref sig .tc := ⟨.hbm, 128, rfl⟩
abbrev main_v48 : Ref sig .tc := ⟨.hbm, 129, rfl⟩
abbrev main_v49 : Ref sig .tc := ⟨.hbm, 130, rfl⟩
abbrev main_c_16 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_c_17 : Ref sig .tc := ⟨.hbm, 135, rfl⟩
abbrev main_v53 : Ref sig .tc := ⟨.hbm, 136, rfl⟩
abbrev main_v54 : Ref sig .tc := ⟨.hbm, 137, rfl⟩
abbrev main_c_18 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_c_19 : Ref sig .tc := ⟨.hbm, 142, rfl⟩
abbrev main_v58 : Ref sig .tc := ⟨.hbm, 143, rfl⟩
abbrev main_v59 : Ref sig .tc := ⟨.hbm, 144, rfl⟩
abbrev main_c_20 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_cst_21 : Ref sig .tc := ⟨.hbm, 154, rfl⟩
abbrev main_v68 : Ref sig .tc := ⟨.hbm, 155, rfl⟩
abbrev main_v69 : Ref sig .tc := ⟨.hbm, 156, rfl⟩
abbrev main_call3_c : Ref sig .tc := ⟨.hbm, 157, rfl⟩
abbrev main_call3_v0 : Ref sig .tc := ⟨.hbm, 158, rfl⟩
abbrev main_call3_v1 : Ref sig .tc := ⟨.hbm, 159, rfl⟩
abbrev main_call3_c_0 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_call3_v5 : Ref sig .tc := ⟨.hbm, 164, rfl⟩
abbrev main_call3_c_1 : Ref sig .tc := ⟨.hbm, 165, rfl⟩
abbrev main_call3_c_2 : Ref sig .tc := ⟨.hbm, 166, rfl⟩
abbrev main_call3_v6 : Ref sig .tc := ⟨.hbm, 167, rfl⟩
abbrev main_call3_v7 : Ref sig .tc := ⟨.hbm, 168, rfl⟩
abbrev main_call3_v8 : Ref sig .tc := ⟨.hbm, 169, rfl⟩
abbrev main_call3_v9 : Ref sig .tc := ⟨.hbm, 170, rfl⟩
abbrev main_call3_v10 : Ref sig .tc := ⟨.hbm, 171, rfl⟩
abbrev main_call3_v11 : Ref sig .tc := ⟨.hbm, 172, rfl⟩
abbrev main_call3_c_3 : Ref sig .tc := ⟨.hbm, 173, rfl⟩
abbrev main_call3_v12 : Ref sig .tc := ⟨.hbm, 174, rfl⟩
abbrev main_call3_v13 : Ref sig .tc := ⟨.hbm, 175, rfl⟩
abbrev main_call3_v14 : Ref sig .tc := ⟨.hbm, 176, rfl⟩
abbrev main_call3_cst : Ref sig .tc := ⟨.hbm, 177, rfl⟩
abbrev main_call3_v15 : Ref sig .tc := ⟨.hbm, 178, rfl⟩
abbrev main_v70 : Ref sig .tc := ⟨.hbm, 179, rfl⟩
abbrev main_c_22 : Ref sig .tc := ⟨.hbm, 180, rfl⟩
abbrev main_call4_v0 : Ref sig .tc := ⟨.hbm, 181, rfl⟩
abbrev main_v71 : Ref sig .tc := ⟨.hbm, 182, rfl⟩
abbrev main_call5_c : Ref sig .tc := ⟨.hbm, 183, rfl⟩
abbrev main_call5_v0 : Ref sig .tc := ⟨.hbm, 184, rfl⟩
abbrev main_call5_v1 : Ref sig .tc := ⟨.hbm, 185, rfl⟩
abbrev main_call5_c_0 : Ref sig .tc := ⟨.hbm, 186, rfl⟩
abbrev main_call5_v2 : Ref sig .tc := ⟨.hbm, 187, rfl⟩
abbrev main_call5_v3 : Ref sig .tc := ⟨.hbm, 188, rfl⟩
abbrev main_call5_v4 : Ref sig .tc := ⟨.hbm, 189, rfl⟩
abbrev main_call5_v5 : Ref sig .tc := ⟨.hbm, 190, rfl⟩
abbrev main_call5_c_1 : Ref sig .tc := ⟨.hbm, 191, rfl⟩
abbrev main_call5_c_2 : Ref sig .tc := ⟨.hbm, 192, rfl⟩
abbrev main_call5_v6 : Ref sig .tc := ⟨.hbm, 193, rfl⟩
abbrev main_call5_v7 : Ref sig .tc := ⟨.hbm, 194, rfl⟩
abbrev main_call5_v8 : Ref sig .tc := ⟨.hbm, 195, rfl⟩
abbrev main_call5_v9 : Ref sig .tc := ⟨.hbm, 196, rfl⟩
abbrev main_call5_v10 : Ref sig .tc := ⟨.hbm, 197, rfl⟩
abbrev main_call5_v11 : Ref sig .tc := ⟨.hbm, 198, rfl⟩
abbrev main_call5_c_3 : Ref sig .tc := ⟨.hbm, 199, rfl⟩
abbrev main_call5_v12 : Ref sig .tc := ⟨.hbm, 200, rfl⟩
abbrev main_call5_v13 : Ref sig .tc := ⟨.hbm, 201, rfl⟩
abbrev main_call5_v14 : Ref sig .tc := ⟨.hbm, 202, rfl⟩
abbrev main_call5_cst : Ref sig .tc := ⟨.hbm, 203, rfl⟩
abbrev main_call5_v15 : Ref sig .tc := ⟨.hbm, 204, rfl⟩
abbrev main_v72 : Ref sig .tc := ⟨.hbm, 205, rfl⟩
abbrev main_c_23 : Ref sig .tc := ⟨.hbm, 206, rfl⟩
abbrev main_call6_v0 : Ref sig .tc := ⟨.hbm, 207, rfl⟩
abbrev main_v73 : Ref sig .tc := ⟨.hbm, 208, rfl⟩
abbrev main_v74 : Ref sig .tc := ⟨.hbm, 209, rfl⟩
abbrev main_v75 : Ref sig .tc := ⟨.hbm, 210, rfl⟩
abbrev main_v76 : Ref sig .tc := ⟨.hbm, 211, rfl⟩
abbrev main_cst_24 : Ref sig .tc := ⟨.hbm, 212, rfl⟩
abbrev main_v77 : Ref sig .tc := ⟨.hbm, 213, rfl⟩
abbrev main_cst_25 : Ref sig .tc := ⟨.hbm, 214, rfl⟩
abbrev main_v78 : Ref sig .tc := ⟨.hbm, 215, rfl⟩
abbrev main_v79 : Ref sig .tc := ⟨.hbm, 216, rfl⟩
abbrev main_v80 : Ref sig .tc := ⟨.hbm, 217, rfl⟩
abbrev main_cst_26 : Ref sig .tc := ⟨.hbm, 218, rfl⟩
abbrev main_v81 : Ref sig .tc := ⟨.hbm, 219, rfl⟩
abbrev main_cst_27 : Ref sig .tc := ⟨.hbm, 220, rfl⟩
abbrev main_v82 : Ref sig .tc := ⟨.hbm, 221, rfl⟩
abbrev main_cst_28 : Ref sig .tc := ⟨.hbm, 222, rfl⟩
abbrev main_v83 : Ref sig .tc := ⟨.hbm, 223, rfl⟩
abbrev main_cst_29 : Ref sig .tc := ⟨.hbm, 224, rfl⟩
abbrev main_v84 : Ref sig .tc := ⟨.hbm, 225, rfl⟩
abbrev main_cst_30 : Ref sig .tc := ⟨.hbm, 226, rfl⟩
abbrev main_v85 : Ref sig .tc := ⟨.hbm, 227, rfl⟩
abbrev main_v86 : Ref sig .tc := ⟨.hbm, 228, rfl⟩
abbrev main_v87 : Ref sig .tc := ⟨.hbm, 229, rfl⟩
abbrev main_v88 : Ref sig .tc := ⟨.hbm, 230, rfl⟩
abbrev main_v89 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v75 : BitVec 1 := Scalar.cmpi .eq arg1 c7_i32
  let v76 : BitVec 32 := Scalar.extui v75
  let c0_i32_40 : BitVec 32 := 0#32
  let v77 : BitVec 1 := Scalar.cmpi .ne v76 c0_i32_40
  v77

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5632x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x100x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x30x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x30x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S21 : S_.BroadcastsInDim S21 (![] : Fin 0 → Fin S21.rank)
  bcast_S_S1 : S_.BroadcastsInDim S1 (![] : Fin 0 → Fin S1.rank)
  bcast_S4_S4x1_0 : S4.BroadcastsInDim S4x1 (![0] : Fin 1 → Fin S4x1.rank)
  bcast_S_S4x30 : S_.BroadcastsInDim S4x30 (![] : Fin 0 → Fin S4x30.rank)
  shapeCasts_S4x30_S4x30x1 : S4x30.ShapeCasts S4x30x1
  bcast_S_S4x30x1 : S_.BroadcastsInDim S4x30x1 (![] : Fin 0 → Fin S4x30x1.rank)
  bcast_S1_S1x1x1_2 : S1.BroadcastsInDim S1x1x1 (![2] : Fin 1 → Fin S1x1x1.rank)
  bcast_S1x1x1_S4x30x1_0_1_2 : S1x1x1.BroadcastsInDim S4x30x1 (![0, 1, 2] : Fin 3 → Fin S4x30x1.rank)
  reducesTo_S4x30x1_S4x30_d2 : S4x30x1.ReducesTo [2] S4x30
  h_S_ : 0 < S_.numel
  bcast_S_S4x100 : S_.BroadcastsInDim S4x100 (![] : Fin 0 → Fin S4x100.rank)
  bcast_S_S4x1 : S_.BroadcastsInDim S4x1 (![] : Fin 0 → Fin S4x1.rank)
  bcast_S4x1_S4x30_0_1 : S4x1.BroadcastsInDim S4x30 (![0, 1] : Fin 2 → Fin S4x30.rank)
  bcast_S4x30_S4x30x1_0_1 : S4x30.BroadcastsInDim S4x30x1 (![0, 1] : Fin 2 → Fin S4x30x1.rank)
  concatenates_S4x30x1_S4x30x1_S4x30x2_d2 : Shape.Concatenates [S4x30x1, S4x30x1] S4x30x2 2
  reducesTo_S4x100x21_S4x100_d2 : S4x100x21.ReducesTo [2] S4x100
  bcast_S4x100_S4x100x1_0_1 : S4x100.BroadcastsInDim S4x100x1 (![0, 1] : Fin 2 → Fin S4x100x1.rank)
  bcast_S4x100x1_S4x100x21_0_1_2 : S4x100x1.BroadcastsInDim S4x100x21 (![0, 1, 2] : Fin 3 → Fin S4x100x21.rank)
  bcast_S_S4x100x1 : S_.BroadcastsInDim S4x100x1 (![] : Fin 0 → Fin S4x100x1.rank)
  shapeCasts_S4x100x1_S4x100x1x1 : S4x100x1.ShapeCasts S4x100x1x1
  bcast_S_S4x100x1x1 : S_.BroadcastsInDim S4x100x1x1 (![] : Fin 0 → Fin S4x100x1x1.rank)
  bcast_S1_S1x1x1x1_3 : S1.BroadcastsInDim S1x1x1x1 (![3] : Fin 1 → Fin S1x1x1x1.rank)
  bcast_S1x1x1x1_S4x100x1x1_0_1_2_3 : S1x1x1x1.BroadcastsInDim S4x100x1x1 (![0, 1, 2, 3] : Fin 4 → Fin S4x100x1x1.rank)
  reducesTo_S4x100x1x1_S4x100x1_d3 : S4x100x1x1.ReducesTo [3] S4x100x1
  shapeCasts_S4x100x1_S4x100 : S4x100x1.ShapeCasts S4x100
  reducesTo_S4x100_S_d0_1 : S4x100.ReducesTo [0, 1] S_
  bcast_S_S4x100x30 : S_.BroadcastsInDim S4x100x30 (![] : Fin 0 → Fin S4x100x30.rank)
  concatenates_S4x30x1_S4x30x1_S4x30x1_S4x30x3_d2 : Shape.Concatenates [S4x30x1, S4x30x1, S4x30x1] S4x30x3 2
  bcast_S_S4x45000 : S_.BroadcastsInDim S4x45000 (![] : Fin 0 → Fin S4x45000.rank)
  bcast_S4x45000_S4x45000x1_0_1 : S4x45000.BroadcastsInDim S4x45000x1 (![0, 1] : Fin 2 → Fin S4x45000x1.rank)
  bcast_S_S4x45000x1 : S_.BroadcastsInDim S4x45000x1 (![] : Fin 0 → Fin S4x45000x1.rank)
  bcast_S1x1x1_S4x45000x1_0_1_2 : S1x1x1.BroadcastsInDim S4x45000x1 (![0, 1, 2] : Fin 3 → Fin S4x45000x1.rank)
  reducesTo_S4x45000x1_S4x45000_d2 : S4x45000x1.ReducesTo [2] S4x45000
  bcast_S4x45000_S4x45000x100_0_1 : S4x45000.BroadcastsInDim S4x45000x100 (![0, 1] : Fin 2 → Fin S4x45000x100.rank)
  bcast_S_S4x45000x100 : S_.BroadcastsInDim S4x45000x100 (![] : Fin 0 → Fin S4x45000x100.rank)
  pads_S4x45000x100_S4x45056x100_000_0560_000 : S4x45000x100.Pads (![0, 0, 0] : Fin 3 → Nat) ![0, 56, 0] ![0, 0, 0] S4x45056x100
  bcast_S4x45000_S4x30x45000_0_2 : S4x45000.BroadcastsInDim S4x30x45000 (![0, 2] : Fin 2 → Fin S4x30x45000.rank)
  bcast_S_S4x30x45000 : S_.BroadcastsInDim S4x30x45000 (![] : Fin 0 → Fin S4x30x45000.rank)
  pads_S4x30x45000_S4x30x45056_000_000_0560 : S4x30x45000.Pads (![0, 0, 0] : Fin 3 → Nat) ![0, 0, 56] ![0, 0, 0] S4x30x45056
  inb_S30x1_S30x1_0_0 : ∀ a, (![0, 0] : Fin 2 → Nat) a + S30x1.size a ≤ S30x1.size a
  h_S30x1 : 0 < S30x1.numel
  shapeCasts_S30x1_S30x1 : S30x1.ShapeCasts S30x1
  inb_S1x5632x100_S1x5632x100_0_0_0 : ∀ a, (![0, 0, 0] : Fin 3 → Nat) a + S1x5632x100.size a ≤ S1x5632x100.size a
  h_S1x5632x100 : 0 < S1x5632x100.numel
  shapeCasts_S1x5632x100_S5632x100 : S1x5632x100.ShapeCasts S5632x100
  inb_S1x100x30_S1x100x30_0_0_0 : ∀ a, (![0, 0, 0] : Fin 3 → Nat) a + S1x100x30.size a ≤ S1x100x30.size a
  h_S1x100x30 : 0 < S1x100x30.numel
  shapeCasts_S1x100x30_S100x30 : S1x100x30.ShapeCasts S100x30
  inb_S1x30x5632_S1x30x5632_0_0_0 : ∀ a, (![0, 0, 0] : Fin 3 → Nat) a + S1x30x5632.size a ≤ S1x30x5632.size a
  h_S1x30x5632 : 0 < S1x30x5632.numel
  shapeCasts_S1x30x5632_S30x5632 : S1x30x5632.ShapeCasts S30x5632
  transposes_S5632x30_p1_0_S30x5632 : S5632x30.Transposes [1, 0] S30x5632
  iota_S30x5632_d1_w32 : S30x5632.Iotas .tc 32 [1]
  reduces_S30x5632_S30 : S30x5632.Reduces [1] S30
  shapeCasts_S30_S30x1 : S30.ShapeCasts S30x1
  concatenates_S30x1_S30x1_S30x2_d1 : Shape.Concatenates [S30x1, S30x1] S30x2 1
  inb_S1x30x2_S1x30x2_0_0_0 : ∀ a, (![0, 0, 0] : Fin 3 → Nat) a + S1x30x2.size a ≤ S1x30x2.size a
  h_S1x30x2 : 0 < S1x30x2.numel
  shapeCasts_S1x30x2_S30x2 : S1x30x2.ShapeCasts S30x2
  shapeCasts_S30x2_S1x30x2 : S30x2.ShapeCasts S1x30x2
  slices_S4x30x2_S4x30x1_0_0_0 : S4x30x2.Slices ![0, 0, 0] S4x30x1
  shapeCasts_S4x30x1_S4x30 : S4x30x1.ShapeCasts S4x30
  reducesTo_S4x30_S_d0_1 : S4x30.ReducesTo [0, 1] S_
  slices_S4x30x2_S4x30x1_0_0_1 : S4x30x2.Slices ![0, 0, 1] S4x30x1
  concatenates_S1_S1_S1_S3_d0 : Shape.Concatenates [S1, S1, S1] S3 0
  scatter_S21_S1_S__n_0_0_0_wf : ScatterDims.WF S21 S1 S_ [] [0] [0] 0
  gather_S4x30_S4x30x1_S4x30_n_1_0_0_1_2_11_wf : GatherDims.WF S4x30 S4x30x1 S4x30 [] [1] [0] [1] [0] 2 ![1, 1]
  scatter_S4x100_S4x30x2_S4x30_n_01_01_2_wf : ScatterDims.WF S4x100 S4x30x2 S4x30 [] [0, 1] [0, 1] 2
  gather_S4x100x21_S4x100x1x1_S4x100x1_n_2_01_01_2_3_111_wf : GatherDims.WF S4x100x21 S4x100x1x1 S4x100x1 [] [2] [0, 1] [2] [0, 1] 3 ![1, 1, 1]
  gather_S21_S4x100x1_S4x100_n_0_n_n_0_2_1_wf : GatherDims.WF S21 S4x100x1 S4x100 [] [0] [] [0] [] 2 ![1]
  scatter_S4x100x30_S4x30x3_S4x30_n_012_012_2_wf : ScatterDims.WF S4x100x30 S4x30x3 S4x30 [] [0, 1, 2] [0, 1, 2] 2
  gather_S4x80000x100_S4x45000x1_S4x45000x100_2_1_0_0_1_2_11100_wf : GatherDims.WF S4x80000x100 S4x45000x1 S4x45000x100 [2] [1] [0] [1] [0] 2 ![1, 1, 100]
  gather_S4x30x80000_S4x45000x1_S4x30x45000_1_2_0_0_2_2_1301_wf : GatherDims.WF S4x30x80000 S4x45000x1 S4x30x45000 [1] [2] [0] [2] [0] 2 ![1, 30, 1]
  dot_S5632x100_S100x30_S5632x30_1_0_0_1_n_n_wf : DotDims.WF S5632x100 S100x30 S5632x30 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5632x100.size a ≤ S4x45056x100.size a
  hwx0_0 : ∀ i : grid0.Coords, EltTy.bits .f32 = 32 ∨ (Rect.block (s := S4x45056x100) S1x5632x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x100x30.size a ≤ S4x100x30.size a
  hwx0_1 : ∀ i : grid0.Coords, EltTy.bits .f32 = 32 ∨ (Rect.block (s := S4x100x30) S1x100x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x30x5632.size a ≤ S4x30x45056.size a
  hwx0_2 : ∀ i : grid0.Coords, EltTy.bits .f32 = 32 ∨ (Rect.block (s := S4x30x45056) S1x30x5632.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x30x2.size a ≤ S4x30x2.size a
  hwx0_3 : ∀ i : grid0.Coords, EltTy.bits .f32 = 32 ∨ (Rect.block (s := S4x30x2) S1x30x2.size (cc0_transform_3 i) (hinb0_3 i)).WholeWords (EltTy.packing .f32)

variable [Facts₀]

def scatter_S21_S1_S__n_0_0_0 : ScatterDims S21 S1 S_ where
  updateWindowDims := []
  insertedWindowDims := [0]
  scatterDimsToOperandDims := [0]
  indexVectorDim := 0
  wf := scatter_S21_S1_S__n_0_0_0_wf
def gather_S4x30_S4x30x1_S4x30_n_1_0_0_1_2_11 : GatherDims S4x30 S4x30x1 S4x30 where
  offsetDims := []
  collapsedSliceDims := [1]
  operandBatchingDims := [0]
  startIndicesBatchingDims := [0]
  startIndexMap := [1]
  indexVectorDim := 2
  sliceSizes := ![1, 1]
  wf := gather_S4x30_S4x30x1_S4x30_n_1_0_0_1_2_11_wf
def scatter_S4x100_S4x30x2_S4x30_n_01_01_2 : ScatterDims S4x100 S4x30x2 S4x30 where
  updateWindowDims := []
  insertedWindowDims := [0, 1]
  scatterDimsToOperandDims := [0, 1]
  indexVectorDim := 2
  wf := scatter_S4x100_S4x30x2_S4x30_n_01_01_2_wf
def gather_S4x100x21_S4x100x1x1_S4x100x1_n_2_01_01_2_3_111 : GatherDims S4x100x21 S4x100x1x1 S4x100x1 where
  offsetDims := []
  collapsedSliceDims := [2]
  operandBatchingDims := [0, 1]
  startIndicesBatchingDims := [0, 1]
  startIndexMap := [2]
  indexVectorDim := 3
  sliceSizes := ![1, 1, 1]
  wf := gather_S4x100x21_S4x100x1x1_S4x100x1_n_2_01_01_2_3_111_wf
def gather_S21_S4x100x1_S4x100_n_0_n_n_0_2_1 : GatherDims S21 S4x100x1 S4x100 where
  offsetDims := []
  collapsedSliceDims := [0]
  operandBatchingDims := []
  startIndicesBatchingDims := []
  startIndexMap := [0]
  indexVectorDim := 2
  sliceSizes := ![1]
  wf := gather_S21_S4x100x1_S4x100_n_0_n_n_0_2_1_wf
def scatter_S4x100x30_S4x30x3_S4x30_n_012_012_2 : ScatterDims S4x100x30 S4x30x3 S4x30 where
  updateWindowDims := []
  insertedWindowDims := [0, 1, 2]
  scatterDimsToOperandDims := [0, 1, 2]
  indexVectorDim := 2
  wf := scatter_S4x100x30_S4x30x3_S4x30_n_012_012_2_wf
def gather_S4x80000x100_S4x45000x1_S4x45000x100_2_1_0_0_1_2_11100 : GatherDims S4x80000x100 S4x45000x1 S4x45000x100 where
  offsetDims := [2]
  collapsedSliceDims := [1]
  operandBatchingDims := [0]
  startIndicesBatchingDims := [0]
  startIndexMap := [1]
  indexVectorDim := 2
  sliceSizes := ![1, 1, 100]
  wf := gather_S4x80000x100_S4x45000x1_S4x45000x100_2_1_0_0_1_2_11100_wf
def gather_S4x30x80000_S4x45000x1_S4x30x45000_1_2_0_0_2_2_1301 : GatherDims S4x30x80000 S4x45000x1 S4x30x45000 where
  offsetDims := [1]
  collapsedSliceDims := [2]
  operandBatchingDims := [0]
  startIndicesBatchingDims := [0]
  startIndexMap := [2]
  indexVectorDim := 2
  sliceSizes := ![1, 30, 1]
  wf := gather_S4x30x80000_S4x45000x1_S4x30x45000_1_2_0_0_2_2_1301_wf
def dot_S5632x100_S100x30_S5632x30_1_0_0_1_n_n : DotDims S5632x100 S100x30 S5632x30 where
  lhsContracting := [1]
  rhsContracting := [0]
  lhsNonContracting := [0]
  rhsNonContracting := [1]
  lhsBatch := []
  rhsBatch := []
  wf := dot_S5632x100_S100x30_S5632x30_1_0_0_1_n_n_wf

abbrev win0_0 : Pipeline.Window sig grid0 :=
  Pipeline.Window.ofSpec (Memref.whole main_v71) S1x5632x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S1x100x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v73) S1x30x5632.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v74) S1x30x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x100x21 : Shape := ⟨3, ![4, 100, 21]⟩
abbrev S4x80000x100 : Shape := ⟨3, ![4, 80000, 100]⟩
abbrev S4x30x80000 : Shape := ⟨3, ![4, 30, 80000]⟩
abbrev S4x30 : Shape := ⟨2, ![4, 30]⟩
abbrev S4x45000 : Shape := ⟨2, ![4, 45000]⟩
abbrev S_ : Shape := ⟨0, ![]⟩
abbrev S21 : Shape := ⟨1, ![21]⟩
abbrev S1 : Shape := ⟨1, ![1]⟩
abbrev S4 : Shape := ⟨1, ![4]⟩
abbrev S4x1 : Shape := ⟨2, ![4, 1]⟩
abbrev S4x30x1 : Shape := ⟨3, ![4, 30, 1]⟩
abbrev S1x1x1 : Shape := ⟨3, ![1, 1, 1]⟩
abbrev S4x100 : Shape := ⟨2, ![4, 100]⟩
abbrev S4x30x2 : Shape := ⟨3, ![4, 30, 2]⟩
abbrev S4x100x1 : Shape := ⟨3, ![4, 100, 1]⟩
abbrev S4x100x1x1 : Shape := ⟨4, ![4, 100, 1, 1]⟩
abbrev S1x1x1x1 : Shape := ⟨4, ![1, 1, 1, 1]⟩
abbrev S4x100x80000 : Shape := ⟨3, ![4, 100, 80000]⟩
abbrev S4x45000x1 : Shape := ⟨3, ![4, 45000, 1]⟩
abbrev S4x30x45000 : Shape := ⟨3, ![4, 30, 45000]⟩
abbrev S3 : Shape := ⟨1, ![3]⟩

abbrev nBuf : Space → Nat
  | .hbm => 260
  | .vmem => 0
  | .smem => 0
  | _ => 0

abbrev hbmTy0_0 (i : Nat) : BufTy := match i % 128 with
  | 0 => ⟨S4x100x21, .f32⟩
  | 1 => ⟨S4x80000x100, .f32⟩
  | 2 => ⟨S4x30x80000, .f32⟩
  | 3 => ⟨S4x30, .i32⟩
  | 4 => ⟨S4x30, .i32⟩
  | 5 => ⟨S4x30, .i32⟩
  | 6 => ⟨S4x45000, .i32⟩
  | 7 => ⟨S_, .f32⟩
  | 8 => ⟨S21, .f32⟩
  | 9 => ⟨S_, .i32⟩
  | 10 => ⟨S1, .i32⟩
  | 11 => ⟨S_, .f32⟩
  | 12 => ⟨S21, .f32⟩
  | 13 => ⟨S_, .i32⟩
  | 14 => ⟨S1, .i32⟩
  | 15 => ⟨S_, .f32⟩
  | 16 => ⟨S21, .f32⟩
  | 17 => ⟨S4, .i32⟩
  | 18 => ⟨S4x1, .i32⟩
  | 19 => ⟨S_, .i32⟩
  | 20 => ⟨S4x30, .i32⟩
  | 21 => ⟨S4x30, .i1⟩
  | 22 => ⟨S_, .i32⟩
  | 23 => ⟨S4x30, .i32⟩
  | 24 => ⟨S4x30, .i32⟩
  | 25 => ⟨S4x30, .i32⟩
  | 26 => ⟨S4x30x1, .i32⟩
  | 27 => ⟨S1, .i32⟩
  | 28 => ⟨S_, .i32⟩
  | 29 => ⟨S4x30x1, .i32⟩
  | 30 => ⟨S4x30x1, .i1⟩
  | 31 => ⟨S1x1x1, .i32⟩
  | 32 => ⟨S4x30x1, .i32⟩
  | 33 => ⟨S4x30x1, .i1⟩
  | 34 => ⟨S4x30x1, .i1⟩
  | 35 => ⟨S_, .i1⟩
  | 36 => ⟨S4x30, .i1⟩
  | 37 => ⟨S4x30, .i32⟩
  | 38 => ⟨S_, .i32⟩
  | 39 => ⟨S4x30, .i32⟩
  | 40 => ⟨S4x30, .i32⟩
  | 41 => ⟨S_, .i32⟩
  | 42 => ⟨S4x100, .i32⟩
  | 43 => ⟨S_, .i32⟩
  | 44 => ⟨S4x1, .i32⟩
  | 45 => ⟨S4x1, .i1⟩
  | 46 => ⟨S_, .i32⟩
  | 47 => ⟨S4x1, .i32⟩
  | 48 => ⟨S4x1, .i32⟩
  | 49 => ⟨S4x1, .i32⟩
  | 50 => ⟨S_, .i32⟩
  | 51 => ⟨S4x30, .i32⟩
  | 52 => ⟨S4x30, .i1⟩
  | 53 => ⟨S_, .i32⟩
  | 54 => ⟨S4x30, .i32⟩
  | 55 => ⟨S4x30, .i32⟩
  | 56 => ⟨S4x30, .i32⟩
  | 57 => ⟨S4x30, .i32⟩
  | 58 => ⟨S4x30x1, .i32⟩
  | 59 => ⟨S4x30x1, .i32⟩
  | 60 => ⟨S4x30x2, .i32⟩
  | 61 => ⟨S4x100, .i32⟩
  | 62 => ⟨S_, .f32⟩
  | 63 => ⟨S4x100, .f32⟩
  | 64 => ⟨S_, .f32⟩
  | 65 => ⟨S4x100, .f32⟩
  | 66 => ⟨S4x100, .f32⟩
  | 67 => ⟨S4x100x1, .f32⟩
  | 68 => ⟨S4x100x21, .f32⟩
  | 69 => ⟨S4x100x21, .f32⟩
  | 70 => ⟨S4x100x21, .f32⟩
  | 71 => ⟨S_, .f32⟩
  | 72 => ⟨S4x100, .f32⟩
  | 73 => ⟨S4x100x1, .f32⟩
  | 74 => ⟨S4x100x1, .f32⟩
  | 75 => ⟨S4x100x21, .f32⟩
  | 76 => ⟨S4x100x21, .f32⟩
  | 77 => ⟨S4x100x1, .i32⟩
  | 78 => ⟨S_, .i32⟩
  | 79 => ⟨S4x100x1, .i32⟩
  | 80 => ⟨S4x100x1, .i1⟩
  | 81 => ⟨S_, .i32⟩
  | 82 => ⟨S4x100x1, .i32⟩
  | 83 => ⟨S4x100x1, .i32⟩
  | 84 => ⟨S4x100x1, .i32⟩
  | 85 => ⟨S4x100x1x1, .i32⟩
  | 86 => ⟨S1, .i32⟩
  | 87 => ⟨S_, .i32⟩
  | 88 => ⟨S4x100x1x1, .i32⟩
  | 89 => ⟨S4x100x1x1, .i1⟩
  | 90 => ⟨S1x1x1x1, .i32⟩
  | 91 => ⟨S4x100x1x1, .i32⟩
  | 92 => ⟨S4x100x1x1, .i1⟩
  | 93 => ⟨S4x100x1x1, .i1⟩
  | 94 => ⟨S_, .i1⟩
  | 95 => ⟨S4x100x1, .i1⟩
  | 96 => ⟨S4x100x1, .f32⟩
  | 97 => ⟨S_, .f32⟩
  | 98 => ⟨S4x100x1, .f32⟩
  | 99 => ⟨S4x100x1, .f32⟩
  | 100 => ⟨S4x100, .f32⟩
  | 101 => ⟨S4x100, .f32⟩
  | 102 => ⟨S_, .i32⟩
  | 103 => ⟨S4x100, .i32⟩
  | 104 => ⟨S4x100, .i1⟩
  | 105 => ⟨S_, .i32⟩
  | 106 => ⟨S4x100, .i32⟩
  | 107 => ⟨S4x100, .i32⟩
  | 108 => ⟨S4x100, .i32⟩
  | 109 => ⟨S4x100x1, .i32⟩
  | 110 => ⟨S4x100, .f32⟩
  | 111 => ⟨S_, .i32⟩
  | 112 => ⟨S4x100, .i32⟩
  | 113 => ⟨S4x100, .i1⟩
  | 114 => ⟨S4x100, .f32⟩
  | 115 => ⟨S4x100, .f32⟩
  | 116 => ⟨S4x100, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S4x100x80000, .f32⟩
  | 125 => ⟨S4x30x1, .i32⟩
  | 126 => ⟨S_, .i32⟩
  | 127 => ⟨S4x30x1, .i32⟩
  | _ => ⟨S4x100x21, .f32⟩

abbrev hbmTy0_1 (i : Nat) : BufTy := match i % 128 with
  | 0 => ⟨S4x30x1, .i1⟩
  | 1 => ⟨S_, .i32⟩
  | 2 => ⟨S4x30x1, .i32⟩
  | 3 => ⟨S4x30x1, .i32⟩
  | 4 => ⟨S4x30x1, .i32⟩
  | 5 => ⟨S1, .i32⟩
  | 6 => ⟨S_, .i32⟩
  | 7 => ⟨S4x30x1, .i32⟩
  | 8 => ⟨S4x30x1, .i1⟩
  | 9 => ⟨S1x1x1, .i32⟩
  | 10 => ⟨S4x30x1, .i32⟩
  | 11 => ⟨S4x30x1, .i1⟩
  | 12 => ⟨S4x30x1, .i1⟩
  | 13 => ⟨S_, .i1⟩
  | 14 => ⟨S4x30, .i1⟩
  | 15 => ⟨S4x30x80000, .f32⟩
  | 16 => ⟨S4x30x80000, .i1⟩
  | 17 => ⟨S_, .f32⟩
  | 18 => ⟨S4x30x80000, .f32⟩
  | 19 => ⟨S4x30x80000, .f32⟩
  | 20 => ⟨S4x30x1, .i32⟩
  | 21 => ⟨S_, .i32⟩
  | 22 => ⟨S4x30x1, .i32⟩
  | 23 => ⟨S4x30x1, .i1⟩
  | 24 => ⟨S_, .i32⟩
  | 25 => ⟨S4x30x1, .i32⟩
  | 26 => ⟨S4x30x1, .i32⟩
  | 27 => ⟨S4x30x1, .i32⟩
  | 28 => ⟨S1, .i32⟩
  | 29 => ⟨S_, .i32⟩
  | 30 => ⟨S4x30x1, .i32⟩
  | 31 => ⟨S4x30x1, .i1⟩
  | 32 => ⟨S1x1x1, .i32⟩
  | 33 => ⟨S4x30x1, .i32⟩
  | 34 => ⟨S4x30x1, .i1⟩
  | 35 => ⟨S4x30x1, .i1⟩
  | 36 => ⟨S_, .i1⟩
  | 37 => ⟨S4x30, .i1⟩
  | 38 => ⟨S4x30x80000, .f32⟩
  | 39 => ⟨S4x30x80000, .i1⟩
  | 40 => ⟨S_, .f32⟩
  | 41 => ⟨S4x30x80000, .f32⟩
  | 42 => ⟨S4x30x80000, .f32⟩
  | 43 => ⟨S_, .i32⟩
  | 44 => ⟨S4x45000, .i32⟩
  | 45 => ⟨S4x45000, .i1⟩
  | 46 => ⟨S_, .i32⟩
  | 47 => ⟨S4x45000, .i32⟩
  | 48 => ⟨S4x45000, .i32⟩
  | 49 => ⟨S4x45000, .i32⟩
  | 50 => ⟨S4x45000x1, .i32⟩
  | 51 => ⟨S4x30x45000, .f32⟩
  | 52 => ⟨S_, .i32⟩
  | 53 => ⟨S4x45000, .i32⟩
  | 54 => ⟨S4x45000, .i1⟩
  | 55 => ⟨S_, .i32⟩
  | 56 => ⟨S4x45000, .i32⟩
  | 57 => ⟨S4x45000, .i32⟩
  | 58 => ⟨S4x45000, .i32⟩
  | 59 => ⟨S4x45000x1, .i32⟩
  | 60 => ⟨S4x30x45000, .f32⟩
  | 61 => ⟨S_, .f32⟩
  | 62 => ⟨S_, .f32⟩
  | 63 => ⟨S4x30x45000, .f32⟩
  | 64 => ⟨S4x30x45000, .f32⟩
  | 65 => ⟨S4x30x45000, .f32⟩
  | 66 => ⟨S4x30x45000, .f32⟩
  | 67 => ⟨S4x30x45000, .f32⟩
  | 68 => ⟨S4x30x45000, .f32⟩
  | 69 => ⟨S4x30x45000, .f32⟩
  | 70 => ⟨S4x30x45000, .f32⟩
  | 71 => ⟨S4x30x45000, .f32⟩
  | 72 => ⟨S_, .f32⟩
  | 73 => ⟨S4x30, .f32⟩
  | 74 => ⟨S_, .f32⟩
  | 75 => ⟨S4x30, .f32⟩
  | 76 => ⟨S4x30, .f32⟩
  | 77 => ⟨S_, .f32⟩
  | 78 => ⟨S_, .f32⟩
  | 79 => ⟨S_, .f32⟩
  | 80 => ⟨S_, .f32⟩
  | 81 => ⟨S4x30x45000, .f32⟩
  | 82 => ⟨S4x30x45000, .f32⟩
  | 83 => ⟨S_, .f32⟩
  | 84 => ⟨S4x30x45000, .f32⟩
  | 85 => ⟨S4x30x45000, .f32⟩
  | 86 => ⟨S_, .f32⟩
  | 87 => ⟨S4x30x45000, .f32⟩
  | 88 => ⟨S4x30x45000, .f32⟩
  | 89 => ⟨S_, .f32⟩
  | 90 => ⟨S_, .f32⟩
  | 91 => ⟨S_, .f32⟩
  | 92 => ⟨S4x30x45000, .f32⟩
  | 93 => ⟨S4x30x45000, .f32⟩
  | 94 => ⟨S_, .f32⟩
  | 95 => ⟨S4x30x45000, .f32⟩
  | 96 => ⟨S4x30x45000, .f32⟩
  | 97 => ⟨S4x30x45000, .f32⟩
  | 98 => ⟨S_, .f32⟩
  | 99 => ⟨S4x30, .f32⟩
  | 100 => ⟨S_, .f32⟩
  | 101 => ⟨S4x30, .f32⟩
  | 102 => ⟨S4x30, .f32⟩
  | 103 => ⟨S_, .f32⟩
  | 104 => ⟨S4x30, .f32⟩
  | 105 => ⟨S_, .f32⟩
  | 106 => ⟨S4x30, .f32⟩
  | 107 => ⟨S4x30, .f32⟩
  | 108 => ⟨S_, .f32⟩
  | 109 => ⟨S4x30, .f32⟩
  | 110 => ⟨S4x30, .f32⟩
  | 111 => ⟨S_, .f32⟩
  | 112 => ⟨S4x30, .f32⟩
  | 113 => ⟨S4x30, .f32⟩
  | 114 => ⟨S4x30, .f32⟩
  | 115 => ⟨S_, .f32⟩
  | 116 => ⟨S4x30, .f32⟩
  | 117 => ⟨S4x30, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x100x21, .f32⟩

abbrev hbmTy0_2 (i : Nat) : BufTy := match i % 128 with
  | 0 => ⟨S1, .f32⟩
  | 1 => ⟨S1, .f32⟩
  | 2 => ⟨S1, .f32⟩
  | 3 => ⟨S3, .f32⟩
  | _ => ⟨S4x100x21, .f32⟩

abbrev hbmTy (i : Nat) : BufTy := match i / 128 with
  | 0 => hbmTy0_0 i
  | 1 => hbmTy0_1 i
  | 2 => hbmTy0_2 i
  | _ => ⟨S4x100x21, .f32⟩

abbrev bufTy : (tb : Table) → Fin (tcTables nBuf tb) → BufTy
  | .hbm, ⟨i, _⟩ => hbmTy i
  | _, _ => ⟨S4x100x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_c_4 : Ref sig .tc := ⟨.hbm, 38, rfl⟩
abbrev main_call0_v14 : Ref sig .tc := ⟨.hbm, 39, rfl⟩
abbrev main_v7 : Ref sig .tc := ⟨.hbm, 40, rfl⟩
abbrev main_c_3 : Ref sig .tc := ⟨.hbm, 41, rfl⟩
abbrev main_v8 : Ref sig .tc := ⟨.hbm, 42, rfl⟩
abbrev main_c_4 : Ref sig .tc := ⟨.hbm, 43, rfl⟩
abbrev main_v9 : Ref sig .tc := ⟨.hbm, 44, rfl⟩
abbrev main_v10 : Ref sig .tc := ⟨.hbm, 45, rfl⟩
abbrev main_c_5 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_c_6 : Ref sig .tc := ⟨.hbm, 50, rfl⟩
abbrev main_v14 : Ref sig .tc := ⟨.hbm, 51, rfl⟩
abbrev main_v15 : Ref sig .tc := ⟨.hbm, 52, rfl⟩
abbrev main_c_7 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_call1_cst : Ref sig .tc := ⟨.hbm, 62, rfl⟩
abbrev main_call1_v0 : Ref sig .tc := ⟨.hbm, 63, rfl⟩
abbrev main_call1_cst_0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_cst_1 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_v24 : Ref sig .tc := ⟨.hbm, 76, rfl⟩
abbrev main_v25 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_cst : Ref sig .tc := ⟨.hbm, 97, rfl⟩
abbrev main_call2_v14 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_c_8 : Ref sig .tc := ⟨.hbm, 102, rfl⟩
abbrev main_v29 : Ref sig .tc := ⟨.hbm, 103, rfl⟩
abbrev main_v30 : Ref sig .tc := ⟨.hbm, 104, rfl⟩
abbrev main_c_9 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_c_10 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_cst_11 : Ref sig .tc := ⟨.hbm, 117, rfl⟩
abbrev main_v41 : Ref sig .tc := ⟨.hbm, 118, rfl⟩
abbrev main_cst_12 : Ref sig .tc := ⟨.hbm, 119, rfl⟩
abbrev main_v42 : Ref sig .tc := ⟨.hbm, 120, rfl⟩
abbrev main_cst_13 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_call3_c : Ref sig .tc := ⟨.hbm, 126, rfl⟩
abbrev main_call3_v0 : Ref sig .tc := ⟨.hbm, 127, rfl⟩
abbrev main_call3_v1 : Ref sig .tc := ⟨.hbm, 128, rfl⟩
abbrev main_call3_c_0 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_c_1 : Ref sig .tc := ⟨.hbm, 133, rfl⟩
abbrev main_call3_c_2 : Ref sig .tc := ⟨.hbm, 134, rfl⟩
abbrev main_call3_v5 : Ref sig .tc := ⟨.hbm, 135, rfl⟩
abbrev main_call3_v6 : Ref sig .tc := ⟨.hbm, 136, rfl⟩
abbrev main_call3_v7 : Ref sig .tc := ⟨.hbm, 137, rfl⟩
abbrev main_call3_v8 : Ref sig .tc := ⟨.hbm, 138, rfl⟩
abbrev main_call3_v9 : Ref sig .tc := ⟨.hbm, 139, rfl⟩
abbrev main_call3_v10 : Ref sig .tc := ⟨.hbm, 140, rfl⟩
abbrev main_call3_c_3 : Ref sig .tc := ⟨.hbm, 141, rfl⟩
abbrev main_call3_v11 : Ref sig .tc := ⟨.hbm, 142, rfl⟩
abbrev main_call3_v12 : Ref sig .tc := ⟨.hbm, 143, rfl⟩
abbrev main_call3_v13 : Ref sig .tc := ⟨.hbm, 144, rfl⟩
abbrev main_call3_cst : Ref sig .tc := ⟨.hbm, 145, rfl⟩
abbrev main_call3_v14 : Ref sig .tc := ⟨.hbm, 146, rfl⟩
abbrev main_v47 : Ref sig .tc := ⟨.hbm, 147, rfl⟩
abbrev main_v48 : Ref sig .tc := ⟨.hbm, 148, rfl⟩
abbrev main_call4_c : Ref sig .tc := ⟨.hbm, 149, rfl⟩
abbrev main_call4_v0 : Ref sig .tc := ⟨.hbm, 150, rfl⟩
abbrev main_call4_v1 : Ref sig .tc := ⟨.hbm, 151, rfl⟩
abbrev main_call4_c_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_c_1 : Ref sig .tc := ⟨.hbm, 156, rfl⟩
abbrev main_call4_c_2 : Ref sig .tc := ⟨.hbm, 157, rfl⟩
abbrev main_call4_v5 : Ref sig .tc := ⟨.hbm, 158, rfl⟩
abbrev main_call4_v6 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_call4_c_3 : Ref sig .tc := ⟨.hbm, 164, rfl⟩
abbrev main_call4_v11 : Ref sig .tc := ⟨.hbm, 165, rfl⟩
abbrev main_call4_v12 : Ref sig .tc := ⟨.hbm, 166, rfl⟩
abbrev main_call4_v13 : Ref sig .tc := ⟨.hbm, 167, rfl⟩
abbrev main_call4_cst : Ref sig .tc := ⟨.hbm, 168, rfl⟩
abbrev main_call4_v14 : Ref sig .tc := ⟨.hbm, 169, rfl⟩
abbrev main_v49 : Ref sig .tc := ⟨.hbm, 170, rfl⟩
abbrev main_c_14 : Ref sig .tc := ⟨.hbm, 171, rfl⟩
abbrev main_v50 : Ref sig .tc := ⟨.hbm, 172, rfl⟩
abbrev main_v51 : Ref sig .tc := ⟨.hbm, 173, rfl⟩
abbrev main_c_15 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_c_16 : Ref sig .tc := ⟨.hbm, 180, rfl⟩
abbrev main_v57 : Ref sig .tc := ⟨.hbm, 181, rfl⟩
abbrev main_v58 : Ref sig .tc := ⟨.hbm, 182, rfl⟩
abbrev main_c_17 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_cst_18 : Ref sig .tc := ⟨.hbm, 189, rfl⟩
abbrev main_call5_v0 : Ref sig .tc := ⟨.hbm, 190, rfl⟩
abbrev main_call5_v1 : Ref sig .tc := ⟨.hbm, 191, rfl⟩
abbrev main_v64 : Ref sig .tc := ⟨.hbm, 192, rfl⟩
abbrev main_v65 : Ref sig .tc := ⟨.hbm, 193, rfl⟩
abbrev main_v66 : Ref sig .tc := ⟨.hbm, 194, rfl⟩
abbrev main_v67 : Ref sig .tc := ⟨.hbm, 195, rfl⟩
abbrev main_v68 : Ref sig .tc := ⟨.hbm, 196, rfl⟩
abbrev main_v69 : Ref sig .tc := ⟨.hbm, 197, rfl⟩
abbrev main_v70 : Ref sig .tc := ⟨.hbm, 198, rfl⟩
abbrev main_v71 : Ref sig .tc := ⟨.hbm, 199, rfl⟩
abbrev main_cst_19 : Ref sig .tc := ⟨.hbm, 200, rfl⟩
abbrev main_v72 : Ref sig .tc := ⟨.hbm, 201, rfl⟩
abbrev main_cst_20 : Ref sig .tc := ⟨.hbm, 202, rfl⟩
abbrev main_v73 : Ref sig .tc := ⟨.hbm, 203, rfl⟩
abbrev main_v74 : Ref sig .tc := ⟨.hbm, 204, rfl⟩
abbrev main_cst_21 : Ref sig .tc := ⟨.hbm, 205, rfl⟩
abbrev main_v75 : Ref sig .tc := ⟨.hbm, 206, rfl⟩
abbrev main_cst_22 : Ref sig .tc := ⟨.hbm, 207, rfl⟩
abbrev main_v76 : Ref sig .tc := ⟨.hbm, 208, rfl⟩
abbrev main_v77 : Ref sig .tc := ⟨.hbm, 209, rfl⟩
abbrev main_v78 : Ref sig .tc := ⟨.hbm, 210, rfl⟩
abbrev main_cst_23 : Ref sig .tc := ⟨.hbm, 211, rfl⟩
abbrev main_v79 : Ref sig .tc := ⟨.hbm, 212, rfl⟩
abbrev main_v80 : Ref sig .tc := ⟨.hbm, 213, rfl⟩
abbrev main_cst_24 : Ref sig .tc := ⟨.hbm, 214, rfl⟩
abbrev main_v81 : Ref sig .tc := ⟨.hbm, 215, rfl⟩
abbrev main_v82 : Ref sig .tc := ⟨.hbm, 216, rfl⟩
abbrev main_cst_25 : Ref sig .tc := ⟨.hbm, 217, rfl⟩
abbrev main_cst_26 : Ref sig .tc := ⟨.hbm, 218, rfl⟩
abbrev main_call6_v0 : Ref sig .tc := ⟨.hbm, 219, rfl⟩
abbrev main_call6_v1 : Ref sig .tc := ⟨.hbm, 220, rfl⟩
abbrev main_call6_v2 : Ref sig .tc := ⟨.hbm, 221, rfl⟩
abbrev main_call6_v3 : Ref sig .tc := ⟨.hbm, 222, rfl⟩
abbrev main_call6_v4 : Ref sig .tc := ⟨.hbm, 223, rfl⟩
abbrev main_v83 : Ref sig .tc := ⟨.hbm, 224, rfl⟩
abbrev main_v84 : Ref sig .tc := ⟨.hbm, 225, rfl⟩
abbrev main_cst_27 : Ref sig .tc := ⟨.hbm, 226, rfl⟩
abbrev main_v85 : Ref sig .tc := ⟨.hbm, 227, rfl⟩
abbrev main_cst_28 : Ref sig .tc := ⟨.hbm, 228, rfl⟩
abbrev main_v86 : Ref sig .tc := ⟨.hbm, 229, rfl⟩
abbrev main_v87 : Ref sig .tc := ⟨.hbm, 230, rfl⟩
abbrev main_cst_29 : Ref sig .tc := ⟨.hbm, 231, rfl⟩
abbrev main_v88 : Ref sig .tc := ⟨.hbm, 232, rfl⟩
abbrev main_cst_30 : Ref sig .tc := ⟨.hbm, 233, rfl⟩
abbrev main_v89 : Ref sig .tc := ⟨.hbm, 234, rfl⟩
abbrev main_v90 : Ref sig .tc := ⟨.hbm, 235, rfl⟩
abbrev main_cst_31 : Ref sig .tc := ⟨.hbm, 236, rfl⟩
abbrev main_v91 : Ref sig .tc := ⟨.hbm, 237, rfl⟩
abbrev main_v92 : Ref sig .tc := ⟨.hbm, 238, rfl⟩
abbrev main_cst_32 : Ref sig .tc := ⟨.hbm, 239, rfl⟩
abbrev main_v93 : Ref sig .tc := ⟨.hbm, 240, rfl⟩
abbrev main_v94 : Ref sig .tc := ⟨.hbm, 241, rfl⟩
abbrev main_v95 : Ref sig .tc := ⟨.hbm, 242, rfl⟩
abbrev main_cst_33 : Ref sig .tc := ⟨.hbm, 243, rfl⟩
abbrev main_v96 : Ref sig .tc := ⟨.hbm, 244, rfl⟩
abbrev main_v97 : Ref sig .tc := ⟨.hbm, 245, rfl⟩
abbrev main_cst_34 : Ref sig .tc := ⟨.hbm, 246, rfl⟩
abbrev main_v98 : Ref sig .tc := ⟨.hbm, 247, rfl⟩
abbrev main_cst_35 : Ref sig .tc := ⟨.hbm, 248, rfl⟩
abbrev main_v99 : Ref sig .tc := ⟨.hbm, 249, rfl⟩
abbrev main_cst_36 : Ref sig .tc := ⟨.hbm, 250, rfl⟩
abbrev main_v100 : Ref sig .tc := ⟨.hbm, 251, rfl⟩
abbrev main_cst_37 : Ref sig .tc := ⟨.hbm, 252, rfl⟩
abbrev main_v101 : Ref sig .tc := ⟨.hbm, 253, rfl⟩
abbrev main_cst_38 : Ref sig .tc := ⟨.hbm, 254, rfl⟩
abbrev main_v102 : Ref sig .tc := ⟨.hbm, 255, rfl⟩
abbrev main_v103 : Ref sig .tc := ⟨.hbm, 256, rfl⟩
abbrev main_v104 : Ref sig .tc := ⟨.hbm, 257, rfl⟩
abbrev main_v105 : Ref sig .tc := ⟨.hbm, 258, rfl⟩
abbrev main_v106 : Ref sig .tc := ⟨.hbm, 259, rfl⟩

abbrev nD : Nat := 1
abbrev τ : Topo := Topo.v7x

variable {F : FTy → Type} [FloatOps F]

class Facts₀ : Prop where
  bcast_S_S21 : S_.BroadcastsInDim S21 (![] : Fin 0 → Fin S21.rank)
  bcast_S_S1 : S_.BroadcastsInDim S1 (![] : Fin 0 → Fin S1.rank)
  bcast_S4_S4x1_0 : S4.BroadcastsInDim S4x1 (![0] : Fin 1 → Fin S4x1.rank)
  bcast_S_S4x30 : S_.BroadcastsInDim S4x30 (![] : Fin 0 → Fin S4x30.rank)
  shapeCasts_S4x30_S4x30x1 : S4x30.ShapeCasts S4x30x1
  bcast_S_S4x30x1 : S_.BroadcastsInDim S4x30x1 (![] : Fin 0 → Fin S4x30x1.rank)
  bcast_S1_S1x1x1_2 : S1.BroadcastsInDim S1x1x1 (![2] : Fin 1 → Fin S1x1x1.rank)
  bcast_S1x1x1_S4x30x1_0_1_2 : S1x1x1.BroadcastsInDim S4x30x1 (![0, 1, 2] : Fin 3 → Fin S4x30x1.rank)
  reducesTo_S4x30x1_S4x30_d2 : S4x30x1.ReducesTo [2] S4x30
  h_S_ : 0 < S_.numel
  bcast_S_S4x100 : S_.BroadcastsInDim S4x100 (![] : Fin 0 → Fin S4x100.rank)
  bcast_S_S4x1 : S_.BroadcastsInDim S4x1 (![] : Fin 0 → Fin S4x1.rank)
  bcast_S4x1_S4x30_0_1 : S4x1.BroadcastsInDim S4x30 (![0, 1] : Fin 2 → Fin S4x30.rank)
  bcast_S4x30_S4x30x1_0_1 : S4x30.BroadcastsInDim S4x30x1 (![0, 1] : Fin 2 → Fin S4x30x1.rank)
  concatenates_S4x30x1_S4x30x1_S4x30x2_d2 : Shape.Concatenates [S4x30x1, S4x30x1] S4x30x2 2
  reducesTo_S4x100x21_S4x100_d2 : S4x100x21.ReducesTo [2] S4x100
  bcast_S4x100_S4x100x1_0_1 : S4x100.BroadcastsInDim S4x100x1 (![0, 1] : Fin 2 → Fin S4x100x1.rank)
  bcast_S4x100x1_S4x100x21_0_1_2 : S4x100x1.BroadcastsInDim S4x100x21 (![0, 1, 2] : Fin 3 → Fin S4x100x21.rank)
  bcast_S_S4x100x1 : S_.BroadcastsInDim S4x100x1 (![] : Fin 0 → Fin S4x100x1.rank)
  shapeCasts_S4x100x1_S4x100x1x1 : S4x100x1.ShapeCasts S4x100x1x1
  bcast_S_S4x100x1x1 : S_.BroadcastsInDim S4x100x1x1 (![] : Fin 0 → Fin S4x100x1x1.rank)
  bcast_S1_S1x1x1x1_3 : S1.BroadcastsInDim S1x1x1x1 (![3] : Fin 1 → Fin S1x1x1x1.rank)
  bcast_S1x1x1x1_S4x100x1x1_0_1_2_3 : S1x1x1x1.BroadcastsInDim S4x100x1x1 (![0, 1, 2, 3] : Fin 4 → Fin S4x100x1x1.rank)
  reducesTo_S4x100x1x1_S4x100x1_d3 : S4x100x1x1.ReducesTo [3] S4x100x1
  shapeCasts_S4x100x1_S4x100 : S4x100x1.ShapeCasts S4x100
  reducesTo_S4x100_S_d0_1 : S4x100.ReducesTo [0, 1] S_
  transposes_S4x80000x100_S4x100x80000_0_2_1 : S4x80000x100.Transposes [0, 2, 1] S4x100x80000
  bcast_S4x30_S4x30x80000_0_1 : S4x30.BroadcastsInDim S4x30x80000 (![0, 1] : Fin 2 → Fin S4x30x80000.rank)
  bcast_S_S4x30x80000 : S_.BroadcastsInDim S4x30x80000 (![] : Fin 0 → Fin S4x30x80000.rank)
  bcast_S_S4x45000 : S_.BroadcastsInDim S4x45000 (![] : Fin 0 → Fin S4x45000.rank)
  bcast_S4x45000_S4x45000x1_0_1 : S4x45000.BroadcastsInDim S4x45000x1 (![0, 1] : Fin 2 → Fin S4x45000x1.rank)
  bcast_S_S4x30x45000 : S_.BroadcastsInDim S4x30x45000 (![] : Fin 0 → Fin S4x30x45000.rank)
  reducesTo_S4x30x45000_S4x30_d2 : S4x30x45000.ReducesTo [2] S4x30
  reducesTo_S4x30_S_d0_1 : S4x30.ReducesTo [0, 1] S_
  concatenates_S1_S1_S1_S3_d0 : Shape.Concatenates [S1, S1, S1] S3 0
  scatter_S21_S1_S__n_0_0_0_wf : ScatterDims.WF S21 S1 S_ [] [0] [0] 0
  gather_S4x30_S4x30x1_S4x30_n_1_0_0_1_2_11_wf : GatherDims.WF S4x30 S4x30x1 S4x30 [] [1] [0] [1] [0] 2 ![1, 1]
  scatter_S4x100_S4x30x2_S4x30_n_01_01_2_wf : ScatterDims.WF S4x100 S4x30x2 S4x30 [] [0, 1] [0, 1] 2
  gather_S4x100x21_S4x100x1x1_S4x100x1_n_2_01_01_2_3_111_wf : GatherDims.WF S4x100x21 S4x100x1x1 S4x100x1 [] [2] [0, 1] [2] [0, 1] 3 ![1, 1, 1]
  gather_S21_S4x100x1_S4x100_n_0_n_n_0_2_1_wf : GatherDims.WF S21 S4x100x1 S4x100 [] [0] [] [0] [] 2 ![1]
  gather_S4x100x80000_S4x30x1_S4x30x80000_2_1_0_0_1_2_1180000_wf : GatherDims.WF S4x100x80000 S4x30x1 S4x30x80000 [2] [1] [0] [1] [0] 2 ![1, 1, 80000]
  gather_S4x30x80000_S4x30x1_S4x30x80000_2_1_0_0_1_2_1180000_wf : GatherDims.WF S4x30x80000 S4x30x1 S4x30x80000 [2] [1] [0] [1] [0] 2 ![1, 1, 80000]
  gather_S4x30x80000_S4x45000x1_S4x30x45000_1_2_0_0_2_2_1301_wf : GatherDims.WF S4x30x80000 S4x45000x1 S4x30x45000 [1] [2] [0] [2] [0] 2 ![1, 30, 1]

variable [Facts₀]

def scatter_S21_S1_S__n_0_0_0 : ScatterDims S21 S1 S_ where
  updateWindowDims := []
  insertedWindowDims := [0]
  scatterDimsToOperandDims := [0]
  indexVectorDim := 0
  wf := scatter_S21_S1_S__n_0_0_0_wf
def gather_S4x30_S4x30x1_S4x30_n_1_0_0_1_2_11 : GatherDims S4x30 S4x30x1 S4x30 where
  offsetDims := []
  collapsedSliceDims := [1]
  operandBatchingDims := [0]
  startIndicesBatchingDims := [0]
  startIndexMap := [1]
  indexVectorDim := 2
  sliceSizes := ![1, 1]
  wf := gather_S4x30_S4x30x1_S4x30_n_1_0_0_1_2_11_wf
def scatter_S4x100_S4x30x2_S4x30_n_01_01_2 : ScatterDims S4x100 S4x30x2 S4x30 where
  updateWindowDims := []
  insertedWindowDims := [0, 1]
  scatterDimsToOperandDims := [0, 1]
  indexVectorDim := 2
  wf := scatter_S4x100_S4x30x2_S4x30_n_01_01_2_wf
def gather_S4x100x21_S4x100x1x1_S4x100x1_n_2_01_01_2_3_111 : GatherDims S4x100x21 S4x100x1x1 S4x100x1 where
  offsetDims := []
  collapsedSliceDims := [2]
  operandBatchingDims := [0, 1]
  startIndicesBatchingDims := [0, 1]
  startIndexMap := [2]
  indexVectorDim := 3
  sliceSizes := ![1, 1, 1]
  wf := gather_S4x100x21_S4x100x1x1_S4x100x1_n_2_01_01_2_3_111_wf
def gather_S21_S4x100x1_S4x100_n_0_n_n_0_2_1 : GatherDims S21 S4x100x1 S4x100 where
  offsetDims := []
  collapsedSliceDims := [0]
  operandBatchingDims := []
  startIndicesBatchingDims := []
  startIndexMap := [0]
  indexVectorDim := 2
  sliceSizes := ![1]
  wf := gather_S21_S4x100x1_S4x100_n_0_n_n_0_2_1_wf
def gather_S4x100x80000_S4x30x1_S4x30x80000_2_1_0_0_1_2_1180000 : GatherDims S4x100x80000 S4x30x1 S4x30x80000 where
  offsetDims := [2]
  collapsedSliceDims := [1]
  operandBatchingDims := [0]
  startIndicesBatchingDims := [0]
  startIndexMap := [1]
  indexVectorDim := 2
  sliceSizes := ![1, 1, 80000]
  wf := gather_S4x100x80000_S4x30x1_S4x30x80000_2_1_0_0_1_2_1180000_wf
def gather_S4x30x80000_S4x30x1_S4x30x80000_2_1_0_0_1_2_1180000 : GatherDims S4x30x80000 S4x30x1 S4x30x80000 where
  offsetDims := [2]
  collapsedSliceDims := [1]
  operandBatchingDims := [0]
  startIndicesBatchingDims := [0]
  startIndexMap := [1]
  indexVectorDim := 2
  sliceSizes := ![1, 1, 80000]
  wf := gather_S4x30x80000_S4x30x1_S4x30x80000_2_1_0_0_1_2_1180000_wf
def gather_S4x30x80000_S4x45000x1_S4x30x45000_1_2_0_0_2_2_1301 : GatherDims S4x30x80000 S4x45000x1 S4x30x45000 where
  offsetDims := [1]
  collapsedSliceDims := [2]
  operandBatchingDims := [0]
  startIndicesBatchingDims := [0]
  startIndexMap := [2]
  indexVectorDim := 2
  sliceSizes := ![1, 30, 1]
  wf := gather_S4x30x80000_S4x45000x1_S4x30x45000_1_2_0_0_2_2_1301_wf

class Facts : Prop extends Facts₀ where

variable [Facts]
-- ==== Proof.FrameRuns.lean ====
import proofs.«422094_j90494960927125_3_alg».proof.Proof.Gen.KernelIdeal.Launch
import proofs.«422094_j90494960927125_3_alg».proof.Proof.Gen.KernelIdeal.Skeleton
import proofs.«422094_j90494960927125_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))
abbrev V (c : Dev nD) (b : Ref sig .tc) : Buf (Elt F) ((c : Thread nD τ).loc b) := V0 m c (Proc.devRef .tc b)

abbrev preOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12]
abbrev args : List (Ref sig .tc) := [main_arg0, main_arg1, main_arg2, main_arg3, main_arg4, main_arg5, main_arg6]

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩ (by repeat' constructor) main_chain

theorem pre_keeps {b : Ref sig .tc} (hb : b ∈ args) : ∀ op ∈ (List.flatten preOps : List (HloOp τ sig (Elt F))), Proc.devRef .tc b ∉ op.writes :=
  List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact fun e => absurd (Proc.devRef_injective _ e ▸ hb) (by decide))

theorem sfx_keeps' {b : Ref sig .tc} (hb : b ∈ args ++ List.ofFn (Pipeline.arrRef spec0)) : ∀ op ∈ (hostOps1 : List (HloOp τ sig (Elt F))), Proc.devRef .tc b ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact fun e => absurd (Proc.devRef_injective _ e ▸ hb) (by decide))

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops
  obtain rfl := List.mem_singleton.mp hops
  exact List.forall_iff_forall_mem.mp (by repeat' constructor)
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  exact sfx_keeps' (List.mem_append_right _ ((List.mem_ofFn' _ _).mpr ⟨w, rfl⟩)) op hop

theorem arr_not_arg : ∀ w, Pipeline.arrRef spec0 w ∉ args := by decide

theorem V_arg (c : Dev nD) {b : Ref sig .tc} (hb : b ∈ args) : V m c b = m ((c : Thread nD τ).loc b) :=
  StableHlo.after_of_forall_not_mem _ _ (pre_keeps hb)

section
variable (dats : (p : Fin 1) → (c : Dev nD) → Dat τ (Elt F) Unit ℕ (UR sig nD τ) ℕ (cfgs p) c)

theorem W_arg (c : Dev nD) {b : Ref sig .tc} (hb : b ∈ args) :
    Pipeline.afterTail₀ cfgs dats 0 (V0 m) [hostOps1] c b = m ((c : Thread nD τ).loc b) := by
  unfold Pipeline.afterTail₀
  rw [StableHlo.after_of_forall_not_mem [hostOps1].flatten _ (sfx_keeps' (List.mem_append_left _ hb)),
    Pipeline.withArrays_of_ne _ c (V0 m c) _ b fun w e => arr_not_arg w (e ▸ hb)]
  exact V_arg m c hb
theorem W_main_arg0 (c : Dev nD) :
    Pipeline.afterTail₀ cfgs dats 0 (V0 m) [hostOps1] c main_arg0 = m ((c : Thread nD τ).loc main_arg0) := W_arg m dats c (by decide)
theorem W_main_arg1 (c : Dev nD) :
    Pipeline.afterTail₀ cfgs dats 0 (V0 m) [hostOps1] c main_arg1 = m ((c : Thread nD τ).loc main_arg1) := W_arg m dats c (by decide)
theorem W_main_arg2 (c : Dev nD) :
    Pipeline.afterTail₀ cfgs dats 0 (V0 m) [hostOps1] c main_arg2 = m ((c : Thread nD τ).loc main_arg2) := W_arg m dats c (by decide)
theorem W_main_arg3 (c : Dev nD) :
    Pipeline.afterTail₀ cfgs dats 0 (V0 m) [hostOps1] c main_arg3 = m ((c : Thread nD τ).loc main_arg3) := W_arg m dats c (by decide)
theorem W_main_arg4 (c : Dev nD) :
    Pipeline.afterTail₀ cfgs dats 0 (V0 m) [hostOps1] c main_arg4 = m ((c : Thread nD τ).loc main_arg4) := W_arg m dats c (by decide)
theorem W_main_arg5 (c : Dev nD) :
    Pipeline.afterTail₀ cfgs dats 0 (V0 m) [hostOps1] c main_arg5 = m ((c : Thread nD τ).loc main_arg5) := W_arg m dats c (by decide)
theorem W_main_arg6 (c : Dev nD) :
    Pipeline.afterTail₀ cfgs dats 0 (V0 m) [hostOps1] c main_arg6 = m ((c : Thread nD τ).loc main_arg6) := W_arg m dats c (by decide)

end

theorem frame_arg (dats : (p : Fin 1) → (c : Dev nD) → Dat τ (Elt F) Unit ℕ (UR sig nD τ) ℕ (cfgs p) c) (r : PUnit × MemSt nD τ sig (Elt F))
    (h : Pipeline.FramePost cfgs dats 0 (Pipeline.afterTail₀ cfgs dats 0 (V0 m) [hostOps1]) r) (c : Dev nD) {b : Ref sig .tc} (hb : b ∈ args) :
    r.2.mem ((c.tc : Thread nD τ).loc b) = m ((c.tc : Thread nD τ).loc b) :=
  ((h c).2 b (Pipeline.mem_restRefs_of b ((by decide : ∀ b ∈ args, b.isScoped = false) b hb)
    fun w e => by subst e; exact arr_not_arg w hb)).trans (W_arg m dats c hb)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem idle3 : ∀ t : Fin cfg0.N, ¬t.val % 8 = 7 → cfg0.idle 3 (grid0.coords t) = true ∧ (cfg0.win 3).flush t = false := by decide +kernel
theorem live3 : ∀ t : Fin cfg0.N, t.val % 8 = 7 → cfg0.idle 3 (grid0.coords t) = false := by decide +kernel

abbrev VO0_3 : View sig .tc .vmem S1x30x2 .f32 := (Memref.whole cc0_stg3_0 : Memref sig .tc .vmem S1x30x2 .f32).view
abbrev ms0_0 (t : Fin cfg0.N) : Memref sig .tc .vmem S1x5632x100 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x100x30 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x30x5632 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x30x2 .f32 := win0_3.stage (cfg0.slots t 3)
abbrev hs0_3 (t : Fin cfg0.N) : (ms0_3 t).IsWhole := hstage0_3 ((cfg0.slots t 3).cast nbuf0_3)
abbrev scM0_0 : Memref sig .tc .vmem S30x1 .f32 := Memref.whole cc0_scratch0
abbrev scM0_1 : Memref sig .tc .vmem S30x1 .f32 := Memref.whole cc0_scratch1
abbrev scM0_2 : Memref sig .tc .vmem S30x1 .f32 := Memref.whole cc0_scratch2
abbrev scM0_3 : Memref sig .tc .vmem S30x1 .f32 := Memref.whole cc0_scratch3
abbrev VS0_0 : View sig .tc .vmem S30x1 .f32 := scM0_0.view
abbrev VS0_1 : View sig .tc .vmem S30x1 .f32 := scM0_1.view
abbrev VS0_2 : View sig .tc .vmem S30x1 .f32 := scM0_2.view
abbrev VS0_3 : View sig .tc .vmem S30x1 .f32 := scM0_3.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

theorem owns_cover {c : Dev nD} {s : Shape} {e : EltTy} (M : Memref sig .tc .vmem s e) (v : View sig .tc .vmem s e) (L : List (View.Piece (Elt F) s e))
    (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v.read (Elt F) (v.writes (Elt F) v.junk L)) := by
  iintro ⟨%f, H⟩; unfold owns; iexists M.view.writes (Elt F) f L; isplitr
  · ipureintro; exact View.read_writes_of_cover _ _ _ _ _ hL
  · iexact H

end Cert.KernelIdeal.GenH

end
-- ==== Proof.FrameRunA.lean ====
import proofs.«422094_j90494960927125_3_alg».proof.Proof.FrameRuns

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
noncomputable def kernelRun0_A (c : Dev nD) (i : grid0.Coords) (arg2 : Memref sig .tc .vmem S1x5632x100 .f32) (harg2 : arg2.IsWhole) (arg3 : Memref sig .tc .vmem S1x100x30 .f32) (harg3 : arg3.IsWhole) (arg4 : Memref sig .tc .vmem S1x30x5632 .f32) (harg4 : arg4.IsWhole) (arg5 : Memref sig .tc .vmem S1x30x2 .f32) (harg5 : arg5.IsWhole) (arg6 : Memref sig .tc .vmem S30x1 .f32) (harg6 : arg6.IsWhole) (arg7 : Memref sig .tc .vmem S30x1 .f32) (harg7 : arg7.IsWhole) (arg8 : Memref sig .tc .vmem S30x1 .f32) (harg8 : arg8.IsWhole) (arg9 : Memref sig .tc .vmem S30x1 .f32) (harg9 : arg9.IsWhole) (hc0 : cond0_0 i) (hc1 : ¬cond0_1 i)
    (x0 : Vec F S1x5632x100 .f32) (x1 : Vec F S1x100x30 .f32) (x2 : Vec F S1x30x5632 .f32) :
    Σ' (L3 : List (View.Piece (Elt F) S1x30x2 .f32)) (LS0 : List (View.Piece (Elt F) S30x1 .f32)) (LS1 : List (View.Piece (Elt F) S30x1 .f32)) (LS2 : List (View.Piece (Elt F) S30x1 .f32)), { LS3 : List (View.Piece (Elt F) S30x1 .f32) //
      ∀ (xi3 : Vec F S1x30x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.KernelIdeal.GenH

end
-- ==== Proof.FrameRunB.lean ====
import proofs.«422094_j90494960927125_3_alg».proof.Proof.FrameRunA

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
noncomputable def kernelRun0_B (c : Dev nD) (i : grid0.Coords) (arg2 : Memref sig .tc .vmem S1x5632x100 .f32) (harg2 : arg2.IsWhole) (arg3 : Memref sig .tc .vmem S1x100x30 .f32) (harg3 : arg3.IsWhole) (arg4 : Memref sig .tc .vmem S1x30x5632 .f32) (harg4 : arg4.IsWhole) (arg5 : Memref sig .tc .vmem S1x30x2 .f32) (harg5 : arg5.IsWhole) (arg6 : Memref sig .tc .vmem S30x1 .f32) (harg6 : arg6.IsWhole) (arg7 : Memref sig .tc .vmem S30x1 .f32) (harg7 : arg7.IsWhole) (arg8 : Memref sig .tc .vmem S30x1 .f32) (harg8 : arg8.IsWhole) (arg9 : Memref sig .tc .vmem S30x1 .f32) (harg9 : arg9.IsWhole) (hc0 : ¬cond0_0 i) (hc1 : ¬cond0_1 i)
    (x0 : Vec F S1x5632x100 .f32) (x1 : Vec F S1x100x30 .f32) (x2 : Vec F S1x30x5632 .f32) (xs0 : Vec F S30x1 .f32) (xs1 : Vec F S30x1 .f32) (xs2 : Vec F S30x1 .f32) (xs3 : Vec F S30x1 .f32) :
    Σ' (L3 : List (View.Piece (Elt F) S1x30x2 .f32)) (LS0 : List (View.Piece (Elt F) S30x1 .f32)) (LS1 : List (View.Piece (Elt F) S30x1 .f32)) (LS2 : List (View.Piece (Elt F) S30x1 .f32)), { LS3 : List (View.Piece (Elt F) S30x1 .f32) //
      ∀ (xi3 : Vec F S1x30x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.KernelIdeal.GenH

end
-- ==== Proof.FrameRunC.lean ====
import proofs.«422094_j90494960927125_3_alg».proof.Proof.FrameRunB

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
noncomputable def kernelRun0_C (c : Dev nD) (i : grid0.Coords) (arg2 : Memref sig .tc .vmem S1x5632x100 .f32) (harg2 : arg2.IsWhole) (arg3 : Memref sig .tc .vmem S1x100x30 .f32) (harg3 : arg3.IsWhole) (arg4 : Memref sig .tc .vmem S1x30x5632 .f32) (harg4 : arg4.IsWhole) (arg5 : Memref sig .tc .vmem S1x30x2 .f32) (harg5 : arg5.IsWhole) (arg6 : Memref sig .tc .vmem S30x1 .f32) (harg6 : arg6.IsWhole) (arg7 : Memref sig .tc .vmem S30x1 .f32) (harg7 : arg7.IsWhole) (arg8 : Memref sig .tc .vmem S30x1 .f32) (harg8 : arg8.IsWhole) (arg9 : Memref sig .tc .vmem S30x1 .f32) (harg9 : arg9.IsWhole) (hc0 : ¬cond0_0 i) (hc1 : cond0_1 i)
    (x0 : Vec F S1x5632x100 .f32) (x1 : Vec F S1x100x30 .f32) (x2 : Vec F S1x30x5632 .f32) (xs0 : Vec F S30x1 .f32) (xs1 : Vec F S30x1 .f32) (xs2 : Vec F S30x1 .f32) (xs3 : Vec F S30x1 .f32) :
    Σ' (L3 : List (View.Piece (Elt F) S1x30x2 .f32)) (LS0 : List (View.Piece (Elt F) S30x1 .f32)) (LS1 : List (View.Piece (Elt F) S30x1 .f32)) (LS2 : List (View.Piece (Elt F) S30x1 .f32)), { LS3 : List (View.Piece (Elt F) S30x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    isplitl [HS2]; · iexists _; iexact HS2
    iexists _; iexact HS3

end Cert.KernelIdeal.GenH

end
-- ==== Proof.FrameCert.lean ====
import proofs.«422094_j90494960927125_3_alg».proof.Proof.FrameRunC

noncomputable section

namespace Cert.KernelIdeal.GenH

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Cases

variable (c : Dev nD) (i : grid0.Coords)
  (arg2 : Memref sig .tc .vmem S1x5632x100 .f32) (harg2 : arg2.IsWhole)
  (arg3 : Memref sig .tc .vmem S1x100x30 .f32) (harg3 : arg3.IsWhole)
  (arg4 : Memref sig .tc .vmem S1x30x5632 .f32) (harg4 : arg4.IsWhole)
  (arg5 : Memref sig .tc .vmem S1x30x2 .f32) (harg5 : arg5.IsWhole)
  (arg6 : Memref sig .tc .vmem S30x1 .f32) (harg6 : arg6.IsWhole)
  (arg7 : Memref sig .tc .vmem S30x1 .f32) (harg7 : arg7.IsWhole)
  (arg8 : Memref sig .tc .vmem S30x1 .f32) (harg8 : arg8.IsWhole)
  (arg9 : Memref sig .tc .vmem S30x1 .f32) (harg9 : arg9.IsWhole)

section A

variable (hc0 : cond0_0 i) (hc1 : ¬cond0_1 i) (x0 : Vec F S1x5632x100 .f32) (x1 : Vec F S1x100x30 .f32) (x2 : Vec F S1x30x5632 .f32)

def out0_A_3 : Vec F S1x30x2 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)
theorem scover0_A_0 (y : S30x1.Idx) : ∃ pc ∈ (kernelRun0_A c i arg2 harg2 arg3 harg3 arg4 harg4 arg5 harg5 arg6 harg6 arg7 harg7 arg8 harg8 arg9 harg9 hc0 hc1 x0 x1 x2).2.1, y ∈ pc.1.set :=
  View.cover_of_tiledL _ S30x1.size (by sl_kernel_rfl) y
def sout0_A_0 : Vec F S30x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.1)
theorem scover0_A_1 (y : S30x1.Idx) : ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL _ S30x1.size (by sl_kernel_rfl) y
def sout0_A_1 : Vec F S30x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.1)
theorem scover0_A_2 (y : S30x1.Idx) : ∃ pc ∈ (kernelRun0_A c i arg2 harg2 arg3 harg3 arg4 harg4 arg5 harg5 arg6 harg6 arg7 harg7 arg8 harg8 arg9 harg9 hc0 hc1 x0 x1 x2).2.2.2.1, y ∈ pc.1.set :=
  View.cover_of_tiledL _ S30x1.size (by sl_kernel_rfl) y
def sout0_A_2 : Vec F S30x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2).2.2.2.1)
theorem scover0_A_3 (y : S30x1.Idx) : ∃ pc ∈ (kernelRun0_A c i arg2 harg2 arg3 harg3 arg4 harg4 arg5 harg5 arg6 harg6 arg7 harg7 arg8 harg8 arg9 harg9 hc0 hc1 x0 x1 x2).2.2.2.2.1, y ∈ pc.1.set :=
  View.cover_of_tiledL _ S30x1.size (by sl_kernel_rfl) y
def sout0_A_3 : Vec F S30x1 .f32 :=
  VS0_3.read (Elt F) (VS0_3.writes (Elt F) VS0_3.junk (kernelRun0_A c i arg2 harg2 arg3 harg3 arg4 harg4 arg5 harg5 arg6 harg6 arg7 harg7 arg8 harg8 arg9 harg9 hc0 hc1 x0 x1 x2).2.2.2.2.1)

end A

section B

variable (hc0 : ¬cond0_0 i) (hc1 : ¬cond0_1 i) (x0 : Vec F S1x5632x100 .f32) (x1 : Vec F S1x100x30 .f32) (x2 : Vec F S1x30x5632 .f32)
  (xs0 : Vec F S30x1 .f32) (xs1 : Vec F S30x1 .f32) (xs2 : Vec F S30x1 .f32) (xs3 : Vec F S30x1 .f32)

def out0_B_3 : Vec F S1x30x2 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1 xs2 xs3).1)
theorem scover0_B_0 (y : S30x1.Idx) : ∃ pc ∈ (kernelRun0_B c i arg2 harg2 arg3 harg3 arg4 harg4 arg5 harg5 arg6 harg6 arg7 harg7 arg8 harg8 arg9 harg9 hc0 hc1 x0 x1 x2 xs0 xs1 xs2 xs3).2.1, y ∈ pc.1.set :=
  View.cover_of_tiledL _ S30x1.size (by sl_kernel_rfl) y
def sout0_B_0 : Vec F S30x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1 xs2 xs3).2.1)
theorem scover0_B_1 (y : S30x1.Idx) : ∃ pc ∈ (kernelRun0_B c i arg2 harg2 arg3 harg3 arg4 harg4 arg5 harg5 arg6 harg6 arg7 harg7 arg8 harg8 arg9 harg9 hc0 hc1 x0 x1 x2 xs0 xs1 xs2 xs3).2.2.1, y ∈ pc.1.set :=
  View.cover_of_tiledL _ S30x1.size (by sl_kernel_rfl) y
def sout0_B_1 : Vec F S30x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1 xs2 xs3).2.2.1)
theorem scover0_B_2 (y : S30x1.Idx) : ∃ pc ∈ (kernelRun0_B c i arg2 harg2 arg3 harg3 arg4 harg4 arg5 harg5 arg6 harg6 arg7 harg7 arg8 harg8 arg9 harg9 hc0 hc1 x0 x1 x2 xs0 xs1 xs2 xs3).2.2.2.1, y ∈ pc.1.set :=
  View.cover_of_tiledL _ S30x1.size (by sl_kernel_rfl) y
def sout0_B_2 : Vec F S30x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 xs0 xs1 xs2 xs3).2.2.2.1)
theorem scover0_B_3 (y : S30x1.Idx) : ∃ pc ∈ (kernelRun0_B c i arg2 harg2 arg3 harg3 arg4 harg4 arg5 harg5 arg6 harg6 arg7 harg7 arg8 harg8 arg9 harg9 hc0 hc1 x0 x1 x2 xs0 xs1 xs2 xs3).2.2.2.2.1, y ∈ pc.1.set :=
  View.cover_of_tiledL _ S30x1.size (by sl_kernel_rfl) y
def sout0_B_3 : Vec F S30x1 .f32 :=
  VS0_3.read (Elt F) (VS0_3.writes (Elt F) VS0_3.junk (kernelRun0_B c i arg2 harg2 arg3 harg3 arg4 harg4 arg5 harg5 arg6 harg6 arg7 harg7 arg8 harg8 arg9 harg9 hc0 hc1 x0 x1 x2 xs0 xs1 xs2 xs3).2.2.2.2.1)

end B

section C

variable (hc0 : ¬cond0_0 i) (hc1 : cond0_1 i) (x0 : Vec F S1x5632x100 .f32) (x1 : Vec F S1x100x30 .f32) (x2 : Vec F S1x30x5632 .f32)
  (xs0 : Vec F S30x1 .f32) (xs1 : Vec F S30x1 .f32) (xs2 : Vec F S30x1 .f32) (xs3 : Vec F S30x1 .f32)

theorem cover0_C_3 (y : S1x30x2.Idx) : ∃ pc ∈ (kernelRun0_C c i arg2 harg2 arg3 harg3 arg4 harg4 arg5 harg5 arg6 harg6 arg7 harg7 arg8 harg8 arg9 harg9 hc0 hc1 x0 x1 x2 xs0 xs1 xs2 xs3).1, y ∈ pc.1.set :=
  View.cover_of_tiledL _ S1x30x2.size (by sl_kernel_rfl) y
def out0_C_3 : Vec F S1x30x2 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1 xs2 xs3).1)
theorem scover0_C_0 (y : S30x1.Idx) : ∃ pc ∈ (kernelRun0_C c i arg2 harg2 arg3 harg3 arg4 harg4 arg5 harg5 arg6 harg6 arg7 harg7 arg8 harg8 arg9 harg9 hc0 hc1 x0 x1 x2 xs0 xs1 xs2 xs3).2.1, y ∈ pc.1.set :=
  View.cover_of_tiledL _ S30x1.size (by sl_kernel_rfl) y
def sout0_C_0 : Vec F S30x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1 xs2 xs3).2.1)
theorem scover0_C_1 (y : S30x1.Idx) : ∃ pc ∈ (kernelRun0_C c i arg2 harg2 arg3 harg3 arg4 harg4 arg5 harg5 arg6 harg6 arg7 harg7 arg8 harg8 arg9 harg9 hc0 hc1 x0 x1 x2 xs0 xs1 xs2 xs3).2.2.1, y ∈ pc.1.set :=
  View.cover_of_tiledL _ S30x1.size (by sl_kernel_rfl) y
def sout0_C_1 : Vec F S30x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1 xs2 xs3).2.2.1)
theorem scover0_C_2 (y : S30x1.Idx) : ∃ pc ∈ (kernelRun0_C c i arg2 harg2 arg3 harg3 arg4 harg4 arg5 harg5 arg6 harg6 arg7 harg7 arg8 harg8 arg9 harg9 hc0 hc1 x0 x1 x2 xs0 xs1 xs2 xs3).2.2.2.1, y ∈ pc.1.set :=
  View.cover_of_tiledL _ S30x1.size (by sl_kernel_rfl) y
def sout0_C_2 : Vec F S30x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 xs0 xs1 xs2 xs3).2.2.2.1)
theorem scover0_C_3 (y : S30x1.Idx) : ∃ pc ∈ (kernelRun0_C c i arg2 harg2 arg3 harg3 arg4 harg4 arg5 harg5 arg6 harg6 arg7 harg7 arg8 harg8 arg9 harg9 hc0 hc1 x0 x1 x2 xs0 xs1 xs2 xs3).2.2.2.2.1, y ∈ pc.1.set :=
  View.cover_of_tiledL _ S30x1.size (by sl_kernel_rfl) y
def sout0_C_3 : Vec F S30x1 .f32 :=
  VS0_3.read (Elt F) (VS0_3.writes (Elt F) VS0_3.junk (kernelRun0_C c i arg2 harg2 arg3 harg3 arg4 harg4 arg5 harg5 arg6 harg6 arg7 harg7 arg8 harg8 arg9 harg9 hc0 hc1 x0 x1 x2 xs0 xs1 xs2 xs3).2.2.2.2.1)

end C

end Cases

abbrev Outs0 : Type := Vec F S1x30x2 .f32 × Vec F S30x1 .f32 × Vec F S30x1 .f32 × Vec F S30x1 .f32 × Vec F S30x1 .f32

def caseA0 (c : Dev nD) (t : Fin cfg0.N) (h0 : t.val % 8 = 0) (h1 : ¬t.val % 8 = 7) : Outs0 (F := F) :=
  (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
   sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
   sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
   sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
   sout0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t))

def caseB0 (c : Dev nD) (t : Fin cfg0.N) (h0 : ¬t.val % 8 = 0) (h1 : ¬t.val % 8 = 7) (p : Outs0 (F := F)) : Outs0 (F := F) :=
  (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) p.2.1 p.2.2.1 p.2.2.2.1 p.2.2.2.2,
   sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) p.2.1 p.2.2.1 p.2.2.2.1 p.2.2.2.2,
   sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) p.2.1 p.2.2.1 p.2.2.2.1 p.2.2.2.2,
   sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) p.2.1 p.2.2.1 p.2.2.2.1 p.2.2.2.2,
   sout0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) p.2.1 p.2.2.1 p.2.2.2.1 p.2.2.2.2)

def caseC0 (c : Dev nD) (t : Fin cfg0.N) (h0 : ¬t.val % 8 = 0) (h1 : t.val % 8 = 7) (p : Outs0 (F := F)) : Outs0 (F := F) :=
  (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) p.2.1 p.2.2.1 p.2.2.2.1 p.2.2.2.2,
   sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) p.2.1 p.2.2.1 p.2.2.2.1 p.2.2.2.2,
   sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) p.2.1 p.2.2.1 p.2.2.2.1 p.2.2.2.2,
   sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) p.2.1 p.2.2.1 p.2.2.2.1 p.2.2.2.2,
   sout0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) p.2.1 p.2.2.1 p.2.2.2.1 p.2.2.2.2)

def outsAt0 (c : Dev nD) : (n : ℕ) → n < cfg0.N → Outs0 (F := F)
  | 0, hn => caseA0 m c ⟨0, hn⟩ (Nat.zero_mod _) (fun h => by (try dsimp only at h); omega)
  | n + 1, hn =>
    if h0 : (n + 1) % 8 = 0 then
      if h1 : (n + 1) % 8 = 7 then
        False.elim (by omega)
      else
        caseA0 m c ⟨n + 1, hn⟩ h0 h1
    else
      if h1 : (n + 1) % 8 = 7 then
        caseC0 m c ⟨n + 1, hn⟩ h0 h1 (outsAt0 c n (Nat.lt_of_succ_lt hn))
      else
        caseB0 m c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 m c t.val t.isLt = caseA0 m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = caseB0 m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = caseC0 m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def accAt (c : Dev nD) (p : Outs0 (F := F)) : sProp 𝕄 :=
  iprop(iprop(owns (c : Thread nD τ) scM0_0 fullShare p.2.1 ∗ owns (c : Thread nD τ) scM0_1 fullShare p.2.2.1 ∗ owns (c : Thread nD τ) scM0_2 fullShare p.2.2.2.1 ∗ owns (c : Thread nD τ) scM0_3 fullShare p.2.2.2.2) ∗ (∃ r, prngReg c r))

def PhiS (c : Dev nD) : (n : ℕ) → n ≤ cfg0.N → sProp 𝕄
  | 0, _ => Pipeline.ΦA spec0 c
  | n + 1, hn => accAt c (outsAt0 m c n hn)

theorem PhiS_pos (c : Dev nD) (n : ℕ) (h : n ≤ cfg0.N) (hz : n ≠ 0) :
    PhiS m c n h = accAt c (outsAt0 m c (n - 1) (by omega)) := by
  cases n with
  | zero => exact absurd rfl hz
  | succ n => rfl

theorem PhiS_forget (c : Dev nD) (n : ℕ) (h : n ≤ cfg0.N) : PhiS m c n h ⊢ Pipeline.ΦA spec0 c := by
  cases n with
  | zero => exact Idealize.SL.BI.Entails.refl _
  | succ n =>
    rw [PhiA0_eq]; show accAt c _ ⊢ _; unfold accAt
    iintro ⟨⟨HS0, HS1, HS2, HS3⟩, Hg⟩
    iframe Hg
    isplitl [HS0]; · iexists _; iexact HS0
    isplitl [HS1]; · iexists _; iexact HS1
    isplitl [HS2]; · iexists _; iexact HS2
    iexists _; iexact HS3

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem live_in : ∀ t : Fin cfg0.N, cfg0.idle 0 (grid0.coords t) = false ∧ cfg0.idle 1 (grid0.coords t) = false ∧ cfg0.idle 2 (grid0.coords t) = false := by
  decide +kernel

set_option maxHeartbeats 1000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = accAt c (outsAt0 m c t.val t.isLt) from rfl,
    show (dats m 0 c).leavesExact 0 t = owns (c : Thread nD τ) (ms0_0 t) fullShare ((dats m 0 c).after 0 t) from by
      unfold Dat.leavesExact; rw [(live_in t).1],
    show (dats m 0 c).leavesExact 1 t = owns (c : Thread nD τ) (ms0_1 t) fullShare ((dats m 0 c).after 1 t) from by
      unfold Dat.leavesExact; rw [(live_in t).2.1],
    show (dats m 0 c).leavesExact 2 t = owns (c : Thread nD τ) (ms0_2 t) fullShare ((dats m 0 c).after 2 t) from by
      unfold Dat.leavesExact; rw [(live_in t).2.2],
    after0_0, after0_1, after0_2]
  by_cases h1 : t.val % 8 = 7
  · have h0 : ¬t.val % 8 = 0 := by omega
    rw [show (dats m 0 c).leavesExact 3 t = owns (c : Thread nD τ) (ms0_3 t) fullShare ((dats m 0 c).after 3 t) from by
        unfold Dat.leavesExact; rw [live3 t h1],
      after0_3, outsAt0_C m c t h0 h1, PhiS_castSucc m c t, PhiS_pos m c _ _ (by omega)]
    unfold caseC0 out0_C_3 sout0_C_0 sout0_C_1 sout0_C_2 sout0_C_3 accAt; dsimp only
    iintro ⟨⟨⟨HS0, HS1, HS2, HS3⟩, Hg⟩, Ho, ⟨%d0, H0⟩, ⟨%d1, H1⟩, ⟨%d2, H2⟩, ⟨%d3, H3⟩⟩
    iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) _ _ _ _).2.2.2.2.2 Set.univ _)
    iframe H0 H1 H2 HS0 HS1 HS2 HS3
    isplitl [H3]; · iexists _; iexact H3
    iintro ⟨H0, H1, H2, H3, HS0, HS1, HS2, HS3⟩
    ihave H3 := (owns_cover _ VO0_3 _ (fun y => cover0_C_3 (y := y) ..)) $$ H3
    ihave HS0 := (owns_cover _ VS0_0 _ (fun y => scover0_C_0 (y := y) ..)) $$ HS0
    ihave HS1 := (owns_cover _ VS0_1 _ (fun y => scover0_C_1 (y := y) ..)) $$ HS1
    ihave HS2 := (owns_cover _ VS0_2 _ (fun y => scover0_C_2 (y := y) ..)) $$ HS2
    ihave HS3 := (owns_cover _ VS0_3 _ (fun y => scover0_C_3 (y := y) ..)) $$ HS3
    iframe
  · rw [Dat.leavesExact_idle (dats m 0 c) 3 t (idle3 t h1).1 (idle3 t h1).2]
    by_cases h0 : t.val % 8 = 0
    · rw [outsAt0_A m c t h0 h1]
      unfold caseA0 sout0_A_0 sout0_A_1 sout0_A_2 sout0_A_3 accAt; dsimp only
      refine (sep_mono_left (PhiS_forget m c _ _)).trans ?_
      rw [PhiA0_eq]
      iintro ⟨⟨⟨HS0, HS1, HS2, HS3⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 _ Set.univ _)
      iframe H0 H1 H2 H3 HS0 HS1 HS2 HS3
      iintro ⟨H0, H1, H2, H3, HS0, HS1, HS2, HS3⟩
      ihave HS0 := (owns_cover _ VS0_0 _ (fun y => scover0_A_0 (y := y) ..)) $$ HS0
      ihave HS1 := (owns_cover _ VS0_1 _ (fun y => scover0_A_1 (y := y) ..)) $$ HS1
      ihave HS2 := (owns_cover _ VS0_2 _ (fun y => scover0_A_2 (y := y) ..)) $$ HS2
      ihave HS3 := (owns_cover _ VS0_3 _ (fun y => scover0_A_3 (y := y) ..)) $$ HS3
      iframe HS0 HS1 HS2 HS3 Hg Ho H0 H1 H2
      iexists _; iexact H3
    · rw [outsAt0_B m c t h0 h1, PhiS_castSucc m c t, PhiS_pos m c _ _ (by omega)]
      unfold caseB0 sout0_B_0 sout0_B_1 sout0_B_2 sout0_B_3 accAt; dsimp only
      iintro ⟨⟨⟨HS0, HS1, HS2, HS3⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) _ _ _ _).2.2.2.2.2 _ Set.univ _)
      iframe H0 H1 H2 H3 HS0 HS1 HS2 HS3
      iintro ⟨H0, H1, H2, H3, HS0, HS1, HS2, HS3⟩
      ihave HS0 := (owns_cover _ VS0_0 _ (fun y => scover0_B_0 (y := y) ..)) $$ HS0
      ihave HS1 := (owns_cover _ VS0_1 _ (fun y => scover0_B_1 (y := y) ..)) $$ HS1
      ihave HS2 := (owns_cover _ VS0_2 _ (fun y => scover0_B_2 (y := y) ..)) $$ HS2
      ihave HS3 := (owns_cover _ VS0_3 _ (fun y => scover0_B_3 (y := y) ..)) $$ HS3
      iframe HS0 HS1 HS2 HS3 Hg Ho H0 H1 H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c :=
  PhiS_forget m c (Fin.last cfg0.N).val (Nat.le_of_lt_succ (Fin.last cfg0.N).isLt)

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨frame_arg m _ r h c (by decide), frame_arg m _ r h c (by decide), frame_arg m _ r h c (by decide),
    frame_arg m _ r h c (by decide), frame_arg m _ r h c (by decide), frame_arg m _ r h c (by decide), frame_arg m _ r h c (by decide)⟩) (run_main m ρ)

end Cert.KernelIdeal.GenH

end
-- ==== Proof.KFrameRuns.lean ====
import proofs.«422094_j90494960927125_3_alg».proof.Proof.Gen.Kernel.Launch
import proofs.«422094_j90494960927125_3_alg».proof.Proof.Gen.Kernel.Skeleton
import proofs.«422094_j90494960927125_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))
abbrev V (c : Dev nD) (b : Ref sig .tc) : Buf (Elt F) ((c : Thread nD τ).loc b) := V0 m c (Proc.devRef .tc b)

abbrev preOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12]
abbrev args : List (Ref sig .tc) := [main_arg0, main_arg1, main_arg2, main_arg3, main_arg4, main_arg5, main_arg6]

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩ (by repeat' constructor) main_chain

theorem pre_keeps {b : Ref sig .tc} (hb : b ∈ args) : ∀ op ∈ (List.flatten preOps : List (HloOp τ sig (Elt F))), Proc.devRef .tc b ∉ op.writes :=
  List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact fun e => absurd (Proc.devRef_injective _ e ▸ hb) (by decide))

theorem sfx_keeps' {b : Ref sig .tc} (hb : b ∈ args ++ List.ofFn (Pipeline.arrRef spec0)) : ∀ op ∈ (hostOps1 : List (HloOp τ sig (Elt F))), Proc.devRef .tc b ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact fun e => absurd (Proc.devRef_injective _ e ▸ hb) (by decide))

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops
  obtain rfl := List.mem_singleton.mp hops
  exact List.forall_iff_forall_mem.mp (by repeat' constructor)
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  exact sfx_keeps' (List.mem_append_right _ ((List.mem_ofFn' _ _).mpr ⟨w, rfl⟩)) op hop

theorem arr_not_arg : ∀ w, Pipeline.arrRef spec0 w ∉ args := by decide

theorem V_arg (c : Dev nD) {b : Ref sig .tc} (hb : b ∈ args) : V m c b = m ((c : Thread nD τ).loc b) :=
  StableHlo.after_of_forall_not_mem _ _ (pre_keeps hb)

section
variable (dats : (p : Fin 1) → (c : Dev nD) → Dat τ (Elt F) Unit ℕ (UR sig nD τ) ℕ (cfgs p) c)

theorem W_arg (c : Dev nD) {b : Ref sig .tc} (hb : b ∈ args) :
    Pipeline.afterTail₀ cfgs dats 0 (V0 m) [hostOps1] c b = m ((c : Thread nD τ).loc b) := by
  unfold Pipeline.afterTail₀
  rw [StableHlo.after_of_forall_not_mem [hostOps1].flatten _ (sfx_keeps' (List.mem_append_left _ hb)),
    Pipeline.withArrays_of_ne _ c (V0 m c) _ b fun w e => arr_not_arg w (e ▸ hb)]
  exact V_arg m c hb
theorem W_main_arg0 (c : Dev nD) :
    Pipeline.afterTail₀ cfgs dats 0 (V0 m) [hostOps1] c main_arg0 = m ((c : Thread nD τ).loc main_arg0) := W_arg m dats c (by decide)
theorem W_main_arg1 (c : Dev nD) :
    Pipeline.afterTail₀ cfgs dats 0 (V0 m) [hostOps1] c main_arg1 = m ((c : Thread nD τ).loc main_arg1) := W_arg m dats c (by decide)
theorem W_main_arg2 (c : Dev nD) :
    Pipeline.afterTail₀ cfgs dats 0 (V0 m) [hostOps1] c main_arg2 = m ((c : Thread nD τ).loc main_arg2) := W_arg m dats c (by decide)
theorem W_main_arg3 (c : Dev nD) :
    Pipeline.afterTail₀ cfgs dats 0 (V0 m) [hostOps1] c main_arg3 = m ((c : Thread nD τ).loc main_arg3) := W_arg m dats c (by decide)
theorem W_main_arg4 (c : Dev nD) :
    Pipeline.afterTail₀ cfgs dats 0 (V0 m) [hostOps1] c main_arg4 = m ((c : Thread nD τ).loc main_arg4) := W_arg m dats c (by decide)
theorem W_main_arg5 (c : Dev nD) :
    Pipeline.afterTail₀ cfgs dats 0 (V0 m) [hostOps1] c main_arg5 = m ((c : Thread nD τ).loc main_arg5) := W_arg m dats c (by decide)
theorem W_main_arg6 (c : Dev nD) :
    Pipeline.afterTail₀ cfgs dats 0 (V0 m) [hostOps1] c main_arg6 = m ((c : Thread nD τ).loc main_arg6) := W_arg m dats c (by decide)

end

theorem frame_arg (dats : (p : Fin 1) → (c : Dev nD) → Dat τ (Elt F) Unit ℕ (UR sig nD τ) ℕ (cfgs p) c) (r : PUnit × MemSt nD τ sig (Elt F))
    (h : Pipeline.FramePost cfgs dats 0 (Pipeline.afterTail₀ cfgs dats 0 (V0 m) [hostOps1]) r) (c : Dev nD) {b : Ref sig .tc} (hb : b ∈ args) :
    r.2.mem ((c.tc : Thread nD τ).loc b) = m ((c.tc : Thread nD τ).loc b) :=
  ((h c).2 b (Pipeline.mem_restRefs_of b ((by decide : ∀ b ∈ args, b.isScoped = false) b hb)
    fun w e => by subst e; exact arr_not_arg w hb)).trans (W_arg m dats c hb)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem idle3 : ∀ t : Fin cfg0.N, ¬t.val % 8 = 7 → cfg0.idle 3 (grid0.coords t) = true ∧ (cfg0.win 3).flush t = false := by decide +kernel
theorem live3 : ∀ t : Fin cfg0.N, t.val % 8 = 7 → cfg0.idle 3 (grid0.coords t) = false := by decide +kernel

abbrev VO0_3 : View sig .tc .vmem S1x30x2 .f32 := (Memref.whole cc0_stg3_0 : Memref sig .tc .vmem S1x30x2 .f32).view
abbrev ms0_0 (t : Fin cfg0.N) : Memref sig .tc .vmem S1x5632x100 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x100x30 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x30x5632 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x30x2 .f32 := win0_3.stage (cfg0.slots t 3)
abbrev hs0_3 (t : Fin cfg0.N) : (ms0_3 t).IsWhole := hstage0_3 ((cfg0.slots t 3).cast nbuf0_3)
abbrev scM0_0 : Memref sig .tc .vmem S30x1 .f32 := Memref.whole cc0_scratch0
abbrev scM0_1 : Memref sig .tc .vmem S30x1 .f32 := Memref.whole cc0_scratch1
abbrev scM0_2 : Memref sig .tc .vmem S30x1 .f32 := Memref.whole cc0_scratch2
abbrev scM0_3 : Memref sig .tc .vmem S30x1 .f32 := Memref.whole cc0_scratch3
abbrev VS0_0 : View sig .tc .vmem S30x1 .f32 := scM0_0.view
abbrev VS0_1 : View sig .tc .vmem S30x1 .f32 := scM0_1.view
abbrev VS0_2 : View sig .tc .vmem S30x1 .f32 := scM0_2.view
abbrev VS0_3 : View sig .tc .vmem S30x1 .f32 := scM0_3.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

theorem owns_cover {c : Dev nD} {s : Shape} {e : EltTy} (M : Memref sig .tc .vmem s e) (v : View sig .tc .vmem s e) (L : List (View.Piece (Elt F) s e))
    (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v.read (Elt F) (v.writes (Elt F) v.junk L)) := by
  iintro ⟨%f, H⟩; unfold owns; iexists M.view.writes (Elt F) f L; isplitr
  · ipureintro; exact View.read_writes_of_cover _ _ _ _ _ hL
  · iexact H

end Cert.Kernel.GenH

end
-- ==== Proof.KFrameRunA.lean ====
import proofs.«422094_j90494960927125_3_alg».proof.Proof.KFrameRuns

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x5632x100 .f32) (harg2 : arg2.IsWhole) (arg3 : Memref sig .tc .vmem S1x100x30 .f32) (harg3 : arg3.IsWhole) (arg4 : Memref sig .tc .vmem S1x30x5632 .f32) (harg4 : arg4.IsWhole) (arg5 : Memref sig .tc .vmem S1x30x2 .f32) (harg5 : arg5.IsWhole) (arg6 : Memref sig .tc .vmem S30x1 .f32) (harg6 : arg6.IsWhole) (arg7 : Memref sig .tc .vmem S30x1 .f32) (harg7 : arg7.IsWhole) (arg8 : Memref sig .tc .vmem S30x1 .f32) (harg8 : arg8.IsWhole) (arg9 : Memref sig .tc .vmem S30x1 .f32) (harg9 : arg9.IsWhole) (hc0 : cond0_0 i) (hc1 : ¬cond0_1 i)
    (x0 : Vec F S1x5632x100 .f32) (x1 : Vec F S1x100x30 .f32) (x2 : Vec F S1x30x5632 .f32) :
    Σ' (L3 : List (View.Piece (Elt F) S1x30x2 .f32)) (LS0 : List (View.Piece (Elt F) S30x1 .f32)) (LS1 : List (View.Piece (Elt F) S30x1 .f32)) (LS2 : List (View.Piece (Elt F) S30x1 .f32)), { LS3 : List (View.Piece (Elt F) S30x1 .f32) //
      ∀ (xi3 : Vec F S1x30x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.Kernel.GenH

end
-- ==== Proof.KFrameRunB.lean ====
import proofs.«422094_j90494960927125_3_alg».proof.Proof.KFrameRunA

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x5632x100 .f32) (harg2 : arg2.IsWhole) (arg3 : Memref sig .tc .vmem S1x100x30 .f32) (harg3 : arg3.IsWhole) (arg4 : Memref sig .tc .vmem S1x30x5632 .f32) (harg4 : arg4.IsWhole) (arg5 : Memref sig .tc .vmem S1x30x2 .f32) (harg5 : arg5.IsWhole) (arg6 : Memref sig .tc .vmem S30x1 .f32) (harg6 : arg6.IsWhole) (arg7 : Memref sig .tc .vmem S30x1 .f32) (harg7 : arg7.IsWhole) (arg8 : Memref sig .tc .vmem S30x1 .f32) (harg8 : arg8.IsWhole) (arg9 : Memref sig .tc .vmem S30x1 .f32) (harg9 : arg9.IsWhole) (hc0 : ¬cond0_0 i) (hc1 : ¬cond0_1 i)
    (x0 : Vec F S1x5632x100 .f32) (x1 : Vec F S1x100x30 .f32) (x2 : Vec F S1x30x5632 .f32) (xs0 : Vec F S30x1 .f32) (xs1 : Vec F S30x1 .f32) (xs2 : Vec F S30x1 .f32) (xs3 : Vec F S30x1 .f32) :
    Σ' (L3 : List (View.Piece (Elt F) S1x30x2 .f32)) (LS0 : List (View.Piece (Elt F) S30x1 .f32)) (LS1 : List (View.Piece (Elt F) S30x1 .f32)) (LS2 : List (View.Piece (Elt F) S30x1 .f32)), { LS3 : List (View.Piece (Elt F) S30x1 .f32) //
      ∀ (xi3 : Vec F S1x30x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.Kernel.GenH

end
-- ==== Proof.KFrameRunC.lean ====
import proofs.«422094_j90494960927125_3_alg».proof.Proof.KFrameRunB

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1x5632x100 .f32) (harg2 : arg2.IsWhole) (arg3 : Memref sig .tc .vmem S1x100x30 .f32) (harg3 : arg3.IsWhole) (arg4 : Memref sig .tc .vmem S1x30x5632 .f32) (harg4 : arg4.IsWhole) (arg5 : Memref sig .tc .vmem S1x30x2 .f32) (harg5 : arg5.IsWhole) (arg6 : Memref sig .tc .vmem S30x1 .f32) (harg6 : arg6.IsWhole) (arg7 : Memref sig .tc .vmem S30x1 .f32) (harg7 : arg7.IsWhole) (arg8 : Memref sig .tc .vmem S30x1 .f32) (harg8 : arg8.IsWhole) (arg9 : Memref sig .tc .vmem S30x1 .f32) (harg9 : arg9.IsWhole) (hc0 : ¬cond0_0 i) (hc1 : cond0_1 i)
    (x0 : Vec F S1x5632x100 .f32) (x1 : Vec F S1x100x30 .f32) (x2 : Vec F S1x30x5632 .f32) (xs0 : Vec F S30x1 .f32) (xs1 : Vec F S30x1 .f32) (xs2 : Vec F S30x1 .f32) (xs3 : Vec F S30x1 .f32) :
    Σ' (L3 : List (View.Piece (Elt F) S1x30x2 .f32)) (LS0 : List (View.Piece (Elt F) S30x1 .f32)) (LS1 : List (View.Piece (Elt F) S30x1 .f32)) (LS2 : List (View.Piece (Elt F) S30x1 .f32)), { LS3 : List (View.Piece (Elt F) S30x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    isplitl [HS2]; · iexists _; iexact HS2
    iexists _; iexact HS3

end Cert.Kernel.GenH

end
-- ==== Proof.KFrameCert.lean ====
import proofs.«422094_j90494960927125_3_alg».proof.Proof.KFrameRunC

noncomputable section

namespace Cert.Kernel.GenH

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Cases

variable (c : Dev nD) (i : grid0.Coords)
  (arg2 : Memref sig .tc .vmem S1x5632x100 .f32) (harg2 : arg2.IsWhole)
  (arg3 : Memref sig .tc .vmem S1x100x30 .f32) (harg3 : arg3.IsWhole)
  (arg4 : Memref sig .tc .vmem S1x30x5632 .f32) (harg4 : arg4.IsWhole)
  (arg5 : Memref sig .tc .vmem S1x30x2 .f32) (harg5 : arg5.IsWhole)
  (arg6 : Memref sig .tc .vmem S30x1 .f32) (harg6 : arg6.IsWhole)
  (arg7 : Memref sig .tc .vmem S30x1 .f32) (harg7 : arg7.IsWhole)
  (arg8 : Memref sig .tc .vmem S30x1 .f32) (harg8 : arg8.IsWhole)
  (arg9 : Memref sig .tc .vmem S30x1 .f32) (harg9 : arg9.IsWhole)

section A

variable (hc0 : cond0_0 i) (hc1 : ¬cond0_1 i) (x0 : Vec F S1x5632x100 .f32) (x1 : Vec F S1x100x30 .f32) (x2 : Vec F S1x30x5632 .f32)

def out0_A_3 : Vec F S1x30x2 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)
theorem scover0_A_0 (y : S30x1.Idx) : ∃ pc ∈ (kernelRun0_A c i arg2 harg2 arg3 harg3 arg4 harg4 arg5 harg5 arg6 harg6 arg7 harg7 arg8 harg8 arg9 harg9 hc0 hc1 x0 x1 x2).2.1, y ∈ pc.1.set :=
  View.cover_of_tiledL _ S30x1.size (by sl_kernel_rfl) y
def sout0_A_0 : Vec F S30x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.1)
theorem scover0_A_1 (y : S30x1.Idx) : ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL _ S30x1.size (by sl_kernel_rfl) y
def sout0_A_1 : Vec F S30x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.1)
theorem scover0_A_2 (y : S30x1.Idx) : ∃ pc ∈ (kernelRun0_A c i arg2 harg2 arg3 harg3 arg4 harg4 arg5 harg5 arg6 harg6 arg7 harg7 arg8 harg8 arg9 harg9 hc0 hc1 x0 x1 x2).2.2.2.1, y ∈ pc.1.set :=
  View.cover_of_tiledL _ S30x1.size (by sl_kernel_rfl) y
def sout0_A_2 : Vec F S30x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2).2.2.2.1)
theorem scover0_A_3 (y : S30x1.Idx) : ∃ pc ∈ (kernelRun0_A c i arg2 harg2 arg3 harg3 arg4 harg4 arg5 harg5 arg6 harg6 arg7 harg7 arg8 harg8 arg9 harg9 hc0 hc1 x0 x1 x2).2.2.2.2.1, y ∈ pc.1.set :=
  View.cover_of_tiledL _ S30x1.size (by sl_kernel_rfl) y
def sout0_A_3 : Vec F S30x1 .f32 :=
  VS0_3.read (Elt F) (VS0_3.writes (Elt F) VS0_3.junk (kernelRun0_A c i arg2 harg2 arg3 harg3 arg4 harg4 arg5 harg5 arg6 harg6 arg7 harg7 arg8 harg8 arg9 harg9 hc0 hc1 x0 x1 x2).2.2.2.2.1)

end A

section B

variable (hc0 : ¬cond0_0 i) (hc1 : ¬cond0_1 i) (x0 : Vec F S1x5632x100 .f32) (x1 : Vec F S1x100x30 .f32) (x2 : Vec F S1x30x5632 .f32)
  (xs0 : Vec F S30x1 .f32) (xs1 : Vec F S30x1 .f32) (xs2 : Vec F S30x1 .f32) (xs3 : Vec F S30x1 .f32)

def out0_B_3 : Vec F S1x30x2 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1 xs2 xs3).1)
theorem scover0_B_0 (y : S30x1.Idx) : ∃ pc ∈ (kernelRun0_B c i arg2 harg2 arg3 harg3 arg4 harg4 arg5 harg5 arg6 harg6 arg7 harg7 arg8 harg8 arg9 harg9 hc0 hc1 x0 x1 x2 xs0 xs1 xs2 xs3).2.1, y ∈ pc.1.set :=
  View.cover_of_tiledL _ S30x1.size (by sl_kernel_rfl) y
def sout0_B_0 : Vec F S30x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1 xs2 xs3).2.1)
theorem scover0_B_1 (y : S30x1.Idx) : ∃ pc ∈ (kernelRun0_B c i arg2 harg2 arg3 harg3 arg4 harg4 arg5 harg5 arg6 harg6 arg7 harg7 arg8 harg8 arg9 harg9 hc0 hc1 x0 x1 x2 xs0 xs1 xs2 xs3).2.2.1, y ∈ pc.1.set :=
  View.cover_of_tiledL _ S30x1.size (by sl_kernel_rfl) y
def sout0_B_1 : Vec F S30x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1 xs2 xs3).2.2.1)
theorem scover0_B_2 (y : S30x1.Idx) : ∃ pc ∈ (kernelRun0_B c i arg2 harg2 arg3 harg3 arg4 harg4 arg5 harg5 arg6 harg6 arg7 harg7 arg8 harg8 arg9 harg9 hc0 hc1 x0 x1 x2 xs0 xs1 xs2 xs3).2.2.2.1, y ∈ pc.1.set :=
  View.cover_of_tiledL _ S30x1.size (by sl_kernel_rfl) y
def sout0_B_2 : Vec F S30x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 xs0 xs1 xs2 xs3).2.2.2.1)
theorem scover0_B_3 (y : S30x1.Idx) : ∃ pc ∈ (kernelRun0_B c i arg2 harg2 arg3 harg3 arg4 harg4 arg5 harg5 arg6 harg6 arg7 harg7 arg8 harg8 arg9 harg9 hc0 hc1 x0 x1 x2 xs0 xs1 xs2 xs3).2.2.2.2.1, y ∈ pc.1.set :=
  View.cover_of_tiledL _ S30x1.size (by sl_kernel_rfl) y
def sout0_B_3 : Vec F S30x1 .f32 :=
  VS0_3.read (Elt F) (VS0_3.writes (Elt F) VS0_3.junk (kernelRun0_B c i arg2 harg2 arg3 harg3 arg4 harg4 arg5 harg5 arg6 harg6 arg7 harg7 arg8 harg8 arg9 harg9 hc0 hc1 x0 x1 x2 xs0 xs1 xs2 xs3).2.2.2.2.1)

end B

section C

variable (hc0 : ¬cond0_0 i) (hc1 : cond0_1 i) (x0 : Vec F S1x5632x100 .f32) (x1 : Vec F S1x100x30 .f32) (x2 : Vec F S1x30x5632 .f32)
  (xs0 : Vec F S30x1 .f32) (xs1 : Vec F S30x1 .f32) (xs2 : Vec F S30x1 .f32) (xs3 : Vec F S30x1 .f32)

theorem cover0_C_3 (y : S1x30x2.Idx) : ∃ pc ∈ (kernelRun0_C c i arg2 harg2 arg3 harg3 arg4 harg4 arg5 harg5 arg6 harg6 arg7 harg7 arg8 harg8 arg9 harg9 hc0 hc1 x0 x1 x2 xs0 xs1 xs2 xs3).1, y ∈ pc.1.set :=
  View.cover_of_tiledL _ S1x30x2.size (by sl_kernel_rfl) y
def out0_C_3 : Vec F S1x30x2 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1 xs2 xs3).1)
theorem scover0_C_0 (y : S30x1.Idx) : ∃ pc ∈ (kernelRun0_C c i arg2 harg2 arg3 harg3 arg4 harg4 arg5 harg5 arg6 harg6 arg7 harg7 arg8 harg8 arg9 harg9 hc0 hc1 x0 x1 x2 xs0 xs1 xs2 xs3).2.1, y ∈ pc.1.set :=
  View.cover_of_tiledL _ S30x1.size (by sl_kernel_rfl) y
def sout0_C_0 : Vec F S30x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1 xs2 xs3).2.1)
theorem scover0_C_1 (y : S30x1.Idx) : ∃ pc ∈ (kernelRun0_C c i arg2 harg2 arg3 harg3 arg4 harg4 arg5 harg5 arg6 harg6 arg7 harg7 arg8 harg8 arg9 harg9 hc0 hc1 x0 x1 x2 xs0 xs1 xs2 xs3).2.2.1, y ∈ pc.1.set :=
  View.cover_of_tiledL _ S30x1.size (by sl_kernel_rfl) y
def sout0_C_1 : Vec F S30x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1 xs2 xs3).2.2.1)
theorem scover0_C_2 (y : S30x1.Idx) : ∃ pc ∈ (kernelRun0_C c i arg2 harg2 arg3 harg3 arg4 harg4 arg5 harg5 arg6 harg6 arg7 harg7 arg8 harg8 arg9 harg9 hc0 hc1 x0 x1 x2 xs0 xs1 xs2 xs3).2.2.2.1, y ∈ pc.1.set :=
  View.cover_of_tiledL _ S30x1.size (by sl_kernel_rfl) y
def sout0_C_2 : Vec F S30x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 xs0 xs1 xs2 xs3).2.2.2.1)
theorem scover0_C_3 (y : S30x1.Idx) : ∃ pc ∈ (kernelRun0_C c i arg2 harg2 arg3 harg3 arg4 harg4 arg5 harg5 arg6 harg6 arg7 harg7 arg8 harg8 arg9 harg9 hc0 hc1 x0 x1 x2 xs0 xs1 xs2 xs3).2.2.2.2.1, y ∈ pc.1.set :=
  View.cover_of_tiledL _ S30x1.size (by sl_kernel_rfl) y
def sout0_C_3 : Vec F S30x1 .f32 :=
  VS0_3.read (Elt F) (VS0_3.writes (Elt F) VS0_3.junk (kernelRun0_C c i arg2 harg2 arg3 harg3 arg4 harg4 arg5 harg5 arg6 harg6 arg7 harg7 arg8 harg8 arg9 harg9 hc0 hc1 x0 x1 x2 xs0 xs1 xs2 xs3).2.2.2.2.1)

end C

end Cases

abbrev Outs0 : Type := Vec F S1x30x2 .f32 × Vec F S30x1 .f32 × Vec F S30x1 .f32 × Vec F S30x1 .f32 × Vec F S30x1 .f32

def caseA0 (c : Dev nD) (t : Fin cfg0.N) (h0 : t.val % 8 = 0) (h1 : ¬t.val % 8 = 7) : Outs0 (F := F) :=
  (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
   sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
   sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
   sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
   sout0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t))

def caseB0 (c : Dev nD) (t : Fin cfg0.N) (h0 : ¬t.val % 8 = 0) (h1 : ¬t.val % 8 = 7) (p : Outs0 (F := F)) : Outs0 (F := F) :=
  (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) p.2.1 p.2.2.1 p.2.2.2.1 p.2.2.2.2,
   sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) p.2.1 p.2.2.1 p.2.2.2.1 p.2.2.2.2,
   sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) p.2.1 p.2.2.1 p.2.2.2.1 p.2.2.2.2,
   sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) p.2.1 p.2.2.1 p.2.2.2.1 p.2.2.2.2,
   sout0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) p.2.1 p.2.2.1 p.2.2.2.1 p.2.2.2.2)

def caseC0 (c : Dev nD) (t : Fin cfg0.N) (h0 : ¬t.val % 8 = 0) (h1 : t.val % 8 = 7) (p : Outs0 (F := F)) : Outs0 (F := F) :=
  (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) p.2.1 p.2.2.1 p.2.2.2.1 p.2.2.2.2,
   sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) p.2.1 p.2.2.1 p.2.2.2.1 p.2.2.2.2,
   sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) p.2.1 p.2.2.1 p.2.2.2.1 p.2.2.2.2,
   sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) p.2.1 p.2.2.1 p.2.2.2.1 p.2.2.2.2,
   sout0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) p.2.1 p.2.2.1 p.2.2.2.1 p.2.2.2.2)

def outsAt0 (c : Dev nD) : (n : ℕ) → n < cfg0.N → Outs0 (F := F)
  | 0, hn => caseA0 m c ⟨0, hn⟩ (Nat.zero_mod _) (fun h => by (try dsimp only at h); omega)
  | n + 1, hn =>
    if h0 : (n + 1) % 8 = 0 then
      if h1 : (n + 1) % 8 = 7 then
        False.elim (by omega)
      else
        caseA0 m c ⟨n + 1, hn⟩ h0 h1
    else
      if h1 : (n + 1) % 8 = 7 then
        caseC0 m c ⟨n + 1, hn⟩ h0 h1 (outsAt0 c n (Nat.lt_of_succ_lt hn))
      else
        caseB0 m c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 m c t.val t.isLt = caseA0 m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = caseB0 m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = caseC0 m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def accAt (c : Dev nD) (p : Outs0 (F := F)) : sProp 𝕄 :=
  iprop(iprop(owns (c : Thread nD τ) scM0_0 fullShare p.2.1 ∗ owns (c : Thread nD τ) scM0_1 fullShare p.2.2.1 ∗ owns (c : Thread nD τ) scM0_2 fullShare p.2.2.2.1 ∗ owns (c : Thread nD τ) scM0_3 fullShare p.2.2.2.2) ∗ (∃ r, prngReg c r))

def PhiS (c : Dev nD) : (n : ℕ) → n ≤ cfg0.N → sProp 𝕄
  | 0, _ => Pipeline.ΦA spec0 c
  | n + 1, hn => accAt c (outsAt0 m c n hn)

theorem PhiS_pos (c : Dev nD) (n : ℕ) (h : n ≤ cfg0.N) (hz : n ≠ 0) :
    PhiS m c n h = accAt c (outsAt0 m c (n - 1) (by omega)) := by
  cases n with
  | zero => exact absurd rfl hz
  | succ n => rfl

theorem PhiS_forget (c : Dev nD) (n : ℕ) (h : n ≤ cfg0.N) : PhiS m c n h ⊢ Pipeline.ΦA spec0 c := by
  cases n with
  | zero => exact Idealize.SL.BI.Entails.refl _
  | succ n =>
    rw [PhiA0_eq]; show accAt c _ ⊢ _; unfold accAt
    iintro ⟨⟨HS0, HS1, HS2, HS3⟩, Hg⟩
    iframe Hg
    isplitl [HS0]; · iexists _; iexact HS0
    isplitl [HS1]; · iexists _; iexact HS1
    isplitl [HS2]; · iexists _; iexact HS2
    iexists _; iexact HS3

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem live_in : ∀ t : Fin cfg0.N, cfg0.idle 0 (grid0.coords t) = false ∧ cfg0.idle 1 (grid0.coords t) = false ∧ cfg0.idle 2 (grid0.coords t) = false := by
  decide +kernel

set_option maxHeartbeats 1000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = accAt c (outsAt0 m c t.val t.isLt) from rfl,
    show (dats m 0 c).leavesExact 0 t = owns (c : Thread nD τ) (ms0_0 t) fullShare ((dats m 0 c).after 0 t) from by
      unfold Dat.leavesExact; rw [(live_in t).1],
    show (dats m 0 c).leavesExact 1 t = owns (c : Thread nD τ) (ms0_1 t) fullShare ((dats m 0 c).after 1 t) from by
      unfold Dat.leavesExact; rw [(live_in t).2.1],
    show (dats m 0 c).leavesExact 2 t = owns (c : Thread nD τ) (ms0_2 t) fullShare ((dats m 0 c).after 2 t) from by
      unfold Dat.leavesExact; rw [(live_in t).2.2],
    after0_0, after0_1, after0_2]
  by_cases h1 : t.val % 8 = 7
  · have h0 : ¬t.val % 8 = 0 := by omega
    rw [show (dats m 0 c).leavesExact 3 t = owns (c : Thread nD τ) (ms0_3 t) fullShare ((dats m 0 c).after 3 t) from by
        unfold Dat.leavesExact; rw [live3 t h1],
      after0_3, outsAt0_C m c t h0 h1, PhiS_castSucc m c t, PhiS_pos m c _ _ (by omega)]
    unfold caseC0 out0_C_3 sout0_C_0 sout0_C_1 sout0_C_2 sout0_C_3 accAt; dsimp only
    iintro ⟨⟨⟨HS0, HS1, HS2, HS3⟩, Hg⟩, Ho, ⟨%d0, H0⟩, ⟨%d1, H1⟩, ⟨%d2, H2⟩, ⟨%d3, H3⟩⟩
    iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) _ _ _ _).2.2.2.2.2 Set.univ _)
    iframe H0 H1 H2 HS0 HS1 HS2 HS3
    isplitl [H3]; · iexists _; iexact H3
    iintro ⟨H0, H1, H2, H3, HS0, HS1, HS2, HS3⟩
    ihave H3 := (owns_cover _ VO0_3 _ (fun y => cover0_C_3 (y := y) ..)) $$ H3
    ihave HS0 := (owns_cover _ VS0_0 _ (fun y => scover0_C_0 (y := y) ..)) $$ HS0
    ihave HS1 := (owns_cover _ VS0_1 _ (fun y => scover0_C_1 (y := y) ..)) $$ HS1
    ihave HS2 := (owns_cover _ VS0_2 _ (fun y => scover0_C_2 (y := y) ..)) $$ HS2
    ihave HS3 := (owns_cover _ VS0_3 _ (fun y => scover0_C_3 (y := y) ..)) $$ HS3
    iframe
  · rw [Dat.leavesExact_idle (dats m 0 c) 3 t (idle3 t h1).1 (idle3 t h1).2]
    by_cases h0 : t.val % 8 = 0
    · rw [outsAt0_A m c t h0 h1]
      unfold caseA0 sout0_A_0 sout0_A_1 sout0_A_2 sout0_A_3 accAt; dsimp only
      refine (sep_mono_left (PhiS_forget m c _ _)).trans ?_
      rw [PhiA0_eq]
      iintro ⟨⟨⟨HS0, HS1, HS2, HS3⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 _ Set.univ _)
      iframe H0 H1 H2 H3 HS0 HS1 HS2 HS3
      iintro ⟨H0, H1, H2, H3, HS0, HS1, HS2, HS3⟩
      ihave HS0 := (owns_cover _ VS0_0 _ (fun y => scover0_A_0 (y := y) ..)) $$ HS0
      ihave HS1 := (owns_cover _ VS0_1 _ (fun y => scover0_A_1 (y := y) ..)) $$ HS1
      ihave HS2 := (owns_cover _ VS0_2 _ (fun y => scover0_A_2 (y := y) ..)) $$ HS2
      ihave HS3 := (owns_cover _ VS0_3 _ (fun y => scover0_A_3 (y := y) ..)) $$ HS3
      iframe HS0 HS1 HS2 HS3 Hg Ho H0 H1 H2
      iexists _; iexact H3
    · rw [outsAt0_B m c t h0 h1, PhiS_castSucc m c t, PhiS_pos m c _ _ (by omega)]
      unfold caseB0 sout0_B_0 sout0_B_1 sout0_B_2 sout0_B_3 accAt; dsimp only
      iintro ⟨⟨⟨HS0, HS1, HS2, HS3⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) _ _ _ _).2.2.2.2.2 _ Set.univ _)
      iframe H0 H1 H2 H3 HS0 HS1 HS2 HS3
      iintro ⟨H0, H1, H2, H3, HS0, HS1, HS2, HS3⟩
      ihave HS0 := (owns_cover _ VS0_0 _ (fun y => scover0_B_0 (y := y) ..)) $$ HS0
      ihave HS1 := (owns_cover _ VS0_1 _ (fun y => scover0_B_1 (y := y) ..)) $$ HS1
      ihave HS2 := (owns_cover _ VS0_2 _ (fun y => scover0_B_2 (y := y) ..)) $$ HS2
      ihave HS3 := (owns_cover _ VS0_3 _ (fun y => scover0_B_3 (y := y) ..)) $$ HS3
      iframe HS0 HS1 HS2 HS3 Hg Ho H0 H1 H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c :=
  PhiS_forget m c (Fin.last cfg0.N).val (Nat.le_of_lt_succ (Fin.last cfg0.N).isLt)

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨frame_arg m _ r h c (by decide), frame_arg m _ r h c (by decide), frame_arg m _ r h c (by decide),
    frame_arg m _ r h c (by decide), frame_arg m _ r h c (by decide), frame_arg m _ r h c (by decide), frame_arg m _ r h c (by decide)⟩) (run_main m ρ)

end Cert.Kernel.GenH

end
-- ==== Proof.RefReadP.lean ====
import proofs.«422094_j90494960927125_3_alg».proof.Proof.Gen.ReferenceIdeal
import Idealize.ShloMosaic.Lib.StableHlo.Run
import Idealize.ShloMosaic.Lib.Pipeline.Value
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S4x100x21, .f32⟩ : BufTy).Contents (Elt F)) (x1 : (⟨S4x80000x100, .f32⟩ : BufTy).Contents (Elt F)) (x2 : (⟨S4x30x80000, .f32⟩ : BufTy).Contents (Elt F))
  (x3 x4 x5 : (⟨S4x30, .i32⟩ : BufTy).Contents (Elt F)) (x6 : (⟨S4x45000, .i32⟩ : BufTy).Contents (Elt F))

def val_main_cst : (⟨S_, .f32⟩ : BufTy).Contents (Elt F) :=
  constant S_ .f32 0x3F800000#32

def val_main_v0 : (⟨S21, .f32⟩ : BufTy).Contents (Elt F) :=
  broadcastInDim S21 ![] bcast_S_S21 (val_main_cst (F := F))

def val_main_c : (⟨S_, .i32⟩ : BufTy).Contents (Elt F) :=
  constantI S_ 32 0#32

def val_main_v1 : (⟨S1, .i32⟩ : BufTy).Contents (Elt F) :=
  broadcastInDim S1 ![] bcast_S_S1 (val_main_c (F := F))

def val_main_cst_0 : (⟨S_, .f32⟩ : BufTy).Contents (Elt F) :=
  constant S_ .f32 0x00000000#32

def val_main_v2 : (⟨S21, .f32⟩ : BufTy).Contents (Elt F) :=
  Host.scatter scatter_S21_S1_S__n_0_0_0 (fun _ b => b) (val_main_v0 (F := F)) (val_main_v1 (F := F)) (val_main_cst_0 (F := F))

def val_main_c_1 : (⟨S_, .i32⟩ : BufTy).Contents (Elt F) :=
  constantI S_ 32 20#32

def val_main_v3 : (⟨S1, .i32⟩ : BufTy).Contents (Elt F) :=
  broadcastInDim S1 ![] bcast_S_S1 (val_main_c_1 (F := F))

def val_main_cst_2 : (⟨S_, .f32⟩ : BufTy).Contents (Elt F) :=
  constant S_ .f32 0x3DCCCCCD#32

def val_main_v4 : (⟨S21, .f32⟩ : BufTy).Contents (Elt F) :=
  Host.scatter scatter_S21_S1_S__n_0_0_0 (fun _ b => b) (val_main_v2 (F := F)) (val_main_v3 (F := F)) (val_main_cst_2 (F := F))

def val_main_v5 : (⟨S4, .i32⟩ : BufTy).Contents (Elt F) :=
  iotaInDim S4 32 0

def val_main_v6 : (⟨S4x1, .i32⟩ : BufTy).Contents (Elt F) :=
  broadcastInDim S4x1 ![0] bcast_S4_S4x1_0 (val_main_v5 (F := F))

def val_main_call0_c : (⟨S_, .i32⟩ : BufTy).Contents (Elt F) :=
  constantI S_ 32 0#32

def val_main_call0_v0 : (⟨S4x30, .i32⟩ : BufTy).Contents (Elt F) :=
  broadcastInDim S4x30 ![] bcast_S_S4x30 (val_main_call0_c (F := F))

def val_main_call0_v1 : (⟨S4x30, .i1⟩ : BufTy).Contents (Elt F) :=
  cmpi .slt (x5) (val_main_call0_v0 (F := F))

def val_main_call0_c_0 : (⟨S_, .i32⟩ : BufTy).Contents (Elt F) :=
  constantI S_ 32 30#32

def val_main_call0_v2 : (⟨S4x30, .i32⟩ : BufTy).Contents (Elt F) :=
  broadcastInDim S4x30 ![] bcast_S_S4x30 (val_main_call0_c_0 (F := F))

def val_main_call0_v3 : (⟨S4x30, .i32⟩ : BufTy).Contents (Elt F) :=
  addi (x5) (val_main_call0_v2 (F := F))

def val_main_call0_v4 : (⟨S4x30, .i32⟩ : BufTy).Contents (Elt F) :=
  select (val_main_call0_v1 (F := F) x5) (val_main_call0_v3 (F := F) x5) (x5)

def val_main_call0_v5 : (⟨S4x30x1, .i32⟩ : BufTy).Contents (Elt F) :=
  shapeCast _ (val_main_call0_v4 (F := F) x5) shapeCasts_S4x30_S4x30x1

def val_main_call0_c_1 : (⟨S1, .i32⟩ : BufTy).Contents (Elt F) :=
  constantI S1 32 29#32

def val_main_call0_c_2 : (⟨S_, .i32⟩ : BufTy).Contents (Elt F) :=
  constantI S_ 32 0#32

def val_main_call0_v6 : (⟨S4x30x1, .i32⟩ : BufTy).Contents (Elt F) :=
  broadcastInDim S4x30x1 ![] bcast_S_S4x30x1 (val_main_call0_c_2 (F := F))

def val_main_call0_v7 : (⟨S4x30x1, .i1⟩ : BufTy).Contents (Elt F) :=
  cmpi .sge (val_main_call0_v5 (F := F) x5) (val_main_call0_v6 (F := F))

def val_main_call0_v8 : (⟨S1x1x1, .i32⟩ : BufTy).Contents (Elt F) :=
  broadcastInDim S1x1x1 ![2] bcast_S1_S1x1x1_2 (val_main_call0_c_1 (F := F))

def val_main_call0_v9 : (⟨S4x30x1, .i32⟩ : BufTy).Contents (Elt F) :=
  broadcastInDim S4x30x1 ![0, 1, 2] bcast_S1x1x1_S4x30x1_0_1_2 (val_main_call0_v8 (F := F))

def val_main_call0_v10 : (⟨S4x30x1, .i1⟩ : BufTy).Contents (Elt F) :=
  cmpi .sle (val_main_call0_v5 (F := F) x5) (val_main_call0_v9 (F := F))

def val_main_call0_v11 : (⟨S4x30x1, .i1⟩ : BufTy).Contents (Elt F) :=
  andi (val_main_call0_v7 (F := F) x5) (val_main_call0_v10 (F := F) x5)

def val_main_call0_c_3 : (⟨S_, .i1⟩ : BufTy).Contents (Elt F) :=
  constantI S_ 1 1#1

def val_main_call0_v12 : (⟨S4x30, .i1⟩ : BufTy).Contents (Elt F) :=
  Host.reduce IntOp.andi (val_main_call0_v11 (F := F) x5) (val_main_call0_c_3 (F := F)) reducesTo_S4x30x1_S4x30_d2 h_S_

def val_main_call0_v13 : (⟨S4x30, .i32⟩ : BufTy).Contents (Elt F) :=
  Host.gather gather_S4x30_S4x30x1_S4x30_n_1_0_0_1_2_11 (x3) (val_main_call0_v5 (F := F) x5)

def val_main_call0_c_4 : (⟨S_, .i32⟩ : BufTy).Contents (Elt F) :=
  constantI S_ 32 2147483648#32

def val_main_call0_v14 : (⟨S4x30, .i32⟩ : BufTy).Contents (Elt F) :=
  broadcastInDim S4x30 ![] bcast_S_S4x30 (val_main_call0_c_4 (F := F))

def val_main_v7 : (⟨S4x30, .i32⟩ : BufTy).Contents (Elt F) :=
  select (val_main_call0_v12 (F := F) x5) (val_main_call0_v13 (F := F) x3 x5) (val_main_call0_v14 (F := F))

def val_main_c_3 : (⟨S_, .i32⟩ : BufTy).Contents (Elt F) :=
  constantI S_ 32 20#32

def val_main_v8 : (⟨S4x100, .i32⟩ : BufTy).Contents (Elt F) :=
  broadcastInDim S4x100 ![] bcast_S_S4x100 (val_main_c_3 (F := F))

def val_main_c_4 : (⟨S_, .i32⟩ : BufTy).Contents (Elt F) :=
  constantI S_ 32 0#32

def val_main_v9 : (⟨S4x1, .i32⟩ : BufTy).Contents (Elt F) :=
  broadcastInDim S4x1 ![] bcast_S_S4x1 (val_main_c_4 (F := F))

def val_main_v10 : (⟨S4x1, .i1⟩ : BufTy).Contents (Elt F) :=
  cmpi .slt (val_main_v6 (F := F)) (val_main_v9 (F := F))

def val_main_c_5 : (⟨S_, .i32⟩ : BufTy).Contents (Elt F) :=
  constantI S_ 32 4#32

def val_main_v11 : (⟨S4x1, .i32⟩ : BufTy).Contents (Elt F) :=
  broadcastInDim S4x1 ![] bcast_S_S4x1 (val_main_c_5 (F := F))

def val_main_v12 : (⟨S4x1, .i32⟩ : BufTy).Contents (Elt F) :=
  addi (val_main_v6 (F := F)) (val_main_v11 (F := F))

def val_main_v13 : (⟨S4x1, .i32⟩ : BufTy).Contents (Elt F) :=
  select (val_main_v10 (F := F)) (val_main_v12 (F := F)) (val_main_v6 (F := F))

def val_main_c_6 : (⟨S_, .i32⟩ : BufTy).Contents (Elt F) :=
  constantI S_ 32 0#32

def val_main_v14 : (⟨S4x30, .i32⟩ : BufTy).Contents (Elt F) :=
  broadcastInDim S4x30 ![] bcast_S_S4x30 (val_main_c_6 (F := F))

def val_main_v15 : (⟨S4x30, .i1⟩ : BufTy).Contents (Elt F) :=
  cmpi .slt (x4) (val_main_v14 (F := F))

def val_main_c_7 : (⟨S_, .i32⟩ : BufTy).Contents (Elt F) :=
  constantI S_ 32 100#32

def val_main_v16 : (⟨S4x30, .i32⟩ : BufTy).Contents (Elt F) :=
  broadcastInDim S4x30 ![] bcast_S_S4x30 (val_main_c_7 (F := F))

def val_main_v17 : (⟨S4x30, .i32⟩ : BufTy).Contents (Elt F) :=
  addi (x4) (val_main_v16 (F := F))

def val_main_v18 : (⟨S4x30, .i32⟩ : BufTy).Contents (Elt F) :=
  select (val_main_v15 (F := F) x4) (val_main_v17 (F := F) x4) (x4)

def val_main_v19 : (⟨S4x30, .i32⟩ : BufTy).Contents (Elt F) :=
  broadcastInDim S4x30 ![0, 1] bcast_S4x1_S4x30_0_1 (val_main_v13 (F := F))

def val_main_v20 : (⟨S4x30x1, .i32⟩ : BufTy).Contents (Elt F) :=
  broadcastInDim S4x30x1 ![0, 1] bcast_S4x30_S4x30x1_0_1 (val_main_v19 (F := F))

def val_main_v21 : (⟨S4x30x1, .i32⟩ : BufTy).Contents (Elt F) :=
  broadcastInDim S4x30x1 ![0, 1] bcast_S4x30_S4x30x1_0_1 (val_main_v18 (F := F) x4)

def val_main_v22 : (⟨S4x30x2, .i32⟩ : BufTy).Contents (Elt F) :=
  concatenate S4x30x2 2 [⟨S4x30x1, (val_main_v20 (F := F))⟩, ⟨S4x30x1, (val_main_v21 (F := F) x4)⟩] concatenates_S4x30x1_S4x30x1_S4x30x2_d2

def val_main_v23 : (⟨S4x100, .i32⟩ : BufTy).Contents (Elt F) :=
  Host.scatter scatter_S4x100_S4x30x2_S4x30_n_01_01_2 (fun _ b => b) (val_main_v8 (F := F)) (val_main_v22 (F := F) x4) (val_main_v7 (F := F) x3 x5)

def val_main_call1_cst : (⟨S_, .f32⟩ : BufTy).Contents (Elt F) :=
  constant S_ .f32 0xFF800000#32

def val_main_call1_v0 : (⟨S4x100, .f32⟩ : BufTy).Contents (Elt F) :=
  Host.reduce FloatOps.maximumf (x0) (val_main_call1_cst (F := F)) reducesTo_S4x100x21_S4x100_d2 h_S_

def val_main_call1_cst_0 : (⟨S_, .f32⟩ : BufTy).Contents (Elt F) :=
  constant S_ .f32 0xFF800000#32

def val_main_call1_v1 : (⟨S4x100, .f32⟩ : BufTy).Contents (Elt F) :=
  broadcastInDim S4x100 ![] bcast_S_S4x100 (val_main_call1_cst_0 (F := F))

def val_main_call1_v2 : (⟨S4x100, .f32⟩ : BufTy).Contents (Elt F) :=
  maximumf (val_main_call1_v1 (F := F)) (val_main_call1_v0 (F := F) x0)

def val_main_call1_v3 : (⟨S4x100x1, .f32⟩ : BufTy).Contents (Elt F) :=
  broadcastInDim S4x100x1 ![0, 1] bcast_S4x100_S4x100x1_0_1 (val_main_call1_v2 (F := F) x0)

def val_main_call1_v4 : (⟨S4x100x21, .f32⟩ : BufTy).Contents (Elt F) :=
  broadcastInDim S4x100x21 ![0, 1, 2] bcast_S4x100x1_S4x100x21_0_1_2 (val_main_call1_v3 (F := F) x0)

def val_main_call1_v5 : (⟨S4x100x21, .f32⟩ : BufTy).Contents (Elt F) :=
  subf (x0) (val_main_call1_v4 (F := F) x0)

def val_main_call1_v6 : (⟨S4x100x21, .f32⟩ : BufTy).Contents (Elt F) :=
  Host.exp (val_main_call1_v5 (F := F) x0)

def val_main_call1_cst_1 : (⟨S_, .f32⟩ : BufTy).Contents (Elt F) :=
  constant S_ .f32 0x00000000#32

def val_main_call1_v7 : (⟨S4x100, .f32⟩ : BufTy).Contents (Elt F) :=
  Host.reduceAdd (val_main_call1_v6 (F := F) x0) (val_main_call1_cst_1 (F := F)) reducesTo_S4x100x21_S4x100_d2 h_S_

def val_main_call1_v8 : (⟨S4x100x1, .f32⟩ : BufTy).Contents (Elt F) :=
  broadcastInDim S4x100x1 ![0, 1] bcast_S4x100_S4x100x1_0_1 (val_main_call1_v7 (F := F) x0)

def val_main_call1_v9 : (⟨S4x100x1, .f32⟩ : BufTy).Contents (Elt F) :=
  Host.log (val_main_call1_v8 (F := F) x0)

def val_main_call1_v10 : (⟨S4x100x21, .f32⟩ : BufTy).Contents (Elt F) :=
  broadcastInDim S4x100x21 ![0, 1, 2] bcast_S4x100x1_S4x100x21_0_1_2 (val_main_call1_v9 (F := F) x0)

def val_main_v24 : (⟨S4x100x21, .f32⟩ : BufTy).Contents (Elt F) :=
  subf (val_main_call1_v5 (F := F) x0) (val_main_call1_v10 (F := F) x0)

def val_main_v25 : (⟨S4x100x1, .i32⟩ : BufTy).Contents (Elt F) :=
  broadcastInDim S4x100x1 ![0, 1] bcast_S4x100_S4x100x1_0_1 (val_main_v23 (F := F) x3 x4 x5)

def val_main_call2_c : (⟨S_, .i32⟩ : BufTy).Contents (Elt F) :=
  constantI S_ 32 0#32

def val_main_call2_v0 : (⟨S4x100x1, .i32⟩ : BufTy).Contents (Elt F) :=
  broadcastInDim S4x100x1 ![] bcast_S_S4x100x1 (val_main_call2_c (F := F))

def val_main_call2_v1 : (⟨S4x100x1, .i1⟩ : BufTy).Contents (Elt F) :=
  cmpi .slt (val_main_v25 (F := F) x3 x4 x5) (val_main_call2_v0 (F := F))

def val_main_call2_c_0 : (⟨S_, .i32⟩ : BufTy).Contents (Elt F) :=
  constantI S_ 32 21#32

def val_main_call2_v2 : (⟨S4x100x1, .i32⟩ : BufTy).Contents (Elt F) :=
  broadcastInDim S4x100x1 ![] bcast_S_S4x100x1 (val_main_call2_c_0 (F := F))

def val_main_call2_v3 : (⟨S4x100x1, .i32⟩ : BufTy).Contents (Elt F) :=
  addi (val_main_v25 (F := F) x3 x4 x5) (val_main_call2_v2 (F := F))

def val_main_call2_v4 : (⟨S4x100x1, .i32⟩ : BufTy).Contents (Elt F) :=
  select (val_main_call2_v1 (F := F) x3 x4 x5) (val_main_call2_v3 (F := F) x3 x4 x5) (val_main_v25 (F := F) x3 x4 x5)

def val_main_call2_v5 : (⟨S4x100x1x1, .i32⟩ : BufTy).Contents (Elt F) :=
  shapeCast _ (val_main_call2_v4 (F := F) x3 x4 x5) shapeCasts_S4x100x1_S4x100x1x1

def val_main_call2_c_1 : (⟨S1, .i32⟩ : BufTy).Contents (Elt F) :=
  constantI S1 32 20#32

def val_main_call2_c_2 : (⟨S_, .i32⟩ : BufTy).Contents (Elt F) :=
  constantI S_ 32 0#32

def val_main_call2_v6 : (⟨S4x100x1x1, .i32⟩ : BufTy).Contents (Elt F) :=
  broadcastInDim S4x100x1x1 ![] bcast_S_S4x100x1x1 (val_main_call2_c_2 (F := F))

def val_main_call2_v7 : (⟨S4x100x1x1, .i1⟩ : BufTy).Contents (Elt F) :=
  cmpi .sge (val_main_call2_v5 (F := F) x3 x4 x5) (val_main_call2_v6 (F := F))

def val_main_call2_v8 : (⟨S1x1x1x1, .i32⟩ : BufTy).Contents (Elt F) :=
  broadcastInDim S1x1x1x1 ![3] bcast_S1_S1x1x1x1_3 (val_main_call2_c_1 (F := F))

def val_main_call2_v9 : (⟨S4x100x1x1, .i32⟩ : BufTy).Contents (Elt F) :=
  broadcastInDim S4x100x1x1 ![0, 1, 2, 3] bcast_S1x1x1x1_S4x100x1x1_0_1_2_3 (val_main_call2_v8 (F := F))

def val_main_call2_v10 : (⟨S4x100x1x1, .i1⟩ : BufTy).Contents (Elt F) :=
  cmpi .sle (val_main_call2_v5 (F := F) x3 x4 x5) (val_main_call2_v9 (F := F))

def val_main_call2_v11 : (⟨S4x100x1x1, .i1⟩ : BufTy).Contents (Elt F) :=
  andi (val_main_call2_v7 (F := F) x3 x4 x5) (val_main_call2_v10 (F := F) x3 x4 x5)

def val_main_call2_c_3 : (⟨S_, .i1⟩ : BufTy).Contents (Elt F) :=
  constantI S_ 1 1#1

def val_main_call2_v12 : (⟨S4x100x1, .i1⟩ : BufTy).Contents (Elt F) :=
  Host.reduce IntOp.andi (val_main_call2_v11 (F := F) x3 x4 x5) (val_main_call2_c_3 (F := F)) reducesTo_S4x100x1x1_S4x100x1_d3 h_S_

def val_main_call2_v13 : (⟨S4x100x1, .f32⟩ : BufTy).Contents (Elt F) :=
  Host.gather gather_S4x100x21_S4x100x1x1_S4x100x1_n_2_01_01_2_3_111 (val_main_v24 (F := F) x0) (val_main_call2_v5 (F := F) x3 x4 x5)

def val_main_call2_cst : (⟨S_, .f32⟩ : BufTy).Contents (Elt F) :=
  constant S_ .f32 0x7FC00000#32

def val_main_call2_v14 : (⟨S4x100x1, .f32⟩ : BufTy).Contents (Elt F) :=
  broadcastInDim S4x100x1 ![] bcast_S_S4x100x1 (val_main_call2_cst (F := F))

def val_main_v26 : (⟨S4x100x1, .f32⟩ : BufTy).Contents (Elt F) :=
  select (val_main_call2_v12 (F := F) x3 x4 x5) (val_main_call2_v13 (F := F) x0 x3 x4 x5) (val_main_call2_v14 (F := F))

def val_main_v27 : (⟨S4x100, .f32⟩ : BufTy).Contents (Elt F) :=
  shapeCast _ (val_main_v26 (F := F) x0 x3 x4 x5) shapeCasts_S4x100x1_S4x100

def val_main_v28 : (⟨S4x100, .f32⟩ : BufTy).Contents (Elt F) :=
  Host.negf (val_main_v27 (F := F) x0 x3 x4 x5)

def val_main_c_8 : (⟨S_, .i32⟩ : BufTy).Contents (Elt F) :=
  constantI S_ 32 0#32

def val_main_v29 : (⟨S4x100, .i32⟩ : BufTy).Contents (Elt F) :=
  broadcastInDim S4x100 ![] bcast_S_S4x100 (val_main_c_8 (F := F))

def val_main_v30 : (⟨S4x100, .i1⟩ : BufTy).Contents (Elt F) :=
  cmpi .slt (val_main_v23 (F := F) x3 x4 x5) (val_main_v29 (F := F))

def val_main_c_9 : (⟨S_, .i32⟩ : BufTy).Contents (Elt F) :=
  constantI S_ 32 21#32

def val_main_v31 : (⟨S4x100, .i32⟩ : BufTy).Contents (Elt F) :=
  broadcastInDim S4x100 ![] bcast_S_S4x100 (val_main_c_9 (F := F))

def val_main_v32 : (⟨S4x100, .i32⟩ : BufTy).Contents (Elt F) :=
  addi (val_main_v23 (F := F) x3 x4 x5) (val_main_v31 (F := F))

def val_main_v33 : (⟨S4x100, .i32⟩ : BufTy).Contents (Elt F) :=
  select (val_main_v30 (F := F) x3 x4 x5) (val_main_v32 (F := F) x3 x4 x5) (val_main_v23 (F := F) x3 x4 x5)

def val_main_v34 : (⟨S4x100x1, .i32⟩ : BufTy).Contents (Elt F) :=
  broadcastInDim S4x100x1 ![0, 1] bcast_S4x100_S4x100x1_0_1 (val_main_v33 (F := F) x3 x4 x5)

def val_main_v35 : (⟨S4x100, .f32⟩ : BufTy).Contents (Elt F) :=
  Host.gather gather_S21_S4x100x1_S4x100_n_0_n_n_0_2_1 (val_main_v4 (F := F)) (val_main_v34 (F := F) x3 x4 x5)

def val_main_c_10 : (⟨S_, .i32⟩ : BufTy).Contents (Elt F) :=
  constantI S_ 32 255#32

def val_main_v36 : (⟨S4x100, .i32⟩ : BufTy).Contents (Elt F) :=
  broadcastInDim S4x100 ![] bcast_S_S4x100 (val_main_c_10 (F := F))

def val_main_v37 : (⟨S4x100, .i1⟩ : BufTy).Contents (Elt F) :=
  cmpi .ne (val_main_v23 (F := F) x3 x4 x5) (val_main_v36 (F := F))

def val_main_v38 : (⟨S4x100, .f32⟩ : BufTy).Contents (Elt F) :=
  uitofp .f32 (val_main_v37 (F := F) x3 x4 x5)

def val_main_v39 : (⟨S4x100, .f32⟩ : BufTy).Contents (Elt F) :=
  mulf (val_main_v35 (F := F) x3 x4 x5) (val_main_v38 (F := F) x3 x4 x5)

def val_main_v40 : (⟨S4x100, .f32⟩ : BufTy).Contents (Elt F) :=
  mulf (val_main_v39 (F := F) x3 x4 x5) (val_main_v28 (F := F) x0 x3 x4 x5)

def val_main_cst_11 : (⟨S_, .f32⟩ : BufTy).Contents (Elt F) :=
  constant S_ .f32 0x00000000#32

def val_main_v41 : (⟨S_, .f32⟩ : BufTy).Contents (Elt F) :=
  Host.reduceAdd (val_main_v40 (F := F) x0 x3 x4 x5) (val_main_cst_11 (F := F)) reducesTo_S4x100_S_d0_1 h_S_

def val_main_cst_12 : (⟨S_, .f32⟩ : BufTy).Contents (Elt F) :=
  constant S_ .f32 0x00000000#32

def val_main_v42 : (⟨S_, .f32⟩ : BufTy).Contents (Elt F) :=
  Host.reduceAdd (val_main_v39 (F := F) x3 x4 x5) (val_main_cst_12 (F := F)) reducesTo_S4x100_S_d0_1 h_S_

def val_main_cst_13 : (⟨S_, .f32⟩ : BufTy).Contents (Elt F) :=
  constant S_ .f32 0x322BCC77#32

def val_main_v43 : (⟨S_, .f32⟩ : BufTy).Contents (Elt F) :=
  maximumf (val_main_v42 (F := F) x3 x4 x5) (val_main_cst_13 (F := F))

def val_main_v44 : (⟨S_, .f32⟩ : BufTy).Contents (Elt F) :=
  Host.divf (val_main_v41 (F := F) x0 x3 x4 x5) (val_main_v43 (F := F) x3 x4 x5)

def val_main_v45 : (⟨S4x100x80000, .f32⟩ : BufTy).Contents (Elt F) :=
  transpose S4x100x80000 [0, 2, 1] (x1) transposes_S4x80000x100_S4x100x80000_0_2_1

abbrev idx_main_v45 (i : S4x100x80000.Idx) : S4x80000x100.Idx := fun a => match a with
  | ⟨0, _⟩ => ⟨(i 0).val, (i 0).isLt⟩
  | ⟨1, _⟩ => ⟨(i 2).val, (i 2).isLt⟩
  | ⟨2, _⟩ => ⟨(i 1).val, (i 1).isLt⟩

theorem val_main_v45_apply (i : S4x100x80000.Idx) :
    val_main_v45 (F := F) x1 i = x1 (idx_main_v45 i) := by
  unfold val_main_v45
  exact transpose_apply [0, 2, 1] x1 transposes_S4x80000x100_S4x100x80000_0_2_1 i (idx_main_v45 i) (fun b => match b with
    | ⟨0, _⟩ => rfl
    | ⟨1, _⟩ => rfl
    | ⟨2, _⟩ => rfl)

def val_main_v46 : (⟨S4x30x1, .i32⟩ : BufTy).Contents (Elt F) :=
  broadcastInDim S4x30x1 ![0, 1] bcast_S4x30_S4x30x1_0_1 (x4)

abbrev idx_main_v46 (i : S4x30x1.Idx) : S4x30.Idx := fun a => match a with
  | ⟨0, _⟩ => ⟨(i 0).val, (i 0).isLt⟩
  | ⟨1, _⟩ => ⟨(i 1).val, (i 1).isLt⟩

theorem val_main_v46_apply (i : S4x30x1.Idx) :
    val_main_v46 (F := F) x4 i = x4 (idx_main_v46 i) := by
  unfold val_main_v46
  exact broadcastInDim_apply _ bcast_S4x30_S4x30x1_0_1 x4 i (idx_main_v46 i) (fun a => match a with
    | ⟨0, _⟩ => by show (i 0).val = if (4 : Nat) = 1 then 0 else (i 0).val; rw [if_neg (by decide)]
    | ⟨1, _⟩ => by show (i 1).val = if (30 : Nat) = 1 then 0 else (i 1).val; rw [if_neg (by decide)])

def val_main_call3_c : (⟨S_, .i32⟩ : BufTy).Contents (Elt F) :=
  constantI S_ 32 0#32

theorem val_main_call3_c_apply (i : S_.Idx) :
    val_main_call3_c (F := F) i = 0#32 := rfl

def val_main_call3_v0 : (⟨S4x30x1, .i32⟩ : BufTy).Contents (Elt F) :=
  broadcastInDim S4x30x1 ![] bcast_S_S4x30x1 (val_main_call3_c (F := F))

abbrev idx_main_call3_v0 (i : S4x30x1.Idx) : S_.Idx := fun a => a.elim0

theorem val_main_call3_v0_apply (i : S4x30x1.Idx) :
    val_main_call3_v0 (F := F) i = val_main_call3_c (F := F) (idx_main_call3_v0 i) := by
  unfold val_main_call3_v0
  generalize val_main_call3_c (F := F) = y
  exact broadcastInDim_apply _ bcast_S_S4x30x1 y i (idx_main_call3_v0 i) (fun a => a.elim0)

def val_main_call3_v1 : (⟨S4x30x1, .i1⟩ : BufTy).Contents (Elt F) :=
  cmpi .slt (val_main_v46 (F := F) x4) (val_main_call3_v0 (F := F))

theorem val_main_call3_v1_apply (i : S4x30x1.Idx) :
    val_main_call3_v1 (F := F) x4 i = IntOp.cmpi .slt (val_main_v46 (F := F) x4 i) (val_main_call3_v0 (F := F) i) := rfl

def val_main_call3_c_0 : (⟨S_, .i32⟩ : BufTy).Contents (Elt F) :=
  constantI S_ 32 100#32

def val_main_call3_v2 : (⟨S4x30x1, .i32⟩ : BufTy).Contents (Elt F) :=
  broadcastInDim S4x30x1 ![] bcast_S_S4x30x1 (val_main_call3_c_0 (F := F))

def val_main_call3_v3 : (⟨S4x30x1, .i32⟩ : BufTy).Contents (Elt F) :=
  addi (val_main_v46 (F := F) x4) (val_main_call3_v2 (F := F))

theorem val_main_call3_v3_apply (i : S4x30x1.Idx) :
    val_main_call3_v3 (F := F) x4 i = IntOp.addi (val_main_v46 (F := F) x4 i) (val_main_call3_v2 (F := F) i) := rfl

def val_main_call3_v4 : (⟨S4x30x1, .i32⟩ : BufTy).Contents (Elt F) :=
  select (val_main_call3_v1 (F := F) x4) (val_main_call3_v3 (F := F) x4) (val_main_v46 (F := F) x4)

theorem val_main_call3_v4_apply (i : S4x30x1.Idx) :
    val_main_call3_v4 (F := F) x4 i = Scalar.select (val_main_call3_v1 (F := F) x4 i) (val_main_call3_v3 (F := F) x4 i) (val_main_v46 (F := F) x4 i) := rfl

def val_main_call3_c_1 : (⟨S1, .i32⟩ : BufTy).Contents (Elt F) :=
  constantI S1 32 99#32

theorem val_main_call3_c_1_apply (i : S1.Idx) :
    val_main_call3_c_1 (F := F) i = 99#32 := rfl

def val_main_call3_c_2 : (⟨S_, .i32⟩ : BufTy).Contents (Elt F) :=
  constantI S_ 32 0#32

theorem val_main_call3_c_2_apply (i : S_.Idx) :
    val_main_call3_c_2 (F := F) i = 0#32 := rfl

def val_main_call3_v5 : (⟨S4x30x1, .i32⟩ : BufTy).Contents (Elt F) :=
  broadcastInDim S4x30x1 ![] bcast_S_S4x30x1 (val_main_call3_c_2 (F := F))

abbrev idx_main_call3_v5 (i : S4x30x1.Idx) : S_.Idx := fun a => a.elim0

theorem val_main_call3_v5_apply (i : S4x30x1.Idx) :
    val_main_call3_v5 (F := F) i = val_main_call3_c_2 (F := F) (idx_main_call3_v5 i) := by
  unfold val_main_call3_v5
  generalize val_main_call3_c_2 (F := F) = y
  exact broadcastInDim_apply _ bcast_S_S4x30x1 y i (idx_main_call3_v5 i) (fun a => a.elim0)

def val_main_call3_v6 : (⟨S4x30x1, .i1⟩ : BufTy).Contents (Elt F) :=
  cmpi .sge (val_main_call3_v4 (F := F) x4) (val_main_call3_v5 (F := F))

theorem val_main_call3_v6_apply (i : S4x30x1.Idx) :
    val_main_call3_v6 (F := F) x4 i = IntOp.cmpi .sge (val_main_call3_v4 (F := F) x4 i) (val_main_call3_v5 (F := F) i) := rfl

def val_main_call3_v7 : (⟨S1x1x1, .i32⟩ : BufTy).Contents (Elt F) :=
  broadcastInDim S1x1x1 ![2] bcast_S1_S1x1x1_2 (val_main_call3_c_1 (F := F))

abbrev idx_main_call3_v7 (i : S1x1x1.Idx) : S1.Idx := fun a => match a with
  | ⟨0, _⟩ => ⟨0, Nat.one_pos⟩

theorem val_main_call3_v7_apply (i : S1x1x1.Idx) :
    val_main_call3_v7 (F := F) i = val_main_call3_c_1 (F := F) (idx_main_call3_v7 i) := by
  unfold val_main_call3_v7
  generalize val_main_call3_c_1 (F := F) = y
  exact broadcastInDim_apply _ bcast_S1_S1x1x1_2 y i (idx_main_call3_v7 i) (fun a => match a with
    | ⟨0, _⟩ => by show 0 = if (1 : Nat) = 1 then 0 else (i 2).val; rw [if_pos rfl])

def val_main_call3_v8 : (⟨S4x30x1, .i32⟩ : BufTy).Contents (Elt F) :=
  broadcastInDim S4x30x1 ![0, 1, 2] bcast_S1x1x1_S4x30x1_0_1_2 (val_main_call3_v7 (F := F))

abbrev idx_main_call3_v8 (i : S4x30x1.Idx) : S1x1x1.Idx := fun a => match a with
  | ⟨0, _⟩ => ⟨0, Nat.one_pos⟩
  | ⟨1, _⟩ => ⟨0, Nat.one_pos⟩
  | ⟨2, _⟩ => ⟨0, Nat.one_pos⟩

theorem val_main_call3_v8_apply (i : S4x30x1.Idx) :
    val_main_call3_v8 (F := F) i = val_main_call3_v7 (F := F) (idx_main_call3_v8 i) := by
  unfold val_main_call3_v8
  generalize val_main_call3_v7 (F := F) = y
  exact broadcastInDim_apply _ bcast_S1x1x1_S4x30x1_0_1_2 y i (idx_main_call3_v8 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

def val_main_call3_v9 : (⟨S4x30x1, .i1⟩ : BufTy).Contents (Elt F) :=
  cmpi .sle (val_main_call3_v4 (F := F) x4) (val_main_call3_v8 (F := F))

theorem val_main_call3_v9_apply (i : S4x30x1.Idx) :
    val_main_call3_v9 (F := F) x4 i = IntOp.cmpi .sle (val_main_call3_v4 (F := F) x4 i) (val_main_call3_v8 (F := F) i) := rfl

def val_main_call3_v10 : (⟨S4x30x1, .i1⟩ : BufTy).Contents (Elt F) :=
  andi (val_main_call3_v6 (F := F) x4) (val_main_call3_v9 (F := F) x4)

theorem val_main_call3_v10_apply (i : S4x30x1.Idx) :
    val_main_call3_v10 (F := F) x4 i = IntOp.andi (val_main_call3_v6 (F := F) x4 i) (val_main_call3_v9 (F := F) x4 i) := rfl

def val_main_call3_c_3 : (⟨S_, .i1⟩ : BufTy).Contents (Elt F) :=
  constantI S_ 1 1#1

def val_main_call3_v11 : (⟨S4x30, .i1⟩ : BufTy).Contents (Elt F) :=
  Host.reduce IntOp.andi (val_main_call3_v10 (F := F) x4) (val_main_call3_c_3 (F := F)) reducesTo_S4x30x1_S4x30_d2 h_S_

def val_main_call3_v12 : (⟨S4x30x80000, .f32⟩ : BufTy).Contents (Elt F) :=
  Host.gather gather_S4x100x80000_S4x30x1_S4x30x80000_2_1_0_0_1_2_1180000 (val_main_v45 (F := F) x1) (val_main_call3_v4 (F := F) x4)

def val_main_call3_v13 : (⟨S4x30x80000, .i1⟩ : BufTy).Contents (Elt F) :=
  broadcastInDim S4x30x80000 ![0, 1] bcast_S4x30_S4x30x80000_0_1 (val_main_call3_v11 (F := F) x4)

abbrev idx_main_call3_v13 (i : S4x30x80000.Idx) : S4x30.Idx := fun a => match a with
  | ⟨0, _⟩ => ⟨(i 0).val, (i 0).isLt⟩
  | ⟨1, _⟩ => ⟨(i 1).val, (i 1).isLt⟩

theorem val_main_call3_v13_apply (i : S4x30x80000.Idx) :
    val_main_call3_v13 (F := F) x4 i = val_main_call3_v11 (F := F) x4 (idx_main_call3_v13 i) := by
  unfold val_main_call3_v13
  generalize val_main_call3_v11 (F := F) x4 = y
  exact broadcastInDim_apply _ bcast_S4x30_S4x30x80000_0_1 y i (idx_main_call3_v13 i) (fun a => match a with
    | ⟨0, _⟩ => by show (i 0).val = if (4 : Nat) = 1 then 0 else (i 0).val; rw [if_neg (by decide)]
    | ⟨1, _⟩ => by show (i 1).val = if (30 : Nat) = 1 then 0 else (i 1).val; rw [if_neg (by decide)])

def val_main_call3_cst : (⟨S_, .f32⟩ : BufTy).Contents (Elt F) :=
  constant S_ .f32 0x7FC00000#32

def val_main_call3_v14 : (⟨S4x30x80000, .f32⟩ : BufTy).Contents (Elt F) :=
  broadcastInDim S4x30x80000 ![] bcast_S_S4x30x80000 (val_main_call3_cst (F := F))

def val_main_v47 : (⟨S4x30x80000, .f32⟩ : BufTy).Contents (Elt F) :=
  select (val_main_call3_v13 (F := F) x4) (val_main_call3_v12 (F := F) x1 x4) (val_main_call3_v14 (F := F))

theorem val_main_v47_apply (i : S4x30x80000.Idx) :
    val_main_v47 (F := F) x1 x4 i = Scalar.select (val_main_call3_v13 (F := F) x4 i) (val_main_call3_v12 (F := F) x1 x4 i) (val_main_call3_v14 (F := F) i) := rfl

def val_main_v48 : (⟨S4x30x1, .i32⟩ : BufTy).Contents (Elt F) :=
  broadcastInDim S4x30x1 ![0, 1] bcast_S4x30_S4x30x1_0_1 (x5)

abbrev idx_main_v48 (i : S4x30x1.Idx) : S4x30.Idx := fun a => match a with
  | ⟨0, _⟩ => ⟨(i 0).val, (i 0).isLt⟩
  | ⟨1, _⟩ => ⟨(i 1).val, (i 1).isLt⟩

theorem val_main_v48_apply (i : S4x30x1.Idx) :
    val_main_v48 (F := F) x5 i = x5 (idx_main_v48 i) := by
  unfold val_main_v48
  exact broadcastInDim_apply _ bcast_S4x30_S4x30x1_0_1 x5 i (idx_main_v48 i) (fun a => match a with
    | ⟨0, _⟩ => by show (i 0).val = if (4 : Nat) = 1 then 0 else (i 0).val; rw [if_neg (by decide)]
    | ⟨1, _⟩ => by show (i 1).val = if (30 : Nat) = 1 then 0 else (i 1).val; rw [if_neg (by decide)])

def val_main_call4_c : (⟨S_, .i32⟩ : BufTy).Contents (Elt F) :=
  constantI S_ 32 0#32

theorem val_main_call4_c_apply (i : S_.Idx) :
    val_main_call4_c (F := F) i = 0#32 := rfl

def val_main_call4_v0 : (⟨S4x30x1, .i32⟩ : BufTy).Contents (Elt F) :=
  broadcastInDim S4x30x1 ![] bcast_S_S4x30x1 (val_main_call4_c (F := F))

abbrev idx_main_call4_v0 (i : S4x30x1.Idx) : S_.Idx := fun a => a.elim0

theorem val_main_call4_v0_apply (i : S4x30x1.Idx) :
    val_main_call4_v0 (F := F) i = val_main_call4_c (F := F) (idx_main_call4_v0 i) := by
  unfold val_main_call4_v0
  generalize val_main_call4_c (F := F) = y
  exact broadcastInDim_apply _ bcast_S_S4x30x1 y i (idx_main_call4_v0 i) (fun a => a.elim0)

def val_main_call4_v1 : (⟨S4x30x1, .i1⟩ : BufTy).Contents (Elt F) :=
  cmpi .slt (val_main_v48 (F := F) x5) (val_main_call4_v0 (F := F))

theorem val_main_call4_v1_apply (i : S4x30x1.Idx) :
    val_main_call4_v1 (F := F) x5 i = IntOp.cmpi .slt (val_main_v48 (F := F) x5 i) (val_main_call4_v0 (F := F) i) := rfl

def val_main_call4_c_0 : (⟨S_, .i32⟩ : BufTy).Contents (Elt F) :=
  constantI S_ 32 30#32

def val_main_call4_v2 : (⟨S4x30x1, .i32⟩ : BufTy).Contents (Elt F) :=
  broadcastInDim S4x30x1 ![] bcast_S_S4x30x1 (val_main_call4_c_0 (F := F))

def val_main_call4_v3 : (⟨S4x30x1, .i32⟩ : BufTy).Contents (Elt F) :=
  addi (val_main_v48 (F := F) x5) (val_main_call4_v2 (F := F))

theorem val_main_call4_v3_apply (i : S4x30x1.Idx) :
    val_main_call4_v3 (F := F) x5 i = IntOp.addi (val_main_v48 (F := F) x5 i) (val_main_call4_v2 (F := F) i) := rfl

def val_main_call4_v4 : (⟨S4x30x1, .i32⟩ : BufTy).Contents (Elt F) :=
  select (val_main_call4_v1 (F := F) x5) (val_main_call4_v3 (F := F) x5) (val_main_v48 (F := F) x5)

theorem val_main_call4_v4_apply (i : S4x30x1.Idx) :
    val_main_call4_v4 (F := F) x5 i = Scalar.select (val_main_call4_v1 (F := F) x5 i) (val_main_call4_v3 (F := F) x5 i) (val_main_v48 (F := F) x5 i) := rfl

def val_main_call4_c_1 : (⟨S1, .i32⟩ : BufTy).Contents (Elt F) :=
  constantI S1 32 29#32

theorem val_main_call4_c_1_apply (i : S1.Idx) :
    val_main_call4_c_1 (F := F) i = 29#32 := rfl

def val_main_call4_c_2 : (⟨S_, .i32⟩ : BufTy).Contents (Elt F) :=
  constantI S_ 32 0#32

theorem val_main_call4_c_2_apply (i : S_.Idx) :
    val_main_call4_c_2 (F := F) i = 0#32 := rfl

def val_main_call4_v5 : (⟨S4x30x1, .i32⟩ : BufTy).Contents (Elt F) :=
  broadcastInDim S4x30x1 ![] bcast_S_S4x30x1 (val_main_call4_c_2 (F := F))

abbrev idx_main_call4_v5 (i : S4x30x1.Idx) : S_.Idx := fun a => a.elim0

theorem val_main_call4_v5_apply (i : S4x30x1.Idx) :
    val_main_call4_v5 (F := F) i = val_main_call4_c_2 (F := F) (idx_main_call4_v5 i) := by
  unfold val_main_call4_v5
  generalize val_main_call4_c_2 (F := F) = y
  exact broadcastInDim_apply _ bcast_S_S4x30x1 y i (idx_main_call4_v5 i) (fun a => a.elim0)

def val_main_call4_v6 : (⟨S4x30x1, .i1⟩ : BufTy).Contents (Elt F) :=
  cmpi .sge (val_main_call4_v4 (F := F) x5) (val_main_call4_v5 (F := F))

theorem val_main_call4_v6_apply (i : S4x30x1.Idx) :
    val_main_call4_v6 (F := F) x5 i = IntOp.cmpi .sge (val_main_call4_v4 (F := F) x5 i) (val_main_call4_v5 (F := F) i) := rfl

def val_main_call4_v7 : (⟨S1x1x1, .i32⟩ : BufTy).Contents (Elt F) :=
  broadcastInDim S1x1x1 ![2] bcast_S1_S1x1x1_2 (val_main_call4_c_1 (F := F))

abbrev idx_main_call4_v7 (i : S1x1x1.Idx) : S1.Idx := fun a => match a with
  | ⟨0, _⟩ => ⟨0, Nat.one_pos⟩

theorem val_main_call4_v7_apply (i : S1x1x1.Idx) :
    val_main_call4_v7 (F := F) i = val_main_call4_c_1 (F := F) (idx_main_call4_v7 i) := by
  unfold val_main_call4_v7
  generalize val_main_call4_c_1 (F := F) = y
  exact broadcastInDim_apply _ bcast_S1_S1x1x1_2 y i (idx_main_call4_v7 i) (fun a => match a with
    | ⟨0, _⟩ => by show 0 = if (1 : Nat) = 1 then 0 else (i 2).val; rw [if_pos rfl])

def val_main_call4_v8 : (⟨S4x30x1, .i32⟩ : BufTy).Contents (Elt F) :=
  broadcastInDim S4x30x1 ![0, 1, 2] bcast_S1x1x1_S4x30x1_0_1_2 (val_main_call4_v7 (F := F))

abbrev idx_main_call4_v8 (i : S4x30x1.Idx) : S1x1x1.Idx := fun a => match a with
  | ⟨0, _⟩ => ⟨0, Nat.one_pos⟩
  | ⟨1, _⟩ => ⟨0, Nat.one_pos⟩
  | ⟨2, _⟩ => ⟨0, Nat.one_pos⟩

theorem val_main_call4_v8_apply (i : S4x30x1.Idx) :
    val_main_call4_v8 (F := F) i = val_main_call4_v7 (F := F) (idx_main_call4_v8 i) := by
  unfold val_main_call4_v8
  generalize val_main_call4_v7 (F := F) = y
  exact broadcastInDim_apply _ bcast_S1x1x1_S4x30x1_0_1_2 y i (idx_main_call4_v8 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

def val_main_call4_v9 : (⟨S4x30x1, .i1⟩ : BufTy).Contents (Elt F) :=
  cmpi .sle (val_main_call4_v4 (F := F) x5) (val_main_call4_v8 (F := F))

theorem val_main_call4_v9_apply (i : S4x30x1.Idx) :
    val_main_call4_v9 (F := F) x5 i = IntOp.cmpi .sle (val_main_call4_v4 (F := F) x5 i) (val_main_call4_v8 (F := F) i) := rfl

def val_main_call4_v10 : (⟨S4x30x1, .i1⟩ : BufTy).Contents (Elt F) :=
  andi (val_main_call4_v6 (F := F) x5) (val_main_call4_v9 (F := F) x5)

theorem val_main_call4_v10_apply (i : S4x30x1.Idx) :
    val_main_call4_v10 (F := F) x5 i = IntOp.andi (val_main_call4_v6 (F := F) x5 i) (val_main_call4_v9 (F := F) x5 i) := rfl

def val_main_call4_c_3 : (⟨S_, .i1⟩ : BufTy).Contents (Elt F) :=
  constantI S_ 1 1#1

def val_main_call4_v11 : (⟨S4x30, .i1⟩ : BufTy).Contents (Elt F) :=
  Host.reduce IntOp.andi (val_main_call4_v10 (F := F) x5) (val_main_call4_c_3 (F := F)) reducesTo_S4x30x1_S4x30_d2 h_S_

def val_main_call4_v12 : (⟨S4x30x80000, .f32⟩ : BufTy).Contents (Elt F) :=
  Host.gather gather_S4x30x80000_S4x30x1_S4x30x80000_2_1_0_0_1_2_1180000 (x2) (val_main_call4_v4 (F := F) x5)

def val_main_call4_v13 : (⟨S4x30x80000, .i1⟩ : BufTy).Contents (Elt F) :=
  broadcastInDim S4x30x80000 ![0, 1] bcast_S4x30_S4x30x80000_0_1 (val_main_call4_v11 (F := F) x5)

abbrev idx_main_call4_v13 (i : S4x30x80000.Idx) : S4x30.Idx := fun a => match a with
  | ⟨0, _⟩ => ⟨(i 0).val, (i 0).isLt⟩
  | ⟨1, _⟩ => ⟨(i 1).val, (i 1).isLt⟩

theorem val_main_call4_v13_apply (i : S4x30x80000.Idx) :
    val_main_call4_v13 (F := F) x5 i = val_main_call4_v11 (F := F) x5 (idx_main_call4_v13 i) := by
  unfold val_main_call4_v13
  generalize val_main_call4_v11 (F := F) x5 = y
  exact broadcastInDim_apply _ bcast_S4x30_S4x30x80000_0_1 y i (idx_main_call4_v13 i) (fun a => match a with
    | ⟨0, _⟩ => by show (i 0).val = if (4 : Nat) = 1 then 0 else (i 0).val; rw [if_neg (by decide)]
    | ⟨1, _⟩ => by show (i 1).val = if (30 : Nat) = 1 then 0 else (i 1).val; rw [if_neg (by decide)])

def val_main_call4_cst : (⟨S_, .f32⟩ : BufTy).Contents (Elt F) :=
  constant S_ .f32 0x7FC00000#32

def val_main_call4_v14 : (⟨S4x30x80000, .f32⟩ : BufTy).Contents (Elt F) :=
  broadcastInDim S4x30x80000 ![] bcast_S_S4x30x80000 (val_main_call4_cst (F := F))

def val_main_v49 : (⟨S4x30x80000, .f32⟩ : BufTy).Contents (Elt F) :=
  select (val_main_call4_v13 (F := F) x5) (val_main_call4_v12 (F := F) x2 x5) (val_main_call4_v14 (F := F))

theorem val_main_v49_apply (i : S4x30x80000.Idx) :
    val_main_v49 (F := F) x2 x5 i = Scalar.select (val_main_call4_v13 (F := F) x5 i) (val_main_call4_v12 (F := F) x2 x5 i) (val_main_call4_v14 (F := F) i) := rfl

def val_main_c_14 : (⟨S_, .i32⟩ : BufTy).Contents (Elt F) :=
  constantI S_ 32 0#32

theorem val_main_c_14_apply (i : S_.Idx) :
    val_main_c_14 (F := F) i = 0#32 := rfl

def val_main_v50 : (⟨S4x45000, .i32⟩ : BufTy).Contents (Elt F) :=
  broadcastInDim S4x45000 ![] bcast_S_S4x45000 (val_main_c_14 (F := F))

abbrev idx_main_v50 (i : S4x45000.Idx) : S_.Idx := fun a => a.elim0

theorem val_main_v50_apply (i : S4x45000.Idx) :
    val_main_v50 (F := F) i = val_main_c_14 (F := F) (idx_main_v50 i) := by
  unfold val_main_v50
  generalize val_main_c_14 (F := F) = y
  exact broadcastInDim_apply _ bcast_S_S4x45000 y i (idx_main_v50 i) (fun a => a.elim0)

def val_main_v51 : (⟨S4x45000, .i1⟩ : BufTy).Contents (Elt F) :=
  cmpi .slt (x6) (val_main_v50 (F := F))

theorem val_main_v51_apply (i : S4x45000.Idx) :
    val_main_v51 (F := F) x6 i = IntOp.cmpi .slt (x6 i) (val_main_v50 (F := F) i) := rfl

def val_main_c_15 : (⟨S_, .i32⟩ : BufTy).Contents (Elt F) :=
  constantI S_ 32 80000#32

def val_main_v52 : (⟨S4x45000, .i32⟩ : BufTy).Contents (Elt F) :=
  broadcastInDim S4x45000 ![] bcast_S_S4x45000 (val_main_c_15 (F := F))

def val_main_v53 : (⟨S4x45000, .i32⟩ : BufTy).Contents (Elt F) :=
  addi (x6) (val_main_v52 (F := F))

theorem val_main_v53_apply (i : S4x45000.Idx) :
    val_main_v53 (F := F) x6 i = IntOp.addi (x6 i) (val_main_v52 (F := F) i) := rfl

def val_main_v54 : (⟨S4x45000, .i32⟩ : BufTy).Contents (Elt F) :=
  select (val_main_v51 (F := F) x6) (val_main_v53 (F := F) x6) (x6)

theorem val_main_v54_apply (i : S4x45000.Idx) :
    val_main_v54 (F := F) x6 i = Scalar.select (val_main_v51 (F := F) x6 i) (val_main_v53 (F := F) x6 i) (x6 i) := rfl

def val_main_v55 : (⟨S4x45000x1, .i32⟩ : BufTy).Contents (Elt F) :=
  broadcastInDim S4x45000x1 ![0, 1] bcast_S4x45000_S4x45000x1_0_1 (val_main_v54 (F := F) x6)

abbrev idx_main_v55 (i : S4x45000x1.Idx) : S4x45000.Idx := fun a => match a with
  | ⟨0, _⟩ => ⟨(i 0).val, (i 0).isLt⟩
  | ⟨1, _⟩ => ⟨(i 1).val, (i 1).isLt⟩

theorem val_main_v55_apply (i : S4x45000x1.Idx) :
    val_main_v55 (F := F) x6 i = val_main_v54 (F := F) x6 (idx_main_v55 i) := by
  unfold val_main_v55
  generalize val_main_v54 (F := F) x6 = y
  exact broadcastInDim_apply _ bcast_S4x45000_S4x45000x1_0_1 y i (idx_main_v55 i) (fun a => match a with
    | ⟨0, _⟩ => by show (i 0).val = if (4 : Nat) = 1 then 0 else (i 0).val; rw [if_neg (by decide)]
    | ⟨1, _⟩ => by show (i 1).val = if (45000 : Nat) = 1 then 0 else (i 1).val; rw [if_neg (by decide)])

def val_main_v56 : (⟨S4x30x45000, .f32⟩ : BufTy).Contents (Elt F) :=
  Host.gather gather_S4x30x80000_S4x45000x1_S4x30x45000_1_2_0_0_2_2_1301 (val_main_v47 (F := F) x1 x4) (val_main_v55 (F := F) x6)

def val_main_c_16 : (⟨S_, .i32⟩ : BufTy).Contents (Elt F) :=
  constantI S_ 32 0#32

theorem val_main_c_16_apply (i : S_.Idx) :
    val_main_c_16 (F := F) i = 0#32 := rfl

def val_main_v57 : (⟨S4x45000, .i32⟩ : BufTy).Contents (Elt F) :=
  broadcastInDim S4x45000 ![] bcast_S_S4x45000 (val_main_c_16 (F := F))

abbrev idx_main_v57 (i : S4x45000.Idx) : S_.Idx := fun a => a.elim0

theorem val_main_v57_apply (i : S4x45000.Idx) :
    val_main_v57 (F := F) i = val_main_c_16 (F := F) (idx_main_v57 i) := by
  unfold val_main_v57
  generalize val_main_c_16 (F := F) = y
  exact broadcastInDim_apply _ bcast_S_S4x45000 y i (idx_main_v57 i) (fun a => a.elim0)

def val_main_v58 : (⟨S4x45000, .i1⟩ : BufTy).Contents (Elt F) :=
  cmpi .slt (x6) (val_main_v57 (F := F))

theorem val_main_v58_apply (i : S4x45000.Idx) :
    val_main_v58 (F := F) x6 i = IntOp.cmpi .slt (x6 i) (val_main_v57 (F := F) i) := rfl

def val_main_c_17 : (⟨S_, .i32⟩ : BufTy).Contents (Elt F) :=
  constantI S_ 32 80000#32

def val_main_v59 : (⟨S4x45000, .i32⟩ : BufTy).Contents (Elt F) :=
  broadcastInDim S4x45000 ![] bcast_S_S4x45000 (val_main_c_17 (F := F))

def val_main_v60 : (⟨S4x45000, .i32⟩ : BufTy).Contents (Elt F) :=
  addi (x6) (val_main_v59 (F := F))

theorem val_main_v60_apply (i : S4x45000.Idx) :
    val_main_v60 (F := F) x6 i = IntOp.addi (x6 i) (val_main_v59 (F := F) i) := rfl

def val_main_v61 : (⟨S4x45000, .i32⟩ : BufTy).Contents (Elt F) :=
  select (val_main_v58 (F := F) x6) (val_main_v60 (F := F) x6) (x6)

theorem val_main_v61_apply (i : S4x45000.Idx) :
    val_main_v61 (F := F) x6 i = Scalar.select (val_main_v58 (F := F) x6 i) (val_main_v60 (F := F) x6 i) (x6 i) := rfl

def val_main_v62 : (⟨S4x45000x1, .i32⟩ : BufTy).Contents (Elt F) :=
  broadcastInDim S4x45000x1 ![0, 1] bcast_S4x45000_S4x45000x1_0_1 (val_main_v61 (F := F) x6)

abbrev idx_main_v62 (i : S4x45000x1.Idx) : S4x45000.Idx := fun a => match a with
  | ⟨0, _⟩ => ⟨(i 0).val, (i 0).isLt⟩
  | ⟨1, _⟩ => ⟨(i 1).val, (i 1).isLt⟩

theorem val_main_v62_apply (i : S4x45000x1.Idx) :
    val_main_v62 (F := F) x6 i = val_main_v61 (F := F) x6 (idx_main_v62 i) := by
  unfold val_main_v62
  generalize val_main_v61 (F := F) x6 = y
  exact broadcastInDim_apply _ bcast_S4x45000_S4x45000x1_0_1 y i (idx_main_v62 i) (fun a => match a with
    | ⟨0, _⟩ => by show (i 0).val = if (4 : Nat) = 1 then 0 else (i 0).val; rw [if_neg (by decide)]
    | ⟨1, _⟩ => by show (i 1).val = if (45000 : Nat) = 1 then 0 else (i 1).val; rw [if_neg (by decide)])

def val_main_v63 : (⟨S4x30x45000, .f32⟩ : BufTy).Contents (Elt F) :=
  Host.gather gather_S4x30x80000_S4x45000x1_S4x30x45000_1_2_0_0_2_2_1301 (val_main_v49 (F := F) x2 x5) (val_main_v62 (F := F) x6)

def val_main_cst_18 : (⟨S_, .f32⟩ : BufTy).Contents (Elt F) :=
  constant S_ .f32 0x00000000#32

theorem val_main_cst_18_apply (i : S_.Idx) :
    val_main_cst_18 (F := F) i = FloatOps.ofBits .f32 0x00000000#32 := rfl

def val_main_call5_v0 : (⟨S_, .f32⟩ : BufTy).Contents (Elt F) :=
  id (val_main_cst_18 (F := F))

theorem val_main_call5_v0_apply (i : S_.Idx) :
    val_main_call5_v0 (F := F) i = (val_main_cst_18 (F := F) i) := rfl

def val_main_call5_v1 : (⟨S4x30x45000, .f32⟩ : BufTy).Contents (Elt F) :=
  broadcastInDim S4x30x45000 ![] bcast_S_S4x30x45000 (val_main_call5_v0 (F := F))

abbrev idx_main_call5_v1 (i : S4x30x45000.Idx) : S_.Idx := fun a => a.elim0

theorem val_main_call5_v1_apply (i : S4x30x45000.Idx) :
    val_main_call5_v1 (F := F) i = val_main_call5_v0 (F := F) (idx_main_call5_v1 i) := by
  unfold val_main_call5_v1
  generalize val_main_call5_v0 (F := F) = y
  exact broadcastInDim_apply _ bcast_S_S4x30x45000 y i (idx_main_call5_v1 i) (fun a => a.elim0)

def val_main_v64 : (⟨S4x30x45000, .f32⟩ : BufTy).Contents (Elt F) :=
  maximumf (val_main_call5_v1 (F := F)) (val_main_v56 (F := F) x1 x4 x6)

theorem val_main_v64_apply (i : S4x30x45000.Idx) :
    val_main_v64 (F := F) x1 x4 x6 i = FloatOps.maximumf (val_main_call5_v1 (F := F) i) (val_main_v56 (F := F) x1 x4 x6 i) := rfl

def val_main_v65 : (⟨S4x30x45000, .f32⟩ : BufTy).Contents (Elt F) :=
  mulf (val_main_v56 (F := F) x1 x4 x6) (val_main_v63 (F := F) x2 x5 x6)

theorem val_main_v65_apply (i : S4x30x45000.Idx) :
    val_main_v65 (F := F) x1 x2 x4 x5 x6 i = FloatOps.mulf (val_main_v56 (F := F) x1 x4 x6 i) (val_main_v63 (F := F) x2 x5 x6 i) := rfl

def val_main_v66 : (⟨S4x30x45000, .f32⟩ : BufTy).Contents (Elt F) :=
  subf (val_main_v64 (F := F) x1 x4 x6) (val_main_v65 (F := F) x1 x2 x4 x5 x6)

theorem val_main_v66_apply (i : S4x30x45000.Idx) :
    val_main_v66 (F := F) x1 x2 x4 x5 x6 i = FloatOps.subf (val_main_v64 (F := F) x1 x4 x6 i) (val_main_v65 (F := F) x1 x2 x4 x5 x6 i) := rfl

def val_main_v67 : (⟨S4x30x45000, .f32⟩ : BufTy).Contents (Elt F) :=
  Host.absf (val_main_v56 (F := F) x1 x4 x6)

theorem val_main_v67_apply (i : S4x30x45000.Idx) :
    val_main_v67 (F := F) x1 x4 x6 i = FloatOps.hostAbsf (val_main_v56 (F := F) x1 x4 x6 i) := rfl

def val_main_v68 : (⟨S4x30x45000, .f32⟩ : BufTy).Contents (Elt F) :=
  Host.negf (val_main_v67 (F := F) x1 x4 x6)

theorem val_main_v68_apply (i : S4x30x45000.Idx) :
    val_main_v68 (F := F) x1 x4 x6 i = FloatOps.hostNegf (val_main_v67 (F := F) x1 x4 x6 i) := rfl

def val_main_v69 : (⟨S4x30x45000, .f32⟩ : BufTy).Contents (Elt F) :=
  Host.exp (val_main_v68 (F := F) x1 x4 x6)

theorem val_main_v69_apply (i : S4x30x45000.Idx) :
    val_main_v69 (F := F) x1 x4 x6 i = FloatOps.hostUnary .exp (val_main_v68 (F := F) x1 x4 x6 i) := rfl

def val_main_v70 : (⟨S4x30x45000, .f32⟩ : BufTy).Contents (Elt F) :=
  Host.log1p (val_main_v69 (F := F) x1 x4 x6)

theorem val_main_v70_apply (i : S4x30x45000.Idx) :
    val_main_v70 (F := F) x1 x4 x6 i = FloatOps.hostUnary .log1p (val_main_v69 (F := F) x1 x4 x6 i) := rfl

def val_main_v71 : (⟨S4x30x45000, .f32⟩ : BufTy).Contents (Elt F) :=
  addf (val_main_v66 (F := F) x1 x2 x4 x5 x6) (val_main_v70 (F := F) x1 x4 x6)

theorem val_main_v71_apply (i : S4x30x45000.Idx) :
    val_main_v71 (F := F) x1 x2 x4 x5 x6 i = FloatOps.addf (val_main_v66 (F := F) x1 x2 x4 x5 x6 i) (val_main_v70 (F := F) x1 x4 x6 i) := rfl

def val_main_cst_19 : (⟨S_, .f32⟩ : BufTy).Contents (Elt F) :=
  constant S_ .f32 0x00000000#32

theorem val_main_cst_19_apply (i : S_.Idx) :
    val_main_cst_19 (F := F) i = FloatOps.ofBits .f32 0x00000000#32 := rfl

def val_main_v72 : (⟨S4x30, .f32⟩ : BufTy).Contents (Elt F) :=
  Host.reduceAdd (val_main_v71 (F := F) x1 x2 x4 x5 x6) (val_main_cst_19 (F := F)) reducesTo_S4x30x45000_S4x30_d2 h_S_

abbrev idx_main_v72 (i : S4x30.Idx) (k : Fin 45000) : S4x30x45000.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_v72_apply (x1 : (⟨S4x80000x100, .f32⟩ : BufTy).Contents (Elt Ideal)) (x2 : (⟨S4x30x80000, .f32⟩ : BufTy).Contents (Elt Ideal)) (x4 x5 : (⟨S4x30, .i32⟩ : BufTy).Contents (Elt Ideal)) (x6 : (⟨S4x45000, .i32⟩ : BufTy).Contents (Elt Ideal)) (i : S4x30.Idx) :
    val_main_v72 (F := Ideal) x1 x2 x4 x5 x6 i = (val_main_cst_19 (F := Ideal)) (Shape.Idx.first h_S_) + ∑ k : Fin 45000, (val_main_v71 (F := Ideal) x1 x2 x4 x5 x6) (idx_main_v72 i k) := by
  unfold val_main_v72
  generalize val_main_v71 (F := Ideal) x1 x2 x4 x5 x6 = y0
  simp only [Host.reduceAdd, Ideal.hostReduceAdd_def]
  rw [Ideal.hostReduceAdd_single reducesTo_S4x30x45000_S4x30_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_cst_20 : (⟨S_, .f32⟩ : BufTy).Contents (Elt F) :=
  constant S_ .f32 0x472FC800#32

theorem val_main_cst_20_apply (i : S_.Idx) :
    val_main_cst_20 (F := F) i = FloatOps.ofBits .f32 0x472FC800#32 := rfl

def val_main_v73 : (⟨S4x30, .f32⟩ : BufTy).Contents (Elt F) :=
  broadcastInDim S4x30 ![] bcast_S_S4x30 (val_main_cst_20 (F := F))

abbrev idx_main_v73 (i : S4x30.Idx) : S_.Idx := fun a => a.elim0

theorem val_main_v73_apply (i : S4x30.Idx) :
    val_main_v73 (F := F) i = val_main_cst_20 (F := F) (idx_main_v73 i) := by
  unfold val_main_v73
  generalize val_main_cst_20 (F := F) = y
  exact broadcastInDim_apply _ bcast_S_S4x30 y i (idx_main_v73 i) (fun a => a.elim0)

def val_main_v74 : (⟨S4x30, .f32⟩ : BufTy).Contents (Elt F) :=
  Host.divf (val_main_v72 (F := F) x1 x2 x4 x5 x6) (val_main_v73 (F := F))

theorem val_main_v74_apply (i : S4x30.Idx) :
    val_main_v74 (F := F) x1 x2 x4 x5 x6 i = FloatOps.hostDivf (val_main_v72 (F := F) x1 x2 x4 x5 x6 i) (val_main_v73 (F := F) i) := rfl

def val_main_cst_21 : (⟨S_, .f32⟩ : BufTy).Contents (Elt F) :=
  constant S_ .f32 0x00000000#32

theorem val_main_cst_21_apply (i : S_.Idx) :
    val_main_cst_21 (F := F) i = FloatOps.ofBits .f32 0x00000000#32 := rfl

def val_main_v75 : (⟨S_, .f32⟩ : BufTy).Contents (Elt F) :=
  Host.reduceAdd (val_main_v74 (F := F) x1 x2 x4 x5 x6) (val_main_cst_21 (F := F)) reducesTo_S4x30_S_d0_1 h_S_

theorem val_main_v75_apply (x1 : (⟨S4x80000x100, .f32⟩ : BufTy).Contents (Elt Ideal)) (x2 : (⟨S4x30x80000, .f32⟩ : BufTy).Contents (Elt Ideal)) (x4 x5 : (⟨S4x30, .i32⟩ : BufTy).Contents (Elt Ideal)) (x6 : (⟨S4x45000, .i32⟩ : BufTy).Contents (Elt Ideal)) (i : S_.Idx) :
    val_main_v75 (F := Ideal) x1 x2 x4 x5 x6 i = (val_main_cst_21 (F := Ideal)) (Shape.Idx.first h_S_) + ∑ j : S4x30.Idx, (val_main_v74 (F := Ideal) x1 x2 x4 x5 x6) j := by
  unfold val_main_v75
  generalize val_main_v74 (F := Ideal) x1 x2 x4 x5 x6 = y0
  simp only [Host.reduceAdd, Ideal.hostReduceAdd_def]
  exact Ideal.hostReduceAdd_total reducesTo_S4x30_S_d0_1 (fun b => b.elim0) y0 _ i

def val_main_cst_22 : (⟨S_, .f32⟩ : BufTy).Contents (Elt F) :=
  constant S_ .f32 0x42F00000#32

theorem val_main_cst_22_apply (i : S_.Idx) :
    val_main_cst_22 (F := F) i = FloatOps.ofBits .f32 0x42F00000#32 := rfl

def val_main_v76 : (⟨S_, .f32⟩ : BufTy).Contents (Elt F) :=
  Host.divf (val_main_v75 (F := F) x1 x2 x4 x5 x6) (val_main_cst_22 (F := F))

theorem val_main_v76_apply (i : S_.Idx) :
    val_main_v76 (F := F) x1 x2 x4 x5 x6 i = FloatOps.hostDivf (val_main_v75 (F := F) x1 x2 x4 x5 x6 i) (val_main_cst_22 (F := F) i) := rfl

def val_main_v77 : (⟨S4x30x45000, .f32⟩ : BufTy).Contents (Elt F) :=
  Host.negf (val_main_v56 (F := F) x1 x4 x6)

theorem val_main_v77_apply (i : S4x30x45000.Idx) :
    val_main_v77 (F := F) x1 x4 x6 i = FloatOps.hostNegf (val_main_v56 (F := F) x1 x4 x6 i) := rfl

def val_main_v78 : (⟨S4x30x45000, .f32⟩ : BufTy).Contents (Elt F) :=
  Host.exp (val_main_v77 (F := F) x1 x4 x6)

theorem val_main_v78_apply (i : S4x30x45000.Idx) :
    val_main_v78 (F := F) x1 x4 x6 i = FloatOps.hostUnary .exp (val_main_v77 (F := F) x1 x4 x6 i) := rfl

def val_main_cst_23 : (⟨S_, .f32⟩ : BufTy).Contents (Elt F) :=
  constant S_ .f32 0x3F800000#32

theorem val_main_cst_23_apply (i : S_.Idx) :
    val_main_cst_23 (F := F) i = FloatOps.ofBits .f32 0x3F800000#32 := rfl

def val_main_v79 : (⟨S4x30x45000, .f32⟩ : BufTy).Contents (Elt F) :=
  broadcastInDim S4x30x45000 ![] bcast_S_S4x30x45000 (val_main_cst_23 (F := F))

abbrev idx_main_v79 (i : S4x30x45000.Idx) : S_.Idx := fun a => a.elim0

theorem val_main_v79_apply (i : S4x30x45000.Idx) :
    val_main_v79 (F := F) i = val_main_cst_23 (F := F) (idx_main_v79 i) := by
  unfold val_main_v79
  generalize val_main_cst_23 (F := F) = y
  exact broadcastInDim_apply _ bcast_S_S4x30x45000 y i (idx_main_v79 i) (fun a => a.elim0)

def val_main_v80 : (⟨S4x30x45000, .f32⟩ : BufTy).Contents (Elt F) :=
  addf (val_main_v79 (F := F)) (val_main_v78 (F := F) x1 x4 x6)

theorem val_main_v80_apply (i : S4x30x45000.Idx) :
    val_main_v80 (F := F) x1 x4 x6 i = FloatOps.addf (val_main_v79 (F := F) i) (val_main_v78 (F := F) x1 x4 x6 i) := rfl

def val_main_cst_24 : (⟨S_, .f32⟩ : BufTy).Contents (Elt F) :=
  constant S_ .f32 0x3F800000#32

theorem val_main_cst_24_apply (i : S_.Idx) :
    val_main_cst_24 (F := F) i = FloatOps.ofBits .f32 0x3F800000#32 := rfl

def val_main_v81 : (⟨S4x30x45000, .f32⟩ : BufTy).Contents (Elt F) :=
  broadcastInDim S4x30x45000 ![] bcast_S_S4x30x45000 (val_main_cst_24 (F := F))

abbrev idx_main_v81 (i : S4x30x45000.Idx) : S_.Idx := fun a => a.elim0

theorem val_main_v81_apply (i : S4x30x45000.Idx) :
    val_main_v81 (F := F) i = val_main_cst_24 (F := F) (idx_main_v81 i) := by
  unfold val_main_v81
  generalize val_main_cst_24 (F := F) = y
  exact broadcastInDim_apply _ bcast_S_S4x30x45000 y i (idx_main_v81 i) (fun a => a.elim0)

def val_main_v82 : (⟨S4x30x45000, .f32⟩ : BufTy).Contents (Elt F) :=
  Host.divf (val_main_v81 (F := F)) (val_main_v80 (F := F) x1 x4 x6)

theorem val_main_v82_apply (i : S4x30x45000.Idx) :
    val_main_v82 (F := F) x1 x4 x6 i = FloatOps.hostDivf (val_main_v81 (F := F) i) (val_main_v80 (F := F) x1 x4 x6 i) := rfl

def val_main_cst_25 : (⟨S_, .f32⟩ : BufTy).Contents (Elt F) :=
  constant S_ .f32 0x33D6BF95#32

theorem val_main_cst_25_apply (i : S_.Idx) :
    val_main_cst_25 (F := F) i = FloatOps.ofBits .f32 0x33D6BF95#32 := rfl

def val_main_cst_26 : (⟨S_, .f32⟩ : BufTy).Contents (Elt F) :=
  constant S_ .f32 0x3F7FFFFE#32

theorem val_main_cst_26_apply (i : S_.Idx) :
    val_main_cst_26 (F := F) i = FloatOps.ofBits .f32 0x3F7FFFFE#32 := rfl

def val_main_call6_v0 : (⟨S_, .f32⟩ : BufTy).Contents (Elt F) :=
  id (val_main_cst_25 (F := F))

theorem val_main_call6_v0_apply (i : S_.Idx) :
    val_main_call6_v0 (F := F) i = (val_main_cst_25 (F := F) i) := rfl

def val_main_call6_v1 : (⟨S4x30x45000, .f32⟩ : BufTy).Contents (Elt F) :=
  broadcastInDim S4x30x45000 ![] bcast_S_S4x30x45000 (val_main_call6_v0 (F := F))

abbrev idx_main_call6_v1 (i : S4x30x45000.Idx) : S_.Idx := fun a => a.elim0

theorem val_main_call6_v1_apply (i : S4x30x45000.Idx) :
    val_main_call6_v1 (F := F) i = val_main_call6_v0 (F := F) (idx_main_call6_v1 i) := by
  unfold val_main_call6_v1
  generalize val_main_call6_v0 (F := F) = y
  exact broadcastInDim_apply _ bcast_S_S4x30x45000 y i (idx_main_call6_v1 i) (fun a => a.elim0)

def val_main_call6_v2 : (⟨S4x30x45000, .f32⟩ : BufTy).Contents (Elt F) :=
  maximumf (val_main_call6_v1 (F := F)) (val_main_v82 (F := F) x1 x4 x6)

theorem val_main_call6_v2_apply (i : S4x30x45000.Idx) :
    val_main_call6_v2 (F := F) x1 x4 x6 i = FloatOps.maximumf (val_main_call6_v1 (F := F) i) (val_main_v82 (F := F) x1 x4 x6 i) := rfl

def val_main_call6_v3 : (⟨S_, .f32⟩ : BufTy).Contents (Elt F) :=
  id (val_main_cst_26 (F := F))

theorem val_main_call6_v3_apply (i : S_.Idx) :
    val_main_call6_v3 (F := F) i = (val_main_cst_26 (F := F) i) := rfl

def val_main_call6_v4 : (⟨S4x30x45000, .f32⟩ : BufTy).Contents (Elt F) :=
  broadcastInDim S4x30x45000 ![] bcast_S_S4x30x45000 (val_main_call6_v3 (F := F))

abbrev idx_main_call6_v4 (i : S4x30x45000.Idx) : S_.Idx := fun a => a.elim0

theorem val_main_call6_v4_apply (i : S4x30x45000.Idx) :
    val_main_call6_v4 (F := F) i = val_main_call6_v3 (F := F) (idx_main_call6_v4 i) := by
  unfold val_main_call6_v4
  generalize val_main_call6_v3 (F := F) = y
  exact broadcastInDim_apply _ bcast_S_S4x30x45000 y i (idx_main_call6_v4 i) (fun a => a.elim0)

def val_main_v83 : (⟨S4x30x45000, .f32⟩ : BufTy).Contents (Elt F) :=
  minimumf (val_main_call6_v4 (F := F)) (val_main_call6_v2 (F := F) x1 x4 x6)

theorem val_main_v83_apply (i : S4x30x45000.Idx) :
    val_main_v83 (F := F) x1 x4 x6 i = FloatOps.minimumf (val_main_call6_v4 (F := F) i) (val_main_call6_v2 (F := F) x1 x4 x6 i) := rfl

def val_main_v84 : (⟨S4x30x45000, .f32⟩ : BufTy).Contents (Elt F) :=
  mulf (val_main_v83 (F := F) x1 x4 x6) (val_main_v63 (F := F) x2 x5 x6)

theorem val_main_v84_apply (i : S4x30x45000.Idx) :
    val_main_v84 (F := F) x1 x2 x4 x5 x6 i = FloatOps.mulf (val_main_v83 (F := F) x1 x4 x6 i) (val_main_v63 (F := F) x2 x5 x6 i) := rfl

def val_main_cst_27 : (⟨S_, .f32⟩ : BufTy).Contents (Elt F) :=
  constant S_ .f32 0x00000000#32

theorem val_main_cst_27_apply (i : S_.Idx) :
    val_main_cst_27 (F := F) i = FloatOps.ofBits .f32 0x00000000#32 := rfl

def val_main_v85 : (⟨S4x30, .f32⟩ : BufTy).Contents (Elt F) :=
  Host.reduceAdd (val_main_v84 (F := F) x1 x2 x4 x5 x6) (val_main_cst_27 (F := F)) reducesTo_S4x30x45000_S4x30_d2 h_S_

abbrev idx_main_v85 (i : S4x30.Idx) (k : Fin 45000) : S4x30x45000.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_v85_apply (x1 : (⟨S4x80000x100, .f32⟩ : BufTy).Contents (Elt Ideal)) (x2 : (⟨S4x30x80000, .f32⟩ : BufTy).Contents (Elt Ideal)) (x4 x5 : (⟨S4x30, .i32⟩ : BufTy).Contents (Elt Ideal)) (x6 : (⟨S4x45000, .i32⟩ : BufTy).Contents (Elt Ideal)) (i : S4x30.Idx) :
    val_main_v85 (F := Ideal) x1 x2 x4 x5 x6 i = (val_main_cst_27 (F := Ideal)) (Shape.Idx.first h_S_) + ∑ k : Fin 45000, (val_main_v84 (F := Ideal) x1 x2 x4 x5 x6) (idx_main_v85 i k) := by
  unfold val_main_v85
  generalize val_main_v84 (F := Ideal) x1 x2 x4 x5 x6 = y0
  simp only [Host.reduceAdd, Ideal.hostReduceAdd_def]
  rw [Ideal.hostReduceAdd_single reducesTo_S4x30x45000_S4x30_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_cst_28 : (⟨S_, .f32⟩ : BufTy).Contents (Elt F) :=
  constant S_ .f32 0x40000000#32

theorem val_main_cst_28_apply (i : S_.Idx) :
    val_main_cst_28 (F := F) i = FloatOps.ofBits .f32 0x40000000#32 := rfl

def val_main_v86 : (⟨S4x30, .f32⟩ : BufTy).Contents (Elt F) :=
  broadcastInDim S4x30 ![] bcast_S_S4x30 (val_main_cst_28 (F := F))

abbrev idx_main_v86 (i : S4x30.Idx) : S_.Idx := fun a => a.elim0

theorem val_main_v86_apply (i : S4x30.Idx) :
    val_main_v86 (F := F) i = val_main_cst_28 (F := F) (idx_main_v86 i) := by
  unfold val_main_v86
  generalize val_main_cst_28 (F := F) = y
  exact broadcastInDim_apply _ bcast_S_S4x30 y i (idx_main_v86 i) (fun a => a.elim0)

def val_main_v87 : (⟨S4x30, .f32⟩ : BufTy).Contents (Elt F) :=
  mulf (val_main_v86 (F := F)) (val_main_v85 (F := F) x1 x2 x4 x5 x6)

theorem val_main_v87_apply (i : S4x30.Idx) :
    val_main_v87 (F := F) x1 x2 x4 x5 x6 i = FloatOps.mulf (val_main_v86 (F := F) i) (val_main_v85 (F := F) x1 x2 x4 x5 x6 i) := rfl

def val_main_cst_29 : (⟨S_, .f32⟩ : BufTy).Contents (Elt F) :=
  constant S_ .f32 0x00000000#32

theorem val_main_cst_29_apply (i : S_.Idx) :
    val_main_cst_29 (F := F) i = FloatOps.ofBits .f32 0x00000000#32 := rfl

def val_main_v88 : (⟨S4x30, .f32⟩ : BufTy).Contents (Elt F) :=
  Host.reduceAdd (val_main_v83 (F := F) x1 x4 x6) (val_main_cst_29 (F := F)) reducesTo_S4x30x45000_S4x30_d2 h_S_

abbrev idx_main_v88 (i : S4x30.Idx) (k : Fin 45000) : S4x30x45000.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_v88_apply (x1 : (⟨S4x80000x100, .f32⟩ : BufTy).Contents (Elt Ideal)) (x4 : (⟨S4x30, .i32⟩ : BufTy).Contents (Elt Ideal)) (x6 : (⟨S4x45000, .i32⟩ : BufTy).Contents (Elt Ideal)) (i : S4x30.Idx) :
    val_main_v88 (F := Ideal) x1 x4 x6 i = (val_main_cst_29 (F := Ideal)) (Shape.Idx.first h_S_) + ∑ k : Fin 45000, (val_main_v83 (F := Ideal) x1 x4 x6) (idx_main_v88 i k) := by
  unfold val_main_v88
  generalize val_main_v83 (F := Ideal) x1 x4 x6 = y0
  simp only [Host.reduceAdd, Ideal.hostReduceAdd_def]
  rw [Ideal.hostReduceAdd_single reducesTo_S4x30x45000_S4x30_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_cst_30 : (⟨S_, .f32⟩ : BufTy).Contents (Elt F) :=
  constant S_ .f32 0x00000000#32

theorem val_main_cst_30_apply (i : S_.Idx) :
    val_main_cst_30 (F := F) i = FloatOps.ofBits .f32 0x00000000#32 := rfl

def val_main_v89 : (⟨S4x30, .f32⟩ : BufTy).Contents (Elt F) :=
  Host.reduceAdd (val_main_v63 (F := F) x2 x5 x6) (val_main_cst_30 (F := F)) reducesTo_S4x30x45000_S4x30_d2 h_S_

abbrev idx_main_v89 (i : S4x30.Idx) (k : Fin 45000) : S4x30x45000.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_v89_apply (x2 : (⟨S4x30x80000, .f32⟩ : BufTy).Contents (Elt Ideal)) (x5 : (⟨S4x30, .i32⟩ : BufTy).Contents (Elt Ideal)) (x6 : (⟨S4x45000, .i32⟩ : BufTy).Contents (Elt Ideal)) (i : S4x30.Idx) :
    val_main_v89 (F := Ideal) x2 x5 x6 i = (val_main_cst_30 (F := Ideal)) (Shape.Idx.first h_S_) + ∑ k : Fin 45000, (val_main_v63 (F := Ideal) x2 x5 x6) (idx_main_v89 i k) := by
  unfold val_main_v89
  generalize val_main_v63 (F := Ideal) x2 x5 x6 = y0
  simp only [Host.reduceAdd, Ideal.hostReduceAdd_def]
  rw [Ideal.hostReduceAdd_single reducesTo_S4x30x45000_S4x30_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v90 : (⟨S4x30, .f32⟩ : BufTy).Contents (Elt F) :=
  addf (val_main_v88 (F := F) x1 x4 x6) (val_main_v89 (F := F) x2 x5 x6)

theorem val_main_v90_apply (i : S4x30.Idx) :
    val_main_v90 (F := F) x1 x2 x4 x5 x6 i = FloatOps.addf (val_main_v88 (F := F) x1 x4 x6 i) (val_main_v89 (F := F) x2 x5 x6 i) := rfl

def val_main_cst_31 : (⟨S_, .f32⟩ : BufTy).Contents (Elt F) :=
  constant S_ .f32 0x3F800000#32

theorem val_main_cst_31_apply (i : S_.Idx) :
    val_main_cst_31 (F := F) i = FloatOps.ofBits .f32 0x3F800000#32 := rfl

def val_main_v91 : (⟨S4x30, .f32⟩ : BufTy).Contents (Elt F) :=
  broadcastInDim S4x30 ![] bcast_S_S4x30 (val_main_cst_31 (F := F))

abbrev idx_main_v91 (i : S4x30.Idx) : S_.Idx := fun a => a.elim0

theorem val_main_v91_apply (i : S4x30.Idx) :
    val_main_v91 (F := F) i = val_main_cst_31 (F := F) (idx_main_v91 i) := by
  unfold val_main_v91
  generalize val_main_cst_31 (F := F) = y
  exact broadcastInDim_apply _ bcast_S_S4x30 y i (idx_main_v91 i) (fun a => a.elim0)

def val_main_v92 : (⟨S4x30, .f32⟩ : BufTy).Contents (Elt F) :=
  addf (val_main_v87 (F := F) x1 x2 x4 x5 x6) (val_main_v91 (F := F))

theorem val_main_v92_apply (i : S4x30.Idx) :
    val_main_v92 (F := F) x1 x2 x4 x5 x6 i = FloatOps.addf (val_main_v87 (F := F) x1 x2 x4 x5 x6 i) (val_main_v91 (F := F) i) := rfl

def val_main_cst_32 : (⟨S_, .f32⟩ : BufTy).Contents (Elt F) :=
  constant S_ .f32 0x3F800000#32

theorem val_main_cst_32_apply (i : S_.Idx) :
    val_main_cst_32 (F := F) i = FloatOps.ofBits .f32 0x3F800000#32 := rfl

def val_main_v93 : (⟨S4x30, .f32⟩ : BufTy).Contents (Elt F) :=
  broadcastInDim S4x30 ![] bcast_S_S4x30 (val_main_cst_32 (F := F))

abbrev idx_main_v93 (i : S4x30.Idx) : S_.Idx := fun a => a.elim0

theorem val_main_v93_apply (i : S4x30.Idx) :
    val_main_v93 (F := F) i = val_main_cst_32 (F := F) (idx_main_v93 i) := by
  unfold val_main_v93
  generalize val_main_cst_32 (F := F) = y
  exact broadcastInDim_apply _ bcast_S_S4x30 y i (idx_main_v93 i) (fun a => a.elim0)

def val_main_v94 : (⟨S4x30, .f32⟩ : BufTy).Contents (Elt F) :=
  addf (val_main_v90 (F := F) x1 x2 x4 x5 x6) (val_main_v93 (F := F))

theorem val_main_v94_apply (i : S4x30.Idx) :
    val_main_v94 (F := F) x1 x2 x4 x5 x6 i = FloatOps.addf (val_main_v90 (F := F) x1 x2 x4 x5 x6 i) (val_main_v93 (F := F) i) := rfl

def val_main_v95 : (⟨S4x30, .f32⟩ : BufTy).Contents (Elt F) :=
  Host.divf (val_main_v92 (F := F) x1 x2 x4 x5 x6) (val_main_v94 (F := F) x1 x2 x4 x5 x6)

theorem val_main_v95_apply (i : S4x30.Idx) :
    val_main_v95 (F := F) x1 x2 x4 x5 x6 i = FloatOps.hostDivf (val_main_v92 (F := F) x1 x2 x4 x5 x6 i) (val_main_v94 (F := F) x1 x2 x4 x5 x6 i) := rfl

def val_main_cst_33 : (⟨S_, .f32⟩ : BufTy).Contents (Elt F) :=
  constant S_ .f32 0x3F800000#32

theorem val_main_cst_33_apply (i : S_.Idx) :
    val_main_cst_33 (F := F) i = FloatOps.ofBits .f32 0x3F800000#32 := rfl

def val_main_v96 : (⟨S4x30, .f32⟩ : BufTy).Contents (Elt F) :=
  broadcastInDim S4x30 ![] bcast_S_S4x30 (val_main_cst_33 (F := F))

abbrev idx_main_v96 (i : S4x30.Idx) : S_.Idx := fun a => a.elim0

theorem val_main_v96_apply (i : S4x30.Idx) :
    val_main_v96 (F := F) i = val_main_cst_33 (F := F) (idx_main_v96 i) := by
  unfold val_main_v96
  generalize val_main_cst_33 (F := F) = y
  exact broadcastInDim_apply _ bcast_S_S4x30 y i (idx_main_v96 i) (fun a => a.elim0)

def val_main_v97 : (⟨S4x30, .f32⟩ : BufTy).Contents (Elt F) :=
  subf (val_main_v96 (F := F)) (val_main_v95 (F := F) x1 x2 x4 x5 x6)

theorem val_main_v97_apply (i : S4x30.Idx) :
    val_main_v97 (F := F) x1 x2 x4 x5 x6 i = FloatOps.subf (val_main_v96 (F := F) i) (val_main_v95 (F := F) x1 x2 x4 x5 x6 i) := rfl

def val_main_cst_34 : (⟨S_, .f32⟩ : BufTy).Contents (Elt F) :=
  constant S_ .f32 0x00000000#32

theorem val_main_cst_34_apply (i : S_.Idx) :
    val_main_cst_34 (F := F) i = FloatOps.ofBits .f32 0x00000000#32 := rfl

def val_main_v98 : (⟨S_, .f32⟩ : BufTy).Contents (Elt F) :=
  Host.reduceAdd (val_main_v97 (F := F) x1 x2 x4 x5 x6) (val_main_cst_34 (F := F)) reducesTo_S4x30_S_d0_1 h_S_

theorem val_main_v98_apply (x1 : (⟨S4x80000x100, .f32⟩ : BufTy).Contents (Elt Ideal)) (x2 : (⟨S4x30x80000, .f32⟩ : BufTy).Contents (Elt Ideal)) (x4 x5 : (⟨S4x30, .i32⟩ : BufTy).Contents (Elt Ideal)) (x6 : (⟨S4x45000, .i32⟩ : BufTy).Contents (Elt Ideal)) (i : S_.Idx) :
    val_main_v98 (F := Ideal) x1 x2 x4 x5 x6 i = (val_main_cst_34 (F := Ideal)) (Shape.Idx.first h_S_) + ∑ j : S4x30.Idx, (val_main_v97 (F := Ideal) x1 x2 x4 x5 x6) j := by
  unfold val_main_v98
  generalize val_main_v97 (F := Ideal) x1 x2 x4 x5 x6 = y0
  simp only [Host.reduceAdd, Ideal.hostReduceAdd_def]
  exact Ideal.hostReduceAdd_total reducesTo_S4x30_S_d0_1 (fun b => b.elim0) y0 _ i

def val_main_cst_35 : (⟨S_, .f32⟩ : BufTy).Contents (Elt F) :=
  constant S_ .f32 0x42F00000#32

theorem val_main_cst_35_apply (i : S_.Idx) :
    val_main_cst_35 (F := F) i = FloatOps.ofBits .f32 0x42F00000#32 := rfl

def val_main_v99 : (⟨S_, .f32⟩ : BufTy).Contents (Elt F) :=
  Host.divf (val_main_v98 (F := F) x1 x2 x4 x5 x6) (val_main_cst_35 (F := F))

theorem val_main_v99_apply (i : S_.Idx) :
    val_main_v99 (F := F) x1 x2 x4 x5 x6 i = FloatOps.hostDivf (val_main_v98 (F := F) x1 x2 x4 x5 x6 i) (val_main_cst_35 (F := F) i) := rfl

def val_main_cst_36 : (⟨S_, .f32⟩ : BufTy).Contents (Elt F) :=
  constant S_ .f32 0x40000000#32

theorem val_main_cst_36_apply (i : S_.Idx) :
    val_main_cst_36 (F := F) i = FloatOps.ofBits .f32 0x40000000#32 := rfl

def val_main_v100 : (⟨S_, .f32⟩ : BufTy).Contents (Elt F) :=
  mulf (val_main_cst_36 (F := F)) (val_main_v44 (F := F) x0 x3 x4 x5)

theorem val_main_v100_apply (i : S_.Idx) :
    val_main_v100 (F := F) x0 x3 x4 x5 i = FloatOps.mulf (val_main_cst_36 (F := F) i) (val_main_v44 (F := F) x0 x3 x4 x5 i) := rfl

def val_main_cst_37 : (⟨S_, .f32⟩ : BufTy).Contents (Elt F) :=
  constant S_ .f32 0x40A00000#32

theorem val_main_cst_37_apply (i : S_.Idx) :
    val_main_cst_37 (F := F) i = FloatOps.ofBits .f32 0x40A00000#32 := rfl

def val_main_v101 : (⟨S_, .f32⟩ : BufTy).Contents (Elt F) :=
  mulf (val_main_cst_37 (F := F)) (val_main_v99 (F := F) x1 x2 x4 x5 x6)

theorem val_main_v101_apply (i : S_.Idx) :
    val_main_v101 (F := F) x1 x2 x4 x5 x6 i = FloatOps.mulf (val_main_cst_37 (F := F) i) (val_main_v99 (F := F) x1 x2 x4 x5 x6 i) := rfl

def val_main_cst_38 : (⟨S_, .f32⟩ : BufTy).Contents (Elt F) :=
  constant S_ .f32 0x40A00000#32

theorem val_main_cst_38_apply (i : S_.Idx) :
    val_main_cst_38 (F := F) i = FloatOps.ofBits .f32 0x40A00000#32 := rfl

def val_main_v102 : (⟨S_, .f32⟩ : BufTy).Contents (Elt F) :=
  mulf (val_main_cst_38 (F := F)) (val_main_v76 (F := F) x1 x2 x4 x5 x6)

theorem val_main_v102_apply (i : S_.Idx) :
    val_main_v102 (F := F) x1 x2 x4 x5 x6 i = FloatOps.mulf (val_main_cst_38 (F := F) i) (val_main_v76 (F := F) x1 x2 x4 x5 x6 i) := rfl

def val_main_v103 : (⟨S1, .f32⟩ : BufTy).Contents (Elt F) :=
  broadcastInDim S1 ![] bcast_S_S1 (val_main_v100 (F := F) x0 x3 x4 x5)

abbrev idx_main_v103 (i : S1.Idx) : S_.Idx := fun a => a.elim0

theorem val_main_v103_apply (i : S1.Idx) :
    val_main_v103 (F := F) x0 x3 x4 x5 i = val_main_v100 (F := F) x0 x3 x4 x5 (idx_main_v103 i) := by
  unfold val_main_v103
  generalize val_main_v100 (F := F) x0 x3 x4 x5 = y
  exact broadcastInDim_apply _ bcast_S_S1 y i (idx_main_v103 i) (fun a => a.elim0)

def val_main_v104 : (⟨S1, .f32⟩ : BufTy).Contents (Elt F) :=
  broadcastInDim S1 ![] bcast_S_S1 (val_main_v101 (F := F) x1 x2 x4 x5 x6)

abbrev idx_main_v104 (i : S1.Idx) : S_.Idx := fun a => a.elim0

theorem val_main_v104_apply (i : S1.Idx) :
    val_main_v104 (F := F) x1 x2 x4 x5 x6 i = val_main_v101 (F := F) x1 x2 x4 x5 x6 (idx_main_v104 i) := by
  unfold val_main_v104
  generalize val_main_v101 (F := F) x1 x2 x4 x5 x6 = y
  exact broadcastInDim_apply _ bcast_S_S1 y i (idx_main_v104 i) (fun a => a.elim0)

def val_main_v105 : (⟨S1, .f32⟩ : BufTy).Contents (Elt F) :=
  broadcastInDim S1 ![] bcast_S_S1 (val_main_v102 (F := F) x1 x2 x4 x5 x6)

abbrev idx_main_v105 (i : S1.Idx) : S_.Idx := fun a => a.elim0

theorem val_main_v105_apply (i : S1.Idx) :
    val_main_v105 (F := F) x1 x2 x4 x5 x6 i = val_main_v102 (F := F) x1 x2 x4 x5 x6 (idx_main_v105 i) := by
  unfold val_main_v105
  generalize val_main_v102 (F := F) x1 x2 x4 x5 x6 = y
  exact broadcastInDim_apply _ bcast_S_S1 y i (idx_main_v105 i) (fun a => a.elim0)

def val_main_v106 : (⟨S3, .f32⟩ : BufTy).Contents (Elt F) :=
  concatenate S3 0 [⟨S1, (val_main_v103 (F := F) x0 x3 x4 x5)⟩, ⟨S1, (val_main_v104 (F := F) x1 x2 x4 x5 x6)⟩, ⟨S1, (val_main_v105 (F := F) x1 x2 x4 x5 x6)⟩] concatenates_S1_S1_S1_S3_d0

end Cert.ReferenceIdeal.Read

end
-- ==== Proof.RefRunP.lean ====
import proofs.«422094_j90494960927125_3_alg».proof.Proof.Gen.ReferenceIdeal
import Idealize.ShloMosaic.Lib.StableHlo.Run
import Idealize.ShloMosaic.Lib.Pipeline.Frame
import proofs.«422094_j90494960927125_3_alg».proof.Proof.RefReadP

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev opsInit : List (HloOp τ sig (Elt F)) :=
  [ nullary main_cst (constant S_ .f32 0x3F800000#32),
    unary main_cst main_v0 (broadcastInDim S21 ![] bcast_S_S21 : (⟨S_, .f32⟩ : BufTy).Contents (Elt F) → (⟨S21, .f32⟩ : BufTy).Contents (Elt F)),
    nullary main_c (constantI S_ 32 0#32),
    unary main_c main_v1 (broadcastInDim S1 ![] bcast_S_S1 : (⟨S_, .i32⟩ : BufTy).Contents (Elt F) → (⟨S1, .i32⟩ : BufTy).Contents (Elt F)),
    nullary main_cst_0 (constant S_ .f32 0x00000000#32),
    ternary main_v0 main_v1 main_cst_0 main_v2 ((fun x i u => Host.scatter scatter_S21_S1_S__n_0_0_0 (fun _ b => b) x i u) : (⟨S21, .f32⟩ : BufTy).Contents (Elt F) → (⟨S1, .i32⟩ : BufTy).Contents (Elt F) → (⟨S_, .f32⟩ : BufTy).Contents (Elt F) → (⟨S21, .f32⟩ : BufTy).Contents (Elt F)),
    nullary main_c_1 (constantI S_ 32 20#32),
    unary main_c_1 main_v3 (broadcastInDim S1 ![] bcast_S_S1 : (⟨S_, .i32⟩ : BufTy).Contents (Elt F) → (⟨S1, .i32⟩ : BufTy).Contents (Elt F)),
    nullary main_cst_2 (constant S_ .f32 0x3DCCCCCD#32),
    ternary main_v2 main_v3 main_cst_2 main_v4 ((fun x i u => Host.scatter scatter_S21_S1_S__n_0_0_0 (fun _ b => b) x i u) : (⟨S21, .f32⟩ : BufTy).Contents (Elt F) → (⟨S1, .i32⟩ : BufTy).Contents (Elt F) → (⟨S_, .f32⟩ : BufTy).Contents (Elt F) → (⟨S21, .f32⟩ : BufTy).Contents (Elt F)),
    nullary main_v5 (iotaInDim S4 32 0),
    unary main_v5 main_v6 (broadcastInDim S4x1 ![0] bcast_S4_S4x1_0 : (⟨S4, .i32⟩ : BufTy).Contents (Elt F) → (⟨S4x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4x30, .i32⟩) main_call0_v0) (broadcastInDim S4x30 ![] bcast_S_S4x30),
    TRef.binary (TRef.of (T := ⟨S4x30, .i32⟩) main_arg5) (TRef.of (T := ⟨S4x30, .i32⟩) main_call0_v0) (TRef.of (T := ⟨S4x30, .i1⟩) main_call0_v1) (cmpi .slt),
    TRef.nullary (TRef.of (T := ⟨S_, .i32⟩) main_call0_c_0) (constantI S_ 32 30#32),
    TRef.unary (TRef.of (T := ⟨S_, .i32⟩) main_call0_c_0) (TRef.of (T := ⟨S4x30, .i32⟩) main_call0_v2) (broadcastInDim S4x30 ![] bcast_S_S4x30),
    TRef.binary (TRef.of (T := ⟨S4x30, .i32⟩) main_arg5) (TRef.of (T := ⟨S4x30, .i32⟩) main_call0_v2) (TRef.of (T := ⟨S4x30, .i32⟩) main_call0_v3) addi,
    TRef.ternary (TRef.of (T := ⟨S4x30, .i1⟩) main_call0_v1) (TRef.of (T := ⟨S4x30, .i32⟩) main_call0_v3) (TRef.of (T := ⟨S4x30, .i32⟩) main_arg5) (TRef.of (T := ⟨S4x30, .i32⟩) main_call0_v4) select,
    TRef.reshape (TRef.of (T := ⟨S4x30, .i32⟩) main_call0_v4) (TRef.of (T := ⟨S4x30x1, .i32⟩) main_call0_v5) rfl shapeCasts_S4x30_S4x30x1,
    TRef.nullary (TRef.of (T := ⟨S1, .i32⟩) main_call0_c_1) (constantI S1 32 29#32),
    TRef.nullary (TRef.of (T := ⟨S_, .i32⟩) main_call0_c_2) (constantI S_ 32 0#32),
    TRef.unary (TRef.of (T := ⟨S_, .i32⟩) main_call0_c_2) (TRef.of (T := ⟨S4x30x1, .i32⟩) main_call0_v6) (broadcastInDim S4x30x1 ![] bcast_S_S4x30x1),
    TRef.binary (TRef.of (T := ⟨S4x30x1, .i32⟩) main_call0_v5) (TRef.of (T := ⟨S4x30x1, .i32⟩) main_call0_v6) (TRef.of (T := ⟨S4x30x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S4x30x1, .i32⟩) main_call0_v9) (broadcastInDim S4x30x1 ![0, 1, 2] bcast_S1x1x1_S4x30x1_0_1_2),
    TRef.binary (TRef.of (T := ⟨S4x30x1, .i32⟩) main_call0_v5) (TRef.of (T := ⟨S4x30x1, .i32⟩) main_call0_v9) (TRef.of (T := ⟨S4x30x1, .i1⟩) main_call0_v10) (cmpi .sle),
    TRef.binary (TRef.of (T := ⟨S4x30x1, .i1⟩) main_call0_v7) (TRef.of (T := ⟨S4x30x1, .i1⟩) main_call0_v10) (TRef.of (T := ⟨S4x30x1, .i1⟩) main_call0_v11) andi,
    TRef.nullary (TRef.of (T := ⟨S_, .i1⟩) main_call0_c_3) (constantI S_ 1 1#1),
    TRef.binary (TRef.of (T := ⟨S4x30x1, .i1⟩) main_call0_v11) (TRef.of (T := ⟨S_, .i1⟩) main_call0_c_3) (TRef.of (T := ⟨S4x30, .i1⟩) main_call0_v12) (fun x v => Host.reduce IntOp.andi x v reducesTo_S4x30x1_S4x30_d2 h_S_),
    TRef.binary (TRef.of (T := ⟨S4x30, .i32⟩) main_arg3) (TRef.of (T := ⟨S4x30x1, .i32⟩) main_call0_v5) (TRef.of (T := ⟨S4x30, .i32⟩) main_call0_v13) (fun x i => Host.gather gather_S4x30_S4x30x1_S4x30_n_1_0_0_1_2_11 x i),
    TRef.nullary (TRef.of (T := ⟨S_, .i32⟩) main_call0_c_4) (constantI S_ 32 2147483648#32),
    TRef.unary (TRef.of (T := ⟨S_, .i32⟩) main_call0_c_4) (TRef.of (T := ⟨S4x30, .i32⟩) main_call0_v14) (broadcastInDim S4x30 ![] bcast_S_S4x30),
    TRef.ternary (TRef.of (T := ⟨S4x30, .i1⟩) main_call0_v12) (TRef.of (T := ⟨S4x30, .i32⟩) main_call0_v13) (TRef.of (T := ⟨S4x30, .i32⟩) main_call0_v14) (TRef.of (T := ⟨S4x30, .i32⟩) main_v7) select,
    nullary main_c_3 (constantI S_ 32 20#32),
    unary main_c_3 main_v8 (broadcastInDim S4x100 ![] bcast_S_S4x100 : (⟨S_, .i32⟩ : BufTy).Contents (Elt F) → (⟨S4x100, .i32⟩ : BufTy).Contents (Elt F)),
    nullary main_c_4 (constantI S_ 32 0#32),
    unary main_c_4 main_v9 (broadcastInDim S4x1 ![] bcast_S_S4x1 : (⟨S_, .i32⟩ : BufTy).Contents (Elt F) → (⟨S4x1, .i32⟩ : BufTy).Contents (Elt F)),
    binary main_v6 main_v9 main_v10 (cmpi .slt : (⟨S4x1, .i32⟩ : BufTy).Contents (Elt F) → (⟨S4x1, .i32⟩ : BufTy).Contents (Elt F) → (⟨S4x1, .i1⟩ : BufTy).Contents (Elt F)),
    nullary main_c_5 (constantI S_ 32 4#32),
    unary main_c_5 main_v11 (broadcastInDim S4x1 ![] bcast_S_S4x1 : (⟨S_, .i32⟩ : BufTy).Contents (Elt F) → (⟨S4x1, .i32⟩ : BufTy).Contents (Elt F)),
    binary main_v6 main_v11 main_v12 (addi : (⟨S4x1, .i32⟩ : BufTy).Contents (Elt F) → (⟨S4x1, .i32⟩ : BufTy).Contents (Elt F) → (⟨S4x1, .i32⟩ : BufTy).Contents (Elt F)),
    ternary main_v10 main_v12 main_v6 main_v13 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_6 (constantI S_ 32 0#32),
    unary main_c_6 main_v14 (broadcastInDim S4x30 ![] bcast_S_S4x30 : (⟨S_, .i32⟩ : BufTy).Contents (Elt F) → (⟨S4x30, .i32⟩ : BufTy).Contents (Elt F)),
    binary main_arg4 main_v14 main_v15 (cmpi .slt : (⟨S4x30, .i32⟩ : BufTy).Contents (Elt F) → (⟨S4x30, .i32⟩ : BufTy).Contents (Elt F) → (⟨S4x30, .i1⟩ : BufTy).Contents (Elt F)),
    nullary main_c_7 (constantI S_ 32 100#32),
    unary main_c_7 main_v16 (broadcastInDim S4x30 ![] bcast_S_S4x30 : (⟨S_, .i32⟩ : BufTy).Contents (Elt F) → (⟨S4x30, .i32⟩ : BufTy).Contents (Elt F)),
    binary main_arg4 main_v16 main_v17 (addi : (⟨S4x30, .i32⟩ : BufTy).Contents (Elt F) → (⟨S4x30, .i32⟩ : BufTy).Contents (Elt F) → (⟨S4x30, .i32⟩ : BufTy).Contents (Elt F)),
    ternary main_v15 main_v17 main_arg4 main_v18 (select : (⟨S4x30, .i1⟩ : BufTy).Contents (Elt F) → (⟨S4x30, .i32⟩ : BufTy).Contents (Elt F) → (⟨S4x30, .i32⟩ : BufTy).Contents (Elt F) → (⟨S4x30, .i32⟩ : BufTy).Contents (Elt F)),
    unary main_v13 main_v19 (broadcastInDim S4x30 ![0, 1] bcast_S4x1_S4x30_0_1 : (⟨S4x1, .i32⟩ : BufTy).Contents (Elt F) → (⟨S4x30, .i32⟩ : BufTy).Contents (Elt F)),
    unary main_v19 main_v20 (broadcastInDim S4x30x1 ![0, 1] bcast_S4x30_S4x30x1_0_1 : (⟨S4x30, .i32⟩ : BufTy).Contents (Elt F) → (⟨S4x30x1, .i32⟩ : BufTy).Contents (Elt F)),
    unary main_v18 main_v21 (broadcastInDim S4x30x1 ![0, 1] bcast_S4x30_S4x30x1_0_1 : (⟨S4x30, .i32⟩ : BufTy).Contents (Elt F) → (⟨S4x30x1, .i32⟩ : BufTy).Contents (Elt F)),
    binary main_v20 main_v21 main_v22 ((fun a b => concatenate S4x30x2 2 [⟨S4x30x1, a⟩, ⟨S4x30x1, b⟩] concatenates_S4x30x1_S4x30x1_S4x30x2_d2) : (⟨S4x30x1, .i32⟩ : BufTy).Contents (Elt F) → (⟨S4x30x1, .i32⟩ : BufTy).Contents (Elt F) → (⟨S4x30x2, .i32⟩ : BufTy).Contents (Elt F)),
    ternary main_v8 main_v22 main_v7 main_v23 ((fun x i u => Host.scatter scatter_S4x100_S4x30x2_S4x30_n_01_01_2 (fun _ b => b) x i u) : (⟨S4x100, .i32⟩ : BufTy).Contents (Elt F) → (⟨S4x30x2, .i32⟩ : BufTy).Contents (Elt F) → (⟨S4x30, .i32⟩ : BufTy).Contents (Elt F) → (⟨S4x100, .i32⟩ : BufTy).Contents (Elt F)),
    TRef.nullary (TRef.of (T := ⟨S_, .f32⟩) main_call1_cst) (constant S_ .f32 0xFF800000#32),
    TRef.binary (TRef.of (T := ⟨S4x100x21, .f32⟩) main_arg0) (TRef.of (T := ⟨S_, .f32⟩) main_call1_cst) (TRef.of (T := ⟨S4x100, .f32⟩) main_call1_v0) (fun x v => Host.reduce FloatOps.maximumf x v reducesTo_S4x100x21_S4x100_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S4x100, .f32⟩) main_call1_v1) (broadcastInDim S4x100 ![] bcast_S_S4x100),
    TRef.binary (TRef.of (T := ⟨S4x100, .f32⟩) main_call1_v1) (TRef.of (T := ⟨S4x100, .f32⟩) main_call1_v0) (TRef.of (T := ⟨S4x100, .f32⟩) main_call1_v2) maximumf,
    TRef.unary (TRef.of (T := ⟨S4x100, .f32⟩) main_call1_v2) (TRef.of (T := ⟨S4x100x1, .f32⟩) main_call1_v3) (broadcastInDim S4x100x1 ![0, 1] bcast_S4x100_S4x100x1_0_1),
    TRef.unary (TRef.of (T := ⟨S4x100x1, .f32⟩) main_call1_v3) (TRef.of (T := ⟨S4x100x21, .f32⟩) main_call1_v4) (broadcastInDim S4x100x21 ![0, 1, 2] bcast_S4x100x1_S4x100x21_0_1_2),
    TRef.binary (TRef.of (T := ⟨S4x100x21, .f32⟩) main_arg0) (TRef.of (T := ⟨S4x100x21, .f32⟩) main_call1_v4) (TRef.of (T := ⟨S4x100x21, .f32⟩) main_call1_v5) subf,
    TRef.unary (TRef.of (T := ⟨S4x100x21, .f32⟩) main_call1_v5) (TRef.of (T := ⟨S4x100x21, .f32⟩) main_call1_v6) Host.exp,
    TRef.nullary (TRef.of (T := ⟨S_, .f32⟩) main_call1_cst_1) (constant S_ .f32 0x00000000#32),
    TRef.binary (TRef.of (T := ⟨S4x100x21, .f32⟩) main_call1_v6) (TRef.of (T := ⟨S_, .f32⟩) main_call1_cst_1) (TRef.of (T := ⟨S4x100, .f32⟩) main_call1_v7) (fun x v => Host.reduceAdd x v reducesTo_S4x100x21_S4x100_d2 h_S_),
    TRef.unary (TRef.of (T := ⟨S4x100, .f32⟩) main_call1_v7) (TRef.of (T := ⟨S4x100x1, .f32⟩) main_call1_v8) (broadcastInDim S4x100x1 ![0, 1] bcast_S4x100_S4x100x1_0_1),
    TRef.unary (TRef.of (T := ⟨S4x100x1, .f32⟩) main_call1_v8) (TRef.of (T := ⟨S4x100x1, .f32⟩) main_call1_v9) Host.log,
    TRef.unary (TRef.of (T := ⟨S4x100x1, .f32⟩) main_call1_v9) (TRef.of (T := ⟨S4x100x21, .f32⟩) main_call1_v10) (broadcastInDim S4x100x21 ![0, 1, 2] bcast_S4x100x1_S4x100x21_0_1_2),
    TRef.binary (TRef.of (T := ⟨S4x100x21, .f32⟩) main_call1_v5) (TRef.of (T := ⟨S4x100x21, .f32⟩) main_call1_v10) (TRef.of (T := ⟨S4x100x21, .f32⟩) main_v24) subf,
    unary main_v23 main_v25 (broadcastInDim S4x100x1 ![0, 1] bcast_S4x100_S4x100x1_0_1 : (⟨S4x100, .i32⟩ : BufTy).Contents (Elt F) → (⟨S4x100x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4x100x1, .i32⟩) main_call2_v0) (broadcastInDim S4x100x1 ![] bcast_S_S4x100x1),
    TRef.binary (TRef.of (T := ⟨S4x100x1, .i32⟩) main_v25) (TRef.of (T := ⟨S4x100x1, .i32⟩) main_call2_v0) (TRef.of (T := ⟨S4x100x1, .i1⟩) main_call2_v1) (cmpi .slt),
    TRef.nullary (TRef.of (T := ⟨S_, .i32⟩) main_call2_c_0) (constantI S_ 32 21#32),
    TRef.unary (TRef.of (T := ⟨S_, .i32⟩) main_call2_c_0) (TRef.of (T := ⟨S4x100x1, .i32⟩) main_call2_v2) (broadcastInDim S4x100x1 ![] bcast_S_S4x100x1),
    TRef.binary (TRef.of (T := ⟨S4x100x1, .i32⟩) main_v25) (TRef.of (T := ⟨S4x100x1, .i32⟩) main_call2_v2) (TRef.of (T := ⟨S4x100x1, .i32⟩) main_call2_v3) addi,
    TRef.ternary (TRef.of (T := ⟨S4x100x1, .i1⟩) main_call2_v1) (TRef.of (T := ⟨S4x100x1, .i32⟩) main_call2_v3) (TRef.of (T := ⟨S4x100x1, .i32⟩) main_v25) (TRef.of (T := ⟨S4x100x1, .i32⟩) main_call2_v4) select,
    TRef.reshape (TRef.of (T := ⟨S4x100x1, .i32⟩) main_call2_v4) (TRef.of (T := ⟨S4x100x1x1, .i32⟩) main_call2_v5) rfl shapeCasts_S4x100x1_S4x100x1x1,
    TRef.nullary (TRef.of (T := ⟨S1, .i32⟩) main_call2_c_1) (constantI S1 32 20#32),
    TRef.nullary (TRef.of (T := ⟨S_, .i32⟩) main_call2_c_2) (constantI S_ 32 0#32),
    TRef.unary (TRef.of (T := ⟨S_, .i32⟩) main_call2_c_2) (TRef.of (T := ⟨S4x100x1x1, .i32⟩) main_call2_v6) (broadcastInDim S4x100x1x1 ![] bcast_S_S4x100x1x1),
    TRef.binary (TRef.of (T := ⟨S4x100x1x1, .i32⟩) main_call2_v5) (TRef.of (T := ⟨S4x100x1x1, .i32⟩) main_call2_v6) (TRef.of (T := ⟨S4x100x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S4x100x1x1, .i32⟩) main_call2_v9) (broadcastInDim S4x100x1x1 ![0, 1, 2, 3] bcast_S1x1x1x1_S4x100x1x1_0_1_2_3),
    TRef.binary (TRef.of (T := ⟨S4x100x1x1, .i32⟩) main_call2_v5) (TRef.of (T := ⟨S4x100x1x1, .i32⟩) main_call2_v9) (TRef.of (T := ⟨S4x100x1x1, .i1⟩) main_call2_v10) (cmpi .sle),
    TRef.binary (TRef.of (T := ⟨S4x100x1x1, .i1⟩) main_call2_v7) (TRef.of (T := ⟨S4x100x1x1, .i1⟩) main_call2_v10) (TRef.of (T := ⟨S4x100x1x1, .i1⟩) main_call2_v11) andi,
    TRef.nullary (TRef.of (T := ⟨S_, .i1⟩) main_call2_c_3) (constantI S_ 1 1#1),
    TRef.binary (TRef.of (T := ⟨S4x100x1x1, .i1⟩) main_call2_v11) (TRef.of (T := ⟨S_, .i1⟩) main_call2_c_3) (TRef.of (T := ⟨S4x100x1, .i1⟩) main_call2_v12) (fun x v => Host.reduce IntOp.andi x v reducesTo_S4x100x1x1_S4x100x1_d3 h_S_),
    TRef.binary (TRef.of (T := ⟨S4x100x21, .f32⟩) main_v24) (TRef.of (T := ⟨S4x100x1x1, .i32⟩) main_call2_v5) (TRef.of (T := ⟨S4x100x1, .f32⟩) main_call2_v13) (fun x i => Host.gather gather_S4x100x21_S4x100x1x1_S4x100x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S4x100x1, .f32⟩) main_call2_v14) (broadcastInDim S4x100x1 ![] bcast_S_S4x100x1),
    TRef.ternary (TRef.of (T := ⟨S4x100x1, .i1⟩) main_call2_v12) (TRef.of (T := ⟨S4x100x1, .f32⟩) main_call2_v13) (TRef.of (T := ⟨S4x100x1, .f32⟩) main_call2_v14) (TRef.of (T := ⟨S4x100x1, .f32⟩) main_v26) select,
    reshape main_v26 main_v27 rfl shapeCasts_S4x100x1_S4x100,
    unary main_v27 main_v28 (Host.negf : (⟨S4x100, .f32⟩ : BufTy).Contents (Elt F) → (⟨S4x100, .f32⟩ : BufTy).Contents (Elt F)),
    nullary main_c_8 (constantI S_ 32 0#32),
    unary main_c_8 main_v29 (broadcastInDim S4x100 ![] bcast_S_S4x100 : (⟨S_, .i32⟩ : BufTy).Contents (Elt F) → (⟨S4x100, .i32⟩ : BufTy).Contents (Elt F)),
    binary main_v23 main_v29 main_v30 (cmpi .slt : (⟨S4x100, .i32⟩ : BufTy).Contents (Elt F) → (⟨S4x100, .i32⟩ : BufTy).Contents (Elt F) → (⟨S4x100, .i1⟩ : BufTy).Contents (Elt F)),
    nullary main_c_9 (constantI S_ 32 21#32),
    unary main_c_9 main_v31 (broadcastInDim S4x100 ![] bcast_S_S4x100 : (⟨S_, .i32⟩ : BufTy).Contents (Elt F) → (⟨S4x100, .i32⟩ : BufTy).Contents (Elt F)),
    binary main_v23 main_v31 main_v32 (addi : (⟨S4x100, .i32⟩ : BufTy).Contents (Elt F) → (⟨S4x100, .i32⟩ : BufTy).Contents (Elt F) → (⟨S4x100, .i32⟩ : BufTy).Contents (Elt F)),
    ternary main_v30 main_v32 main_v23 main_v33 (select : (⟨S4x100, .i1⟩ : BufTy).Contents (Elt F) → (⟨S4x100, .i32⟩ : BufTy).Contents (Elt F) → (⟨S4x100, .i32⟩ : BufTy).Contents (Elt F) → (⟨S4x100, .i32⟩ : BufTy).Contents (Elt F)),
    unary main_v33 main_v34 (broadcastInDim S4x100x1 ![0, 1] bcast_S4x100_S4x100x1_0_1 : (⟨S4x100, .i32⟩ : BufTy).Contents (Elt F) → (⟨S4x100x1, .i32⟩ : BufTy).Contents (Elt F)),
    binary main_v4 main_v34 main_v35 ((fun x i => Host.gather gather_S21_S4x100x1_S4x100_n_0_n_n_0_2_1 x i) : (⟨S21, .f32⟩ : BufTy).Contents (Elt F) → (⟨S4x100x1, .i32⟩ : BufTy).Contents (Elt F) → (⟨S4x100, .f32⟩ : BufTy).Contents (Elt F)),
    nullary main_c_10 (constantI S_ 32 255#32),
    unary main_c_10 main_v36 (broadcastInDim S4x100 ![] bcast_S_S4x100 : (⟨S_, .i32⟩ : BufTy).Contents (Elt F) → (⟨S4x100, .i32⟩ : BufTy).Contents (Elt F)),
    binary main_v23 main_v36 main_v37 (cmpi .ne : (⟨S4x100, .i32⟩ : BufTy).Contents (Elt F) → (⟨S4x100, .i32⟩ : BufTy).Contents (Elt F) → (⟨S4x100, .i1⟩ : BufTy).Contents (Elt F)),
    unary main_v37 main_v38 (uitofp .f32 : (⟨S4x100, .i1⟩ : BufTy).Contents (Elt F) → (⟨S4x100, .f32⟩ : BufTy).Contents (Elt F)),
    binary main_v35 main_v38 main_v39 (mulf : (⟨S4x100, .f32⟩ : BufTy).Contents (Elt F) → (⟨S4x100, .f32⟩ : BufTy).Contents (Elt F) → (⟨S4x100, .f32⟩ : BufTy).Contents (Elt F)),
    binary main_v39 main_v28 main_v40 (mulf : (⟨S4x100, .f32⟩ : BufTy).Contents (Elt F) → (⟨S4x100, .f32⟩ : BufTy).Contents (Elt F) → (⟨S4x100, .f32⟩ : BufTy).Contents (Elt F)),
    nullary main_cst_11 (constant S_ .f32 0x00000000#32),
    binary main_v40 main_cst_11 main_v41 ((fun x v => Host.reduceAdd x v reducesTo_S4x100_S_d0_1 h_S_) : (⟨S4x100, .f32⟩ : BufTy).Contents (Elt F) → (⟨S_, .f32⟩ : BufTy).Contents (Elt F) → (⟨S_, .f32⟩ : BufTy).Contents (Elt F)),
    nullary main_cst_12 (constant S_ .f32 0x00000000#32),
    binary main_v39 main_cst_12 main_v42 ((fun x v => Host.reduceAdd x v reducesTo_S4x100_S_d0_1 h_S_) : (⟨S4x100, .f32⟩ : BufTy).Contents (Elt F) → (⟨S_, .f32⟩ : BufTy).Contents (Elt F) → (⟨S_, .f32⟩ : BufTy).Contents (Elt F)),
    nullary main_cst_13 (constant S_ .f32 0x322BCC77#32),
    binary main_v42 main_cst_13 main_v43 (maximumf : (⟨S_, .f32⟩ : BufTy).Contents (Elt F) → (⟨S_, .f32⟩ : BufTy).Contents (Elt F) → (⟨S_, .f32⟩ : BufTy).Contents (Elt F)),
    binary main_v41 main_v43 main_v44 (Host.divf : (⟨S_, .f32⟩ : BufTy).Contents (Elt F) → (⟨S_, .f32⟩ : BufTy).Contents (Elt F) → (⟨S_, .f32⟩ : BufTy).Contents (Elt F)),
    unary main_arg1 main_v45 ((transpose S4x100x80000 [0, 2, 1] · transposes_S4x80000x100_S4x100x80000_0_2_1) : (⟨S4x80000x100, .f32⟩ : BufTy).Contents (Elt F) → (⟨S4x100x80000, .f32⟩ : BufTy).Contents (Elt F)),
    unary main_arg4 main_v46 (broadcastInDim S4x30x1 ![0, 1] bcast_S4x30_S4x30x1_0_1 : (⟨S4x30, .i32⟩ : BufTy).Contents (Elt F) → (⟨S4x30x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S4x30x1, .i32⟩) main_call3_v0) (broadcastInDim S4x30x1 ![] bcast_S_S4x30x1),
    TRef.binary (TRef.of (T := ⟨S4x30x1, .i32⟩) main_v46) (TRef.of (T := ⟨S4x30x1, .i32⟩) main_call3_v0) (TRef.of (T := ⟨S4x30x1, .i1⟩) main_call3_v1) (cmpi .slt),
    TRef.nullary (TRef.of (T := ⟨S_, .i32⟩) main_call3_c_0) (constantI S_ 32 100#32),
    TRef.unary (TRef.of (T := ⟨S_, .i32⟩) main_call3_c_0) (TRef.of (T := ⟨S4x30x1, .i32⟩) main_call3_v2) (broadcastInDim S4x30x1 ![] bcast_S_S4x30x1),
    TRef.binary (TRef.of (T := ⟨S4x30x1, .i32⟩) main_v46) (TRef.of (T := ⟨S4x30x1, .i32⟩) main_call3_v2) (TRef.of (T := ⟨S4x30x1, .i32⟩) main_call3_v3) addi,
    TRef.ternary (TRef.of (T := ⟨S4x30x1, .i1⟩) main_call3_v1) (TRef.of (T := ⟨S4x30x1, .i32⟩) main_call3_v3) (TRef.of (T := ⟨S4x30x1, .i32⟩) main_v46) (TRef.of (T := ⟨S4x30x1, .i32⟩) main_call3_v4) select,
    TRef.nullary (TRef.of (T := ⟨S1, .i32⟩) main_call3_c_1) (constantI S1 32 99#32),
    TRef.nullary (TRef.of (T := ⟨S_, .i32⟩) main_call3_c_2) (constantI S_ 32 0#32),
    TRef.unary (TRef.of (T := ⟨S_, .i32⟩) main_call3_c_2) (TRef.of (T := ⟨S4x30x1, .i32⟩) main_call3_v5) (broadcastInDim S4x30x1 ![] bcast_S_S4x30x1),
    TRef.binary (TRef.of (T := ⟨S4x30x1, .i32⟩) main_call3_v4) (TRef.of (T := ⟨S4x30x1, .i32⟩) main_call3_v5) (TRef.of (T := ⟨S4x30x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S4x30x1, .i32⟩) main_call3_v8) (broadcastInDim S4x30x1 ![0, 1, 2] bcast_S1x1x1_S4x30x1_0_1_2),
    TRef.binary (TRef.of (T := ⟨S4x30x1, .i32⟩) main_call3_v4) (TRef.of (T := ⟨S4x30x1, .i32⟩) main_call3_v8) (TRef.of (T := ⟨S4x30x1, .i1⟩) main_call3_v9) (cmpi .sle),
    TRef.binary (TRef.of (T := ⟨S4x30x1, .i1⟩) main_call3_v6) (TRef.of (T := ⟨S4x30x1, .i1⟩) main_call3_v9) (TRef.of (T := ⟨S4x30x1, .i1⟩) main_call3_v10) andi,
    TRef.nullary (TRef.of (T := ⟨S_, .i1⟩) main_call3_c_3) (constantI S_ 1 1#1),
    TRef.binary (TRef.of (T := ⟨S4x30x1, .i1⟩) main_call3_v10) (TRef.of (T := ⟨S_, .i1⟩) main_call3_c_3) (TRef.of (T := ⟨S4x30, .i1⟩) main_call3_v11) (fun x v => Host.reduce IntOp.andi x v reducesTo_S4x30x1_S4x30_d2 h_S_),
    TRef.binary (TRef.of (T := ⟨S4x100x80000, .f32⟩) main_v45) (TRef.of (T := ⟨S4x30x1, .i32⟩) main_call3_v4) (TRef.of (T := ⟨S4x30x80000, .f32⟩) main_call3_v12) (fun x i => Host.gather gather_S4x100x80000_S4x30x1_S4x30x80000_2_1_0_0_1_2_1180000 x i),
    TRef.unary (TRef.of (T := ⟨S4x30, .i1⟩) main_call3_v11) (TRef.of (T := ⟨S4x30x80000, .i1⟩) main_call3_v13) (broadcastInDim S4x30x80000 ![0, 1] bcast_S4x30_S4x30x80000_0_1),
    TRef.nullary (TRef.of (T := ⟨S_, .f32⟩) main_call3_cst) (constant S_ .f32 0x7FC00000#32),
    TRef.unary (TRef.of (T := ⟨S_, .f32⟩) main_call3_cst) (TRef.of (T := ⟨S4x30x80000, .f32⟩) main_call3_v14) (broadcastInDim S4x30x80000 ![] bcast_S_S4x30x80000),
    TRef.ternary (TRef.of (T := ⟨S4x30x80000, .i1⟩) main_call3_v13) (TRef.of (T := ⟨S4x30x80000, .f32⟩) main_call3_v12) (TRef.of (T := ⟨S4x30x80000, .f32⟩) main_call3_v14) (TRef.of (T := ⟨S4x30x80000, .f32⟩) main_v47) select,
    unary main_arg5 main_v48 (broadcastInDim S4x30x1 ![0, 1] bcast_S4x30_S4x30x1_0_1 : (⟨S4x30, .i32⟩ : BufTy).Contents (Elt F) → (⟨S4x30x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S4x30x1, .i32⟩) main_call4_v0) (broadcastInDim S4x30x1 ![] bcast_S_S4x30x1),
    TRef.binary (TRef.of (T := ⟨S4x30x1, .i32⟩) main_v48) (TRef.of (T := ⟨S4x30x1, .i32⟩) main_call4_v0) (TRef.of (T := ⟨S4x30x1, .i1⟩) main_call4_v1) (cmpi .slt),
    TRef.nullary (TRef.of (T := ⟨S_, .i32⟩) main_call4_c_0) (constantI S_ 32 30#32),
    TRef.unary (TRef.of (T := ⟨S_, .i32⟩) main_call4_c_0) (TRef.of (T := ⟨S4x30x1, .i32⟩) main_call4_v2) (broadcastInDim S4x30x1 ![] bcast_S_S4x30x1),
    TRef.binary (TRef.of (T := ⟨S4x30x1, .i32⟩) main_v48) (TRef.of (T := ⟨S4x30x1, .i32⟩) main_call4_v2) (TRef.of (T := ⟨S4x30x1, .i32⟩) main_call4_v3) addi,
    TRef.ternary (TRef.of (T := ⟨S4x30x1, .i1⟩) main_call4_v1) (TRef.of (T := ⟨S4x30x1, .i32⟩) main_call4_v3) (TRef.of (T := ⟨S4x30x1, .i32⟩) main_v48) (TRef.of (T := ⟨S4x30x1, .i32⟩) main_call4_v4) select,
    TRef.nullary (TRef.of (T := ⟨S1, .i32⟩) main_call4_c_1) (constantI S1 32 29#32),
    TRef.nullary (TRef.of (T := ⟨S_, .i32⟩) main_call4_c_2) (constantI S_ 32 0#32),
    TRef.unary (TRef.of (T := ⟨S_, .i32⟩) main_call4_c_2) (TRef.of (T := ⟨S4x30x1, .i32⟩) main_call4_v5) (broadcastInDim S4x30x1 ![] bcast_S_S4x30x1),
    TRef.binary (TRef.of (T := ⟨S4x30x1, .i32⟩) main_call4_v4) (TRef.of (T := ⟨S4x30x1, .i32⟩) main_call4_v5) (TRef.of (T := ⟨S4x30x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S4x30x1, .i32⟩) main_call4_v8) (broadcastInDim S4x30x1 ![0, 1, 2] bcast_S1x1x1_S4x30x1_0_1_2),
    TRef.binary (TRef.of (T := ⟨S4x30x1, .i32⟩) main_call4_v4) (TRef.of (T := ⟨S4x30x1, .i32⟩) main_call4_v8) (TRef.of (T := ⟨S4x30x1, .i1⟩) main_call4_v9) (cmpi .sle),
    TRef.binary (TRef.of (T := ⟨S4x30x1, .i1⟩) main_call4_v6) (TRef.of (T := ⟨S4x30x1, .i1⟩) main_call4_v9) (TRef.of (T := ⟨S4x30x1, .i1⟩) main_call4_v10) andi,
    TRef.nullary (TRef.of (T := ⟨S_, .i1⟩) main_call4_c_3) (constantI S_ 1 1#1),
    TRef.binary (TRef.of (T := ⟨S4x30x1, .i1⟩) main_call4_v10) (TRef.of (T := ⟨S_, .i1⟩) main_call4_c_3) (TRef.of (T := ⟨S4x30, .i1⟩) main_call4_v11) (fun x v => Host.reduce IntOp.andi x v reducesTo_S4x30x1_S4x30_d2 h_S_),
    TRef.binary (TRef.of (T := ⟨S4x30x80000, .f32⟩) main_arg2) (TRef.of (T := ⟨S4x30x1, .i32⟩) main_call4_v4) (TRef.of (T := ⟨S4x30x80000, .f32⟩) main_call4_v12) (fun x i => Host.gather gather_S4x30x80000_S4x30x1_S4x30x80000_2_1_0_0_1_2_1180000 x i),
    TRef.unary (TRef.of (T := ⟨S4x30, .i1⟩) main_call4_v11) (TRef.of (T := ⟨S4x30x80000, .i1⟩) main_call4_v13) (broadcastInDim S4x30x80000 ![0, 1] bcast_S4x30_S4x30x80000_0_1),
    TRef.nullary (TRef.of (T := ⟨S_, .f32⟩) main_call4_cst) (constant S_ .f32 0x7FC00000#32),
    TRef.unary (TRef.of (T := ⟨S_, .f32⟩) main_call4_cst) (TRef.of (T := ⟨S4x30x80000, .f32⟩) main_call4_v14) (broadcastInDim S4x30x80000 ![] bcast_S_S4x30x80000),
    TRef.ternary (TRef.of (T := ⟨S4x30x80000, .i1⟩) main_call4_v13) (TRef.of (T := ⟨S4x30x80000, .f32⟩) main_call4_v12) (TRef.of (T := ⟨S4x30x80000, .f32⟩) main_call4_v14) (TRef.of (T := ⟨S4x30x80000, .f32⟩) main_v49) select,
    nullary main_c_14 (constantI S_ 32 0#32),
    unary main_c_14 main_v50 (broadcastInDim S4x45000 ![] bcast_S_S4x45000 : (⟨S_, .i32⟩ : BufTy).Contents (Elt F) → (⟨S4x45000, .i32⟩ : BufTy).Contents (Elt F)),
    binary main_arg6 main_v50 main_v51 (cmpi .slt : (⟨S4x45000, .i32⟩ : BufTy).Contents (Elt F) → (⟨S4x45000, .i32⟩ : BufTy).Contents (Elt F) → (⟨S4x45000, .i1⟩ : BufTy).Contents (Elt F)),
    nullary main_c_15 (constantI S_ 32 80000#32),
    unary main_c_15 main_v52 (broadcastInDim S4x45000 ![] bcast_S_S4x45000 : (⟨S_, .i32⟩ : BufTy).Contents (Elt F) → (⟨S4x45000, .i32⟩ : BufTy).Contents (Elt F)),
    binary main_arg6 main_v52 main_v53 (addi : (⟨S4x45000, .i32⟩ : BufTy).Contents (Elt F) → (⟨S4x45000, .i32⟩ : BufTy).Contents (Elt F) → (⟨S4x45000, .i32⟩ : BufTy).Contents (Elt F)),
    ternary main_v51 main_v53 main_arg6 main_v54 (select : (⟨S4x45000, .i1⟩ : BufTy).Contents (Elt F) → (⟨S4x45000, .i32⟩ : BufTy).Contents (Elt F) → (⟨S4x45000, .i32⟩ : BufTy).Contents (Elt F) → (⟨S4x45000, .i32⟩ : BufTy).Contents (Elt F)),
    unary main_v54 main_v55 (broadcastInDim S4x45000x1 ![0, 1] bcast_S4x45000_S4x45000x1_0_1 : (⟨S4x45000, .i32⟩ : BufTy).Contents (Elt F) → (⟨S4x45000x1, .i32⟩ : BufTy).Contents (Elt F)),
    binary main_v47 main_v55 main_v56 ((fun x i => Host.gather gather_S4x30x80000_S4x45000x1_S4x30x45000_1_2_0_0_2_2_1301 x i) : (⟨S4x30x80000, .f32⟩ : BufTy).Contents (Elt F) → (⟨S4x45000x1, .i32⟩ : BufTy).Contents (Elt F) → (⟨S4x30x45000, .f32⟩ : BufTy).Contents (Elt F)),
    nullary main_c_16 (constantI S_ 32 0#32),
    unary main_c_16 main_v57 (broadcastInDim S4x45000 ![] bcast_S_S4x45000 : (⟨S_, .i32⟩ : BufTy).Contents (Elt F) → (⟨S4x45000, .i32⟩ : BufTy).Contents (Elt F)),
    binary main_arg6 main_v57 main_v58 (cmpi .slt : (⟨S4x45000, .i32⟩ : BufTy).Contents (Elt F) → (⟨S4x45000, .i32⟩ : BufTy).Contents (Elt F) → (⟨S4x45000, .i1⟩ : BufTy).Contents (Elt F)),
    nullary main_c_17 (constantI S_ 32 80000#32),
    unary main_c_17 main_v59 (broadcastInDim S4x45000 ![] bcast_S_S4x45000 : (⟨S_, .i32⟩ : BufTy).Contents (Elt F) → (⟨S4x45000, .i32⟩ : BufTy).Contents (Elt F)),
    binary main_arg6 main_v59 main_v60 (addi : (⟨S4x45000, .i32⟩ : BufTy).Contents (Elt F) → (⟨S4x45000, .i32⟩ : BufTy).Contents (Elt F) → (⟨S4x45000, .i32⟩ : BufTy).Contents (Elt F)),
    ternary main_v58 main_v60 main_arg6 main_v61 (select : (⟨S4x45000, .i1⟩ : BufTy).Contents (Elt F) → (⟨S4x45000, .i32⟩ : BufTy).Contents (Elt F) → (⟨S4x45000, .i32⟩ : BufTy).Contents (Elt F) → (⟨S4x45000, .i32⟩ : BufTy).Contents (Elt F)),
    unary main_v61 main_v62 (broadcastInDim S4x45000x1 ![0, 1] bcast_S4x45000_S4x45000x1_0_1 : (⟨S4x45000, .i32⟩ : BufTy).Contents (Elt F) → (⟨S4x45000x1, .i32⟩ : BufTy).Contents (Elt F)),
    binary main_v49 main_v62 main_v63 ((fun x i => Host.gather gather_S4x30x80000_S4x45000x1_S4x30x45000_1_2_0_0_2_2_1301 x i) : (⟨S4x30x80000, .f32⟩ : BufTy).Contents (Elt F) → (⟨S4x45000x1, .i32⟩ : BufTy).Contents (Elt F) → (⟨S4x30x45000, .f32⟩ : BufTy).Contents (Elt F)),
    nullary main_cst_18 (constant S_ .f32 0x00000000#32),
    TRef.unary (TRef.of (T := ⟨S_, .f32⟩) main_cst_18) (TRef.of (T := ⟨S_, .f32⟩) main_call5_v0) id,
    TRef.unary (TRef.of (T := ⟨S_, .f32⟩) main_call5_v0) (TRef.of (T := ⟨S4x30x45000, .f32⟩) main_call5_v1) (broadcastInDim S4x30x45000 ![] bcast_S_S4x30x45000),
    TRef.binary (TRef.of (T := ⟨S4x30x45000, .f32⟩) main_call5_v1) (TRef.of (T := ⟨S4x30x45000, .f32⟩) main_v56) (TRef.of (T := ⟨S4x30x45000, .f32⟩) main_v64) maximumf,
    binary main_v56 main_v63 main_v65 (mulf : (⟨S4x30x45000, .f32⟩ : BufTy).Contents (Elt F) → (⟨S4x30x45000, .f32⟩ : BufTy).Contents (Elt F) → (⟨S4x30x45000, .f32⟩ : BufTy).Contents (Elt F)),
    binary main_v64 main_v65 main_v66 (subf : (⟨S4x30x45000, .f32⟩ : BufTy).Contents (Elt F) → (⟨S4x30x45000, .f32⟩ : BufTy).Contents (Elt F) → (⟨S4x30x45000, .f32⟩ : BufTy).Contents (Elt F)),
    unary main_v56 main_v67 (Host.absf : (⟨S4x30x45000, .f32⟩ : BufTy).Contents (Elt F) → (⟨S4x30x45000, .f32⟩ : BufTy).Contents (Elt F)),
    unary main_v67 main_v68 (Host.negf : (⟨S4x30x45000, .f32⟩ : BufTy).Contents (Elt F) → (⟨S4x30x45000, .f32⟩ : BufTy).Contents (Elt F)),
    unary main_v68 main_v69 (Host.exp : (⟨S4x30x45000, .f32⟩ : BufTy).Contents (Elt F) → (⟨S4x30x45000, .f32⟩ : BufTy).Contents (Elt F)),
    unary main_v69 main_v70 (Host.log1p : (⟨S4x30x45000, .f32⟩ : BufTy).Contents (Elt F) → (⟨S4x30x45000, .f32⟩ : BufTy).Contents (Elt F)),
    binary main_v66 main_v70 main_v71 (addf : (⟨S4x30x45000, .f32⟩ : BufTy).Contents (Elt F) → (⟨S4x30x45000, .f32⟩ : BufTy).Contents (Elt F) → (⟨S4x30x45000, .f32⟩ : BufTy).Contents (Elt F)),
    nullary main_cst_19 (constant S_ .f32 0x00000000#32),
    binary main_v71 main_cst_19 main_v72 ((fun x v => Host.reduceAdd x v reducesTo_S4x30x45000_S4x30_d2 h_S_) : (⟨S4x30x45000, .f32⟩ : BufTy).Contents (Elt F) → (⟨S_, .f32⟩ : BufTy).Contents (Elt F) → (⟨S4x30, .f32⟩ : BufTy).Contents (Elt F)),
    nullary main_cst_20 (constant S_ .f32 0x472FC800#32),
    unary main_cst_20 main_v73 (broadcastInDim S4x30 ![] bcast_S_S4x30 : (⟨S_, .f32⟩ : BufTy).Contents (Elt F) → (⟨S4x30, .f32⟩ : BufTy).Contents (Elt F)),
    binary main_v72 main_v73 main_v74 (Host.divf : (⟨S4x30, .f32⟩ : BufTy).Contents (Elt F) → (⟨S4x30, .f32⟩ : BufTy).Contents (Elt F) → (⟨S4x30, .f32⟩ : BufTy).Contents (Elt F)),
    nullary main_cst_21 (constant S_ .f32 0x00000000#32),
    binary main_v74 main_cst_21 main_v75 ((fun x v => Host.reduceAdd x v reducesTo_S4x30_S_d0_1 h_S_) : (⟨S4x30, .f32⟩ : BufTy).Contents (Elt F) → (⟨S_, .f32⟩ : BufTy).Contents (Elt F) → (⟨S_, .f32⟩ : BufTy).Contents (Elt F)),
    nullary main_cst_22 (constant S_ .f32 0x42F00000#32),
    binary main_v75 main_cst_22 main_v76 (Host.divf : (⟨S_, .f32⟩ : BufTy).Contents (Elt F) → (⟨S_, .f32⟩ : BufTy).Contents (Elt F) → (⟨S_, .f32⟩ : BufTy).Contents (Elt F)),
    unary main_v56 main_v77 (Host.negf : (⟨S4x30x45000, .f32⟩ : BufTy).Contents (Elt F) → (⟨S4x30x45000, .f32⟩ : BufTy).Contents (Elt F)),
    unary main_v77 main_v78 (Host.exp : (⟨S4x30x45000, .f32⟩ : BufTy).Contents (Elt F) → (⟨S4x30x45000, .f32⟩ : BufTy).Contents (Elt F)),
    nullary main_cst_23 (constant S_ .f32 0x3F800000#32),
    unary main_cst_23 main_v79 (broadcastInDim S4x30x45000 ![] bcast_S_S4x30x45000 : (⟨S_, .f32⟩ : BufTy).Contents (Elt F) → (⟨S4x30x45000, .f32⟩ : BufTy).Contents (Elt F)),
    binary main_v79 main_v78 main_v80 (addf : (⟨S4x30x45000, .f32⟩ : BufTy).Contents (Elt F) → (⟨S4x30x45000, .f32⟩ : BufTy).Contents (Elt F) → (⟨S4x30x45000, .f32⟩ : BufTy).Contents (Elt F)),
    nullary main_cst_24 (constant S_ .f32 0x3F800000#32),
    unary main_cst_24 main_v81 (broadcastInDim S4x30x45000 ![] bcast_S_S4x30x45000 : (⟨S_, .f32⟩ : BufTy).Contents (Elt F) → (⟨S4x30x45000, .f32⟩ : BufTy).Contents (Elt F)),
    binary main_v81 main_v80 main_v82 (Host.divf : (⟨S4x30x45000, .f32⟩ : BufTy).Contents (Elt F) → (⟨S4x30x45000, .f32⟩ : BufTy).Contents (Elt F) → (⟨S4x30x45000, .f32⟩ : BufTy).Contents (Elt F)),
    nullary main_cst_25 (constant S_ .f32 0x33D6BF95#32),
    nullary main_cst_26 (constant S_ .f32 0x3F7FFFFE#32),
    TRef.unary (TRef.of (T := ⟨S_, .f32⟩) main_cst_25) (TRef.of (T := ⟨S_, .f32⟩) main_call6_v0) id,
    TRef.unary (TRef.of (T := ⟨S_, .f32⟩) main_call6_v0) (TRef.of (T := ⟨S4x30x45000, .f32⟩) main_call6_v1) (broadcastInDim S4x30x45000 ![] bcast_S_S4x30x45000),
    TRef.binary (TRef.of (T := ⟨S4x30x45000, .f32⟩) main_call6_v1) (TRef.of (T := ⟨S4x30x45000, .f32⟩) main_v82) (TRef.of (T := ⟨S4x30x45000, .f32⟩) main_call6_v2) maximumf,
    TRef.unary (TRef.of (T := ⟨S_, .f32⟩) main_cst_26) (TRef.of (T := ⟨S_, .f32⟩) main_call6_v3) id,
    TRef.unary (TRef.of (T := ⟨S_, .f32⟩) main_call6_v3) (TRef.of (T := ⟨S4x30x45000, .f32⟩) main_call6_v4) (broadcastInDim S4x30x45000 ![] bcast_S_S4x30x45000),
    TRef.binary (TRef.of (T := ⟨S4x30x45000, .f32⟩) main_call6_v4) (TRef.of (T := ⟨S4x30x45000, .f32⟩) main_call6_v2) (TRef.of (T := ⟨S4x30x45000, .f32⟩) main_v83) minimumf,
    binary main_v83 main_v63 main_v84 (mulf : (⟨S4x30x45000, .f32⟩ : BufTy).Contents (Elt F) → (⟨S4x30x45000, .f32⟩ : BufTy).Contents (Elt F) → (⟨S4x30x45000, .f32⟩ : BufTy).Contents (Elt F)),
    nullary main_cst_27 (constant S_ .f32 0x00000000#32),
    binary main_v84 main_cst_27 main_v85 ((fun x v => Host.reduceAdd x v reducesTo_S4x30x45000_S4x30_d2 h_S_) : (⟨S4x30x45000, .f32⟩ : BufTy).Contents (Elt F) → (⟨S_, .f32⟩ : BufTy).Contents (Elt F) → (⟨S4x30, .f32⟩ : BufTy).Contents (Elt F)),
    nullary main_cst_28 (constant S_ .f32 0x40000000#32),
    unary main_cst_28 main_v86 (broadcastInDim S4x30 ![] bcast_S_S4x30 : (⟨S_, .f32⟩ : BufTy).Contents (Elt F) → (⟨S4x30, .f32⟩ : BufTy).Contents (Elt F)),
    binary main_v86 main_v85 main_v87 (mulf : (⟨S4x30, .f32⟩ : BufTy).Contents (Elt F) → (⟨S4x30, .f32⟩ : BufTy).Contents (Elt F) → (⟨S4x30, .f32⟩ : BufTy).Contents (Elt F)),
    nullary main_cst_29 (constant S_ .f32 0x00000000#32),
    binary main_v83 main_cst_29 main_v88 ((fun x v => Host.reduceAdd x v reducesTo_S4x30x45000_S4x30_d2 h_S_) : (⟨S4x30x45000, .f32⟩ : BufTy).Contents (Elt F) → (⟨S_, .f32⟩ : BufTy).Contents (Elt F) → (⟨S4x30, .f32⟩ : BufTy).Contents (Elt F)),
    nullary main_cst_30 (constant S_ .f32 0x00000000#32),
    binary main_v63 main_cst_30 main_v89 ((fun x v => Host.reduceAdd x v reducesTo_S4x30x45000_S4x30_d2 h_S_) : (⟨S4x30x45000, .f32⟩ : BufTy).Contents (Elt F) → (⟨S_, .f32⟩ : BufTy).Contents (Elt F) → (⟨S4x30, .f32⟩ : BufTy).Contents (Elt F)),
    binary main_v88 main_v89 main_v90 (addf : (⟨S4x30, .f32⟩ : BufTy).Contents (Elt F) → (⟨S4x30, .f32⟩ : BufTy).Contents (Elt F) → (⟨S4x30, .f32⟩ : BufTy).Contents (Elt F)),
    nullary main_cst_31 (constant S_ .f32 0x3F800000#32),
    unary main_cst_31 main_v91 (broadcastInDim S4x30 ![] bcast_S_S4x30 : (⟨S_, .f32⟩ : BufTy).Contents (Elt F) → (⟨S4x30, .f32⟩ : BufTy).Contents (Elt F)),
    binary main_v87 main_v91 main_v92 (addf : (⟨S4x30, .f32⟩ : BufTy).Contents (Elt F) → (⟨S4x30, .f32⟩ : BufTy).Contents (Elt F) → (⟨S4x30, .f32⟩ : BufTy).Contents (Elt F)),
    nullary main_cst_32 (constant S_ .f32 0x3F800000#32),
    unary main_cst_32 main_v93 (broadcastInDim S4x30 ![] bcast_S_S4x30 : (⟨S_, .f32⟩ : BufTy).Contents (Elt F) → (⟨S4x30, .f32⟩ : BufTy).Contents (Elt F)),
    binary main_v90 main_v93 main_v94 (addf : (⟨S4x30, .f32⟩ : BufTy).Contents (Elt F) → (⟨S4x30, .f32⟩ : BufTy).Contents (Elt F) → (⟨S4x30, .f32⟩ : BufTy).Contents (Elt F)),
    binary main_v92 main_v94 main_v95 (Host.divf : (⟨S4x30, .f32⟩ : BufTy).Contents (Elt F) → (⟨S4x30, .f32⟩ : BufTy).Contents (Elt F) → (⟨S4x30, .f32⟩ : BufTy).Contents (Elt F)),
    nullary main_cst_33 (constant S_ .f32 0x3F800000#32),
    unary main_cst_33 main_v96 (broadcastInDim S4x30 ![] bcast_S_S4x30 : (⟨S_, .f32⟩ : BufTy).Contents (Elt F) → (⟨S4x30, .f32⟩ : BufTy).Contents (Elt F)),
    binary main_v96 main_v95 main_v97 (subf : (⟨S4x30, .f32⟩ : BufTy).Contents (Elt F) → (⟨S4x30, .f32⟩ : BufTy).Contents (Elt F) → (⟨S4x30, .f32⟩ : BufTy).Contents (Elt F)),
    nullary main_cst_34 (constant S_ .f32 0x00000000#32),
    binary main_v97 main_cst_34 main_v98 ((fun x v => Host.reduceAdd x v reducesTo_S4x30_S_d0_1 h_S_) : (⟨S4x30, .f32⟩ : BufTy).Contents (Elt F) → (⟨S_, .f32⟩ : BufTy).Contents (Elt F) → (⟨S_, .f32⟩ : BufTy).Contents (Elt F)),
    nullary main_cst_35 (constant S_ .f32 0x42F00000#32),
    binary main_v98 main_cst_35 main_v99 (Host.divf : (⟨S_, .f32⟩ : BufTy).Contents (Elt F) → (⟨S_, .f32⟩ : BufTy).Contents (Elt F) → (⟨S_, .f32⟩ : BufTy).Contents (Elt F)),
    nullary main_cst_36 (constant S_ .f32 0x40000000#32),
    binary main_cst_36 main_v44 main_v100 (mulf : (⟨S_, .f32⟩ : BufTy).Contents (Elt F) → (⟨S_, .f32⟩ : BufTy).Contents (Elt F) → (⟨S_, .f32⟩ : BufTy).Contents (Elt F)),
    nullary main_cst_37 (constant S_ .f32 0x40A00000#32),
    binary main_cst_37 main_v99 main_v101 (mulf : (⟨S_, .f32⟩ : BufTy).Contents (Elt F) → (⟨S_, .f32⟩ : BufTy).Contents (Elt F) → (⟨S_, .f32⟩ : BufTy).Contents (Elt F)),
    nullary main_cst_38 (constant S_ .f32 0x40A00000#32),
    binary main_cst_38 main_v76 main_v102 (mulf : (⟨S_, .f32⟩ : BufTy).Contents (Elt F) → (⟨S_, .f32⟩ : BufTy).Contents (Elt F) → (⟨S_, .f32⟩ : BufTy).Contents (Elt F)),
    unary main_v100 main_v103 (broadcastInDim S1 ![] bcast_S_S1 : (⟨S_, .f32⟩ : BufTy).Contents (Elt F) → (⟨S1, .f32⟩ : BufTy).Contents (Elt F)),
    unary main_v101 main_v104 (broadcastInDim S1 ![] bcast_S_S1 : (⟨S_, .f32⟩ : BufTy).Contents (Elt F) → (⟨S1, .f32⟩ : BufTy).Contents (Elt F)),
    unary main_v102 main_v105 (broadcastInDim S1 ![] bcast_S_S1 : (⟨S_, .f32⟩ : BufTy).Contents (Elt F) → (⟨S1, .f32⟩ : BufTy).Contents (Elt F)) ]

abbrev opLast : HloOp τ sig (Elt F) :=
  nary ![main_v103, main_v104, main_v105] main_v106 (fun u => concatenate S3 0 [⟨S1, u 0⟩, ⟨S1, u 1⟩, ⟨S1, u 2⟩] concatenates_S1_S1_S1_S3_d0)

abbrev ops : List (HloOp τ sig (Elt F)) := opsInit ++ [opLast]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsInit_sub : (opsInit : List (HloOp τ sig (Elt F))).Forall fun op => op.bufs ⊆ tcRefs τ sig :=
  ⟨nullary_bufs_sub .., unary_bufs_sub .., nullary_bufs_sub .., unary_bufs_sub .., nullary_bufs_sub .., ternary_bufs_sub .., nullary_bufs_sub .., unary_bufs_sub .., nullary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., binary_bufs_sub .., nullary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., binary_bufs_sub .., binary_bufs_sub .., binary_bufs_sub .., unary_bufs_sub .., unary_bufs_sub .., unary_bufs_sub .., unary_bufs_sub .., binary_bufs_sub .., nullary_bufs_sub .., binary_bufs_sub .., nullary_bufs_sub .., unary_bufs_sub .., binary_bufs_sub .., nullary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., binary_bufs_sub .., nullary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., unary_bufs_sub .., unary_bufs_sub .., unary_bufs_sub ..⟩
theorem ops_sub : (ops : List (HloOp τ sig (Elt F))).Forall fun op => op.bufs ⊆ tcRefs τ sig :=
  List.forall_iff_forall_mem.mpr fun op h => (List.mem_append.mp h).elim (List.forall_iff_forall_mem.mp opsInit_sub op)
    fun h => List.mem_singleton.mp h ▸ nary_bufs_sub ..

set_option maxRecDepth 8192 in
set_option maxHeartbeats 101200000 in
theorem piece0 (m : (ℓ : Loc nD τ sig) → Buf (Elt F) ℓ) (c : Dev nD) :
    after (opsInit (F := F)) (launchContents m c) (Proc.devRef .tc main_v103) = val_main_v103 (F := F) (m ((c.tc : Thread nD τ).loc main_arg0)) (m ((c.tc : Thread nD τ).loc main_arg3)) (m ((c.tc : Thread nD τ).loc main_arg4)) (m ((c.tc : Thread nD τ).loc main_arg5)) := by
  after_results_simp <;> (try simp only [TRef.ofBuf, TRef.toBuf, cast_eq]) <;> rfl

set_option maxRecDepth 8192 in
set_option maxHeartbeats 101200000 in
theorem piece1 (m : (ℓ : Loc nD τ sig) → Buf (Elt F) ℓ) (c : Dev nD) :
    after (opsInit (F := F)) (launchContents m c) (Proc.devRef .tc main_v104) = val_main_v104 (F := F) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  after_results_simp <;> (try simp only [TRef.ofBuf, TRef.toBuf, cast_eq]) <;> rfl

set_option maxRecDepth 8192 in
set_option maxHeartbeats 101200000 in
theorem piece2 (m : (ℓ : Loc nD τ sig) → Buf (Elt F) ℓ) (c : Dev nD) :
    after (opsInit (F := F)) (launchContents m c) (Proc.devRef .tc main_v105) = val_main_v105 (F := F) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  after_results_simp <;> (try simp only [TRef.ofBuf, TRef.toBuf, cast_eq]) <;> rfl

theorem after_v106 (m : (ℓ : Loc nD τ sig) → Buf (Elt F) ℓ) (c : Dev nD) :
    after (ops (F := F)) (launchContents m c) (Proc.devRef .tc main_v106) = val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [after_append, after_cons, after_nil, nary_result]
  show concatenate S3 0 [⟨S1, after (opsInit (F := F)) (launchContents m c) (Proc.devRef .tc main_v103)⟩,
    ⟨S1, after (opsInit (F := F)) (launchContents m c) (Proc.devRef .tc main_v104)⟩,
    ⟨S1, after (opsInit (F := F)) (launchContents m c) (Proc.devRef .tc main_v105)⟩] concatenates_S1_S1_S1_S3_d0 = _
  rw [piece0, piece1, piece2]; rfl

set_option maxRecDepth 8192 in
set_option maxHeartbeats 101200000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106) = val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v106).trans (after_v106 m c),
      (h c main_arg0).trans (by rw [after_append]; after_results_simp <;> rfl),
      (h c main_arg1).trans (by rw [after_append]; after_results_simp <;> rfl),
      (h c main_arg2).trans (by rw [after_append]; after_results_simp <;> rfl),
      (h c main_arg3).trans (by rw [after_append]; after_results_simp <;> rfl),
      (h c main_arg4).trans (by rw [after_append]; after_results_simp <;> rfl),
      (h c main_arg5).trans (by rw [after_append]; after_results_simp <;> rfl),
      (h c main_arg6).trans (by rw [after_append]; after_results_simp <;> rfl)⟩)
    (run_seq scopedRefs_eq scopedSems_eq defs main (fun _ => ops) main_eq (fun _ => ops_sub) m ρ)

end Cert.ReferenceIdeal.Value

end
-- ==== Proof.Spec.lean ====
import Idealize.ShloMosaic.PureOps.Ideal
import Idealize.ShloMosaic.PureOps.Ideal.Laws
import Idealize.ShloMosaic.Lib.IdealHost

noncomputable section

namespace Cert.Spec

open Idealize.ShloMosaic

def lo : EReal := Ideal.ofBits .f32 0x33D6BF95#32

def hi : EReal := Ideal.ofBits .f32 0x3F7FFFFE#32

def absE (x : EReal) : EReal := max x (-x)

def bceR (x s : EReal) : EReal := (max 0 x - x * s) + Ideal.log1p (Ideal.exp (-(absE x)))

def pR (x : EReal) : EReal := min hi (max lo (Ideal.div 1 (1 + Ideal.exp (-x))))

def eK (x : EReal) : EReal := Ideal.exp (0 - absE x)

def bceK (x s : EReal) : EReal := (max x 0 - x * s) + Ideal.log1p (eK x)

def pK (x : EReal) : EReal := min (max (Ideal.div (if 0 ≤ x then 1 else eK x) (1 + eK x)) lo) hi

end Cert.Spec

end
-- ==== Proof.PointValues.lean ====
import proofs.«422094_j90494960927125_3_alg».proof.Proof.Gen.KernelIdeal.Skeleton
import proofs.«422094_j90494960927125_3_alg».proof.Proof.Spec
import Idealize.ShloMosaic.Lib.IdealHost
import Idealize.ShloMosaic.Lib.Affine
import Idealize.ShloMosaic.Lib.ValueLayout
import Idealize.ShloMosaic.Lib.StackMember
import Idealize.ShloMosaic.Lib.KernelVsHost

noncomputable section

open scoped BigOperators

namespace Cert.KernelIdeal.PointVals

open Idealize.ShloMosaic Idealize.ShloMosaic.ValueIdx Cert.KernelIdeal Cert.KernelIdeal.Gen

def valid (k : ℕ) (j : Fin 5632) : Prop := k * 5632 + j.val < 45000

instance (k : ℕ) (j : Fin 5632) : Decidable (valid k j) := by unfold valid; infer_instance

section Columns
variable {F : FTy → Type} [FloatOps F] [Named F]

def col0 (i : grid0.Coords) (x0 : Vec F S1x5632x100 .f32) (x1 : Vec F S1x100x30 .f32)
    (x2 : Vec F S1x30x5632 .f32) (s : Vec F S30x1 .f32) : FVec F S30x1 .f32 :=
  k0_pay14 (k0_pay9 i) (k0_pay11 x0 x1 x2) s

def col1 (i : grid0.Coords) (x0 : Vec F S1x5632x100 .f32) (x1 : Vec F S1x100x30 .f32)
    (x2 : Vec F S1x30x5632 .f32) (s : Vec F S30x1 .f32) : FVec F S30x1 .f32 :=
  k0_pay15 (k0_pay7 x2) (k0_pay9 i) (k0_pay12 x0 x1) (Scalar.ofBits .f32 0x3F7FFFFE#32) s

def col2 (i : grid0.Coords) (x0 : Vec F S1x5632x100 .f32) (x1 : Vec F S1x100x30 .f32)
    (s : Vec F S30x1 .f32) : FVec F S30x1 .f32 :=
  k0_pay16 (k0_pay9 i) (k0_pay12 x0 x1) (Scalar.ofBits .f32 0x3F7FFFFE#32) s

def col3 (i : grid0.Coords) (x2 : Vec F S1x30x5632 .f32) (s : Vec F S30x1 .f32) : FVec F S30x1 .f32 :=
  k0_pay1 s (k0_pay17 (k0_pay7 x2) (k0_pay9 i))

end Columns

variable (i : grid0.Coords) (x0 : Vec Ideal S1x5632x100 .f32) (x1 : Vec Ideal S1x100x30 .f32)
  (x2 : Vec Ideal S1x30x5632 .f32) (s : Vec Ideal S30x1 .f32) (m : Fin 30) (j : Fin 5632) (y : S30x5632.Idx)

-- The tile number is below 8, so k * 5632 + j < 2 ^ 31 and the signed comparison is the comparison of natural numbers.
theorem pay9_apply :
    k0_pay9 i (ix2 m j) = if valid (i 1).val j then 1#1 else 0#1 := by
  have hk : (i 1).val < 8 := (i 1).isLt
  have hj := j.isLt
  have ha : Affine.IsInt (Scalar.addi (Scalar.muli (BitVec.ofNat 32 (i 1).val) 5632#32) (BitVec.ofNat 32 (0 * 5632 + j.val)))
      ((i 1).val * 5632 + j.val) :=
    Affine.addi (Affine.muli (Affine.ofNat _ ⟨rfl, by omega⟩) (Affine.ofNat 5632 ⟨rfl, by omega⟩) ⟨rfl, by omega, by omega⟩)
      (Affine.ofNat _ ⟨rfl, by omega⟩) ⟨by omega, by omega, by omega⟩
  have hb : Affine.IsInt 45000#32 45000 := Affine.ofNat 45000 ⟨rfl, by omega⟩
  by_cases hv : valid (i 1).val j
  · rw [if_pos hv]; exact Affine.slt_holds ha hb (by unfold valid at hv; omega)
  · rw [if_neg hv]; exact eq_zero_of_ne_one (Affine.slt_fails ha hb (by unfold valid at hv; omega))

theorem pay7_apply :
    k0_pay7 x2 (ix2 m j) = x2 (ix3 (0 : Fin 1) m j) :=
  shapeCast_1ab_ab_apply x2 shapeCasts_S1x30x5632_S30x5632 m j

def spT : EReal :=
  ∑ q : Fin 100, x0 (ix3 (0 : Fin 1) j q) * x1 (ix3 (0 : Fin 1) q m)

-- Added to the zero array the product is the plain matrix product; transposed, entry (m, j) is row j against column m.
theorem pay8_apply :
    k0_pay8 x0 x1 (ix2 m j) = spT x0 x1 m j := by
  unfold k0_pay8 spT
  rw [transpose_ix2_apply _ transposes_S5632x30_p1_0_S30x5632 m j, matmul_zero_eq_dotGeneral]
  refine (StackMember.dotGeneral_plain_apply (some .fp32) _ _ j m).trans (Finset.sum_congr rfl fun q _ => ?_)
  rw [shapeCast_1ab_ab_apply, shapeCast_1ab_ab_apply]

theorem pay10_apply :
    k0_pay10 x0 x1 y = Cert.Spec.eK (k0_pay8 x0 x1 y) := by
  show Ideal.exp (Ideal.ofBits .f32 0x00000000#32 - max (k0_pay8 x0 x1 y) (-(k0_pay8 x0 x1 y))) = _
  rw [Ideal.ofBits_zero_f32]
  rfl

theorem pay11_apply :
    k0_pay11 x0 x1 x2 y = Cert.Spec.bceK (k0_pay8 x0 x1 y) (k0_pay7 x2 y) := by
  show (max (k0_pay8 x0 x1 y) (Ideal.ofBits .f32 0x00000000#32) - k0_pay8 x0 x1 y * k0_pay7 x2 y)
      + Ideal.log1p (k0_pay10 x0 x1 y) = _
  rw [pay10_apply, Ideal.ofBits_zero_f32]
  rfl

theorem select_oge_zero (x a b : EReal) :
    Scalar.select (Ideal.cmp .oge x 0) a b = if 0 ≤ x then a else b := by
  unfold Scalar.select Ideal.cmp
  by_cases h : (0 : EReal) ≤ x
  · rw [if_pos h]; simp [h]
  · rw [if_neg h]; simp [h]

theorem pay13_apply :
    k0_pay13 (k0_pay12 x0 x1) (Scalar.ofBits .f32 0x3F7FFFFE#32) y = Cert.Spec.pK (k0_pay8 x0 x1 y) := by
  show min (max (Ideal.div
        (Scalar.select (Ideal.cmp .oge (k0_pay8 x0 x1 y) (Ideal.ofBits .f32 0x00000000#32))
          (Ideal.ofBits .f32 0x3F800000#32) (k0_pay10 x0 x1 y))
        (Ideal.ofBits .f32 0x3F800000#32 + k0_pay10 x0 x1 y)) (Ideal.ofBits .f32 0x33D6BF95#32))
      (Ideal.ofBits .f32 0x3F7FFFFE#32) = _
  rw [pay10_apply, Ideal.ofBits_zero_f32, Ideal.ofBits_one_f32, select_oge_zero]
  rfl

-- Row m of v, kept on the lanes where tile (i 1) is below 45000 and zero elsewhere, added up, as entry (m, 0) of a column.
theorem masked_rowsum (v : FVec Ideal S30x5632 .f32) :
    shapeCast S30x1
        (multiReduction .add [1] S30 (select (k0_pay9 i) v (broadcast S30x5632 (Scalar.ofBits (F := Ideal) .f32 0x00000000#32)))
          0x00000000#32 reduces_S30x5632_S30 (.inl rfl) rfl)
        shapeCasts_S30_S30x1 (ix2 m (0 : Fin 1))
      = ∑ j : Fin 5632, if valid (i 1).val j then v (ix2 m j) else 0 := by
  refine (shapeCast_apply _ shapeCasts_S30_S30x1 _ (ix1 m) rfl).trans
    ((Ideal.multiReduction_add_single _ _ _ _ _ _).trans (Finset.sum_congr rfl fun (j : Fin 5632) _ => ?_))
  rw [show reduces_S30x5632_S30.lift (ix1 m) j = ix2 m j from
    funext fun a => match a with | ⟨0, _⟩ => rfl | ⟨1, _⟩ => rfl]
  show (if k0_pay9 i (ix2 m j) = 1#1 then v _ else Ideal.ofBits .f32 0x00000000#32) = _
  rw [pay9_apply, Ideal.ofBits_zero_f32]
  by_cases hv : valid (i 1).val j
  · rw [if_pos hv, if_pos hv, if_pos rfl]
  · rw [if_neg hv, if_neg hv, if_neg (by decide)]

theorem cast_col (v : FVec Ideal S30x1 .f32) (y : S30x1.Idx) : shapeCast S30x1 v shapeCasts_S30x1_S30x1 y = v y :=
  shapeCast_apply v shapeCasts_S30x1_S30x1 y y rfl

-- Each new column is the column found plus the masked lane sum of its summand.
theorem col0_apply :
    col0 i x0 x1 x2 s (ix2 m (0 : Fin 1))
      = s (ix2 m (0 : Fin 1))
        + ∑ j : Fin 5632, if valid (i 1).val j
            then Cert.Spec.bceK (spT x0 x1 m j) (x2 (ix3 (0 : Fin 1) m j)) else 0 := by
  unfold col0 k0_pay14
  refine (cast_col _ _).trans (congrArg (s (ix2 m (0 : Fin 1)) + ·)
    ((masked_rowsum i m _).trans (Finset.sum_congr rfl fun j _ => ?_)))
  rw [pay11_apply, pay8_apply, pay7_apply]

theorem col1_apply :
    col1 i x0 x1 x2 s (ix2 m (0 : Fin 1))
      = s (ix2 m (0 : Fin 1))
        + ∑ j : Fin 5632, if valid (i 1).val j
            then Cert.Spec.pK (spT x0 x1 m j) * x2 (ix3 (0 : Fin 1) m j) else 0 := by
  unfold col1 k0_pay15
  refine (cast_col _ _).trans (congrArg (s (ix2 m (0 : Fin 1)) + ·)
    ((masked_rowsum i m _).trans (Finset.sum_congr rfl fun j _ => ?_)))
  rw [mulf_apply, pay13_apply, pay8_apply, pay7_apply]

theorem col2_apply :
    col2 i x0 x1 s (ix2 m (0 : Fin 1))
      = s (ix2 m (0 : Fin 1))
        + ∑ j : Fin 5632, if valid (i 1).val j then Cert.Spec.pK (spT x0 x1 m j) else 0 := by
  unfold col2 k0_pay16
  refine (cast_col _ _).trans (congrArg (s (ix2 m (0 : Fin 1)) + ·)
    ((masked_rowsum i m _).trans (Finset.sum_congr rfl fun j _ => ?_)))
  rw [pay13_apply, pay8_apply]

theorem col3_apply :
    col3 i x2 s (ix2 m (0 : Fin 1))
      = s (ix2 m (0 : Fin 1))
        + ∑ j : Fin 5632, if valid (i 1).val j then x2 (ix3 (0 : Fin 1) m j) else 0 := by
  unfold col3 k0_pay1 k0_pay17
  refine (cast_col _ _).trans (congrArg (s (ix2 m (0 : Fin 1)) + ·)
    ((masked_rowsum i m _).trans (Finset.sum_congr rfl fun j _ => ?_)))
  rw [pay7_apply]

-- The four columns the first tile starts from are the same zero column.
theorem zero_cols (y : S30x1.Idx) : (k0_pay3 (F := Ideal)) y = 0 ∧ (k0_pay4 (F := Ideal)) y = 0
    ∧ (k0_pay5 (F := Ideal)) y = 0 ∧ (k0_pay6 (F := Ideal)) y = 0 :=
  have h : (k0_pay3 (F := Ideal)) y = 0 := by unfold k0_pay3; exact (cast_col _ _).trans Ideal.ofBits_zero_f32
  ⟨h, h, h, h⟩

def inv45000 : EReal := Named.named (F := Ideal) κ "inv_45000" (φ := .f32) 0x37BA69DC#32

theorem pay2_apply0 (s0 s1 s2 s3 : Vec Ideal S30x1 .f32) :
    k0_pay2 s0 s1 s2 s3 (ix3 (0 : Fin 1) m (0 : Fin 2)) = s0 (ix2 m (0 : Fin 1)) * inv45000 := by
  unfold k0_pay2
  rw [shapeCast_ab_1ab_apply _ shapeCasts_S30x2_S1x30x2 (0 : Fin 1) m (0 : Fin 2)]
  exact concatenate_pair_apply_left 1 _ _ concatenates_S30x1_S30x1_S30x2_d1 _ rfl (ix2 m (0 : Fin 1))
    fun b => match b with | ⟨0, _⟩ => rfl | ⟨1, _⟩ => rfl

theorem pay2_apply1 (s0 s1 s2 s3 : Vec Ideal S30x1 .f32) :
    k0_pay2 s0 s1 s2 s3 (ix3 (0 : Fin 1) m (1 : Fin 2))
      = 1 - Ideal.div (Ideal.ofBits .f32 0x40000000#32 * s1 (ix2 m (0 : Fin 1)) + 1)
              (s2 (ix2 m (0 : Fin 1)) + s3 (ix2 m (0 : Fin 1)) + 1) := by
  unfold k0_pay2
  rw [shapeCast_ab_1ab_apply _ shapeCasts_S30x2_S1x30x2 (0 : Fin 1) m (1 : Fin 2),
    concatenate_pair_apply_right 1 _ _ concatenates_S30x1_S30x1_S30x2_d1 _ rfl rfl (ix2 m (0 : Fin 1))
      (fun b hb => match b with | ⟨0, _⟩ => rfl | ⟨1, _⟩ => absurd rfl hb) rfl]
  show Ideal.ofBits .f32 0x3F800000#32
      - Ideal.div (_ + Ideal.ofBits .f32 0x3F800000#32) (_ + Ideal.ofBits .f32 0x3F800000#32) = _
  rw [Ideal.ofBits_one_f32]
  rfl

end Cert.KernelIdeal.PointVals

end
-- ==== Proof.Pieces.lean ====
import proofs.«422094_j90494960927125_3_alg».proof.Proof.FrameCert
import proofs.«422094_j90494960927125_3_alg».proof.Proof.PointValues

set_option maxRecDepth 16384

noncomputable section

namespace Cert.KernelIdeal.PointVals

open Cert.KernelIdeal Cert.KernelIdeal.Gen Cert.KernelIdeal.GenH
open Idealize.ShloMosaic Idealize.ShloMosaic.TcCoe Idealize.ShloMosaic.Tactic
open Idealize.SL Idealize.SL.Sem

variable {F : FTy → Type} [FloatOps F] [Named F]

theorem hz2 : (![0, 0] : Fin 2 → Nat) = fun _ => 0 := funext fun a => by fin_cases a <;> rfl

theorem hz3 : (![0, 0, 0] : Fin 3 → Nat) = fun _ => 0 := funext fun a => by fin_cases a <;> rfl

variable (c : Dev nD) (i : grid0.Coords)
  (arg2 : Memref sig .tc .vmem S1x5632x100 .f32) (harg2 : arg2.IsWhole)
  (arg3 : Memref sig .tc .vmem S1x100x30 .f32) (harg3 : arg3.IsWhole)
  (arg4 : Memref sig .tc .vmem S1x30x5632 .f32) (harg4 : arg4.IsWhole)
  (arg5 : Memref sig .tc .vmem S1x30x2 .f32) (harg5 : arg5.IsWhole)
  (arg6 : Memref sig .tc .vmem S30x1 .f32) (harg6 : arg6.IsWhole)
  (arg7 : Memref sig .tc .vmem S30x1 .f32) (harg7 : arg7.IsWhole)
  (arg8 : Memref sig .tc .vmem S30x1 .f32) (harg8 : arg8.IsWhole)
  (arg9 : Memref sig .tc .vmem S30x1 .f32) (harg9 : arg9.IsWhole)
  (x0 : Vec F S1x5632x100 .f32) (x1 : Vec F S1x100x30 .f32) (x2 : Vec F S1x30x5632 .f32)
  (xs0 xs1 xs2 xs3 : Vec F S30x1 .f32)

-- Reading back a list of writes whose last one covers every index gives the value written last.
theorem sout_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 = col0 i x0 x1 x2 (k0_pay3 (F := F))
    ∧ sout0_A_1 c i arg2 harg2 arg3 harg3 arg4 harg4 arg5 harg5 arg6 harg6 arg7 harg7 arg8 harg8 arg9 harg9 hc0 hc1 x0 x1 x2 = col1 i x0 x1 x2 (k0_pay4 (F := F))
    ∧ sout0_A_2 c i arg2 harg2 arg3 harg3 arg4 harg4 arg5 harg5 arg6 harg6 arg7 harg7 arg8 harg8 arg9 harg9 hc0 hc1 x0 x1 x2 = col2 i x0 x1 (k0_pay5 (F := F))
    ∧ sout0_A_3 c i arg2 harg2 arg3 harg3 arg4 harg4 arg5 harg5 arg6 harg6 arg7 harg7 arg8 harg8 arg9 harg9 hc0 hc1 x0 x1 x2 = col3 i x2 (k0_pay6 (F := F)) := by
  unfold sout0_A_0 sout0_A_1 sout0_A_2 sout0_A_3
  refine ⟨(View.read_writes_eq_canon _ _ _ (scover0_A_0 _ _ _ _ _ _ _ _ _ _ _ _ _ _ _ _ _ _ _ _ _ _ _)).trans ?_,
    (View.read_writes_eq_canon _ _ _ (scover0_A_1 _ _ _ _ _ _ _ _ _ _ _ _ _ _ _ _ _ _ _ _ _ _ _)).trans ?_,
    (View.read_writes_eq_canon _ _ _ (scover0_A_2 _ _ _ _ _ _ _ _ _ _ _ _ _ _ _ _ _ _ _ _ _ _ _)).trans ?_,
    (View.read_writes_eq_canon _ _ _ (scover0_A_3 _ _ _ _ _ _ _ _ _ _ _ _ _ _ _ _ _ _ _ _ _ _ _)).trans ?_⟩
  all_goals
    unfold kernelRun0_A
    dsimp only
    sl_unfold_words
    rw [View.canon_cons_unit_zero (S := S30x1) hz2]
    simp only [col0, col1, col2, col3, View.readAt_eq_ld, harg2.read_unread, harg3.read_unread, harg4.read_unread, harg5.read_unread, harg6.read_unread, harg7.read_unread, harg8.read_unread, harg9.read_unread, View.ld_unit_zero (S := S30x1) hz2, View.ld_unit_zero (S := S1x5632x100) hz3, View.ld_unit_zero (S := S1x100x30) hz3, View.ld_unit_zero (S := S1x30x5632) hz3, View.ld_unit_zero (S := S1x30x2) hz3, View.readCov_unit_zero (S := S30x1) _ hz2]

theorem sout_B (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 xs0 xs1 xs2 xs3 = col0 i x0 x1 x2 xs0
    ∧ sout0_B_1 c i arg2 harg2 arg3 harg3 arg4 harg4 arg5 harg5 arg6 harg6 arg7 harg7 arg8 harg8 arg9 harg9 hc0 hc1 x0 x1 x2 xs0 xs1 xs2 xs3 = col1 i x0 x1 x2 xs1
    ∧ sout0_B_2 c i arg2 harg2 arg3 harg3 arg4 harg4 arg5 harg5 arg6 harg6 arg7 harg7 arg8 harg8 arg9 harg9 hc0 hc1 x0 x1 x2 xs0 xs1 xs2 xs3 = col2 i x0 x1 xs2
    ∧ sout0_B_3 c i arg2 harg2 arg3 harg3 arg4 harg4 arg5 harg5 arg6 harg6 arg7 harg7 arg8 harg8 arg9 harg9 hc0 hc1 x0 x1 x2 xs0 xs1 xs2 xs3 = col3 i x2 xs3 := by
  unfold sout0_B_0 sout0_B_1 sout0_B_2 sout0_B_3
  refine ⟨(View.read_writes_eq_canon _ _ _ (scover0_B_0 _ _ _ _ _ _ _ _ _ _ _ _ _ _ _ _ _ _ _ _ _ _ _ _ _ _ _)).trans ?_,
    (View.read_writes_eq_canon _ _ _ (scover0_B_1 _ _ _ _ _ _ _ _ _ _ _ _ _ _ _ _ _ _ _ _ _ _ _ _ _ _ _)).trans ?_,
    (View.read_writes_eq_canon _ _ _ (scover0_B_2 _ _ _ _ _ _ _ _ _ _ _ _ _ _ _ _ _ _ _ _ _ _ _ _ _ _ _)).trans ?_,
    (View.read_writes_eq_canon _ _ _ (scover0_B_3 _ _ _ _ _ _ _ _ _ _ _ _ _ _ _ _ _ _ _ _ _ _ _ _ _ _ _)).trans ?_⟩
  all_goals
    unfold kernelRun0_B
    dsimp only
    sl_unfold_words
    rw [View.canon_unit_zero hz2]
    simp only [col0, col1, col2, col3, View.readAt_eq_ld, harg2.read_unread, harg3.read_unread, harg4.read_unread, harg5.read_unread, harg6.read_unread, harg7.read_unread, harg8.read_unread, harg9.read_unread, View.ld_unit_zero (S := S30x1) hz2, View.ld_unit_zero (S := S1x5632x100) hz3, View.ld_unit_zero (S := S1x100x30) hz3, View.ld_unit_zero (S := S1x30x5632) hz3, View.ld_unit_zero (S := S1x30x2) hz3, View.readCov_unit_zero (S := S30x1) _ hz2]

theorem sout_C (hc0 : ¬cond0_0 i) (hc1 : cond0_1 i) :
    out0_C_3 c i arg2 harg2 arg3 harg3 arg4 harg4 arg5 harg5 arg6 harg6 arg7 harg7 arg8 harg8 arg9 harg9 hc0 hc1 x0 x1 x2 xs0 xs1 xs2 xs3
      = k0_pay2 (col0 i x0 x1 x2 xs0) (col1 i x0 x1 x2 xs1) (col2 i x0 x1 xs2) (col3 i x2 xs3)
    ∧ sout0_C_0 c i arg2 harg2 arg3 harg3 arg4 harg4 arg5 harg5 arg6 harg6 arg7 harg7 arg8 harg8 arg9 harg9 hc0 hc1 x0 x1 x2 xs0 xs1 xs2 xs3 = col0 i x0 x1 x2 xs0
    ∧ sout0_C_1 c i arg2 harg2 arg3 harg3 arg4 harg4 arg5 harg5 arg6 harg6 arg7 harg7 arg8 harg8 arg9 harg9 hc0 hc1 x0 x1 x2 xs0 xs1 xs2 xs3 = col1 i x0 x1 x2 xs1
    ∧ sout0_C_2 c i arg2 harg2 arg3 harg3 arg4 harg4 arg5 harg5 arg6 harg6 arg7 harg7 arg8 harg8 arg9 harg9 hc0 hc1 x0 x1 x2 xs0 xs1 xs2 xs3 = col2 i x0 x1 xs2
    ∧ sout0_C_3 c i arg2 harg2 arg3 harg3 arg4 harg4 arg5 harg5 arg6 harg6 arg7 harg7 arg8 harg8 arg9 harg9 hc0 hc1 x0 x1 x2 xs0 xs1 xs2 xs3 = col3 i x2 xs3 := by
  unfold out0_C_3 sout0_C_0 sout0_C_1 sout0_C_2 sout0_C_3
  refine ⟨(View.read_writes_eq_canon _ _ _ (cover0_C_3 _ _ _ _ _ _ _ _ _ _ _ _ _ _ _ _ _ _ _ _ _ _ _ _ _ _ _)).trans ?_,
    (View.read_writes_eq_canon _ _ _ (scover0_C_0 _ _ _ _ _ _ _ _ _ _ _ _ _ _ _ _ _ _ _ _ _ _ _ _ _ _ _)).trans ?_,
    (View.read_writes_eq_canon _ _ _ (scover0_C_1 _ _ _ _ _ _ _ _ _ _ _ _ _ _ _ _ _ _ _ _ _ _ _ _ _ _ _)).trans ?_,
    (View.read_writes_eq_canon _ _ _ (scover0_C_2 _ _ _ _ _ _ _ _ _ _ _ _ _ _ _ _ _ _ _ _ _ _ _ _ _ _ _)).trans ?_,
    (View.read_writes_eq_canon _ _ _ (scover0_C_3 _ _ _ _ _ _ _ _ _ _ _ _ _ _ _ _ _ _ _ _ _ _ _ _ _ _ _)).trans ?_⟩
  all_goals
    unfold kernelRun0_C
    dsimp only
    sl_unfold_words
    first | rw [View.canon_unit_zero hz2] | rw [View.canon_unit_zero hz3]
    simp only [col0, col1, col2, col3, View.readAt_eq_ld, harg2.read_unread, harg3.read_unread, harg4.read_unread, harg5.read_unread, harg6.read_unread, harg7.read_unread, harg8.read_unread, harg9.read_unread, View.ld_unit_zero (S := S30x1) hz2, View.ld_unit_zero (S := S1x5632x100) hz3, View.ld_unit_zero (S := S1x100x30) hz3, View.ld_unit_zero (S := S1x30x5632) hz3, View.ld_unit_zero (S := S1x30x2) hz3, View.readCov_unit_zero (S := S30x1) _ hz2]

end Cert.KernelIdeal.PointVals

end
-- ==== Proof.TileSum.lean ====
import Mathlib.Algebra.BigOperators.Group.Finset.Basic
import Mathlib.Algebra.BigOperators.Fin
import Mathlib.Tactic.Ring
import Mathlib.Tactic.Linarith

namespace Cert.KernelIdeal.KVal

open Finset

variable {M : Type*} [AddCommMonoid M]

-- Tile k of a sequence cut off at N: the terms at positions k * T + j, j < T, that lie below N.
def tileSum (T N : ℕ) (g : ℕ → M) (k : ℕ) : M :=
  ∑ j : Fin T, if k * T + j.val < N then g (k * T + j.val) else 0

-- The terms at the positions below both N and L.
def prefixSum (N : ℕ) (g : ℕ → M) (L : ℕ) : M :=
  ∑ n : Fin N, if n.val < L then g n.val else 0

theorem prefixSum_eq_range (N : ℕ) (g : ℕ → M) (L : ℕ) :
    prefixSum N g L = ∑ n ∈ range L, if n < N then g n else 0 := by
  unfold prefixSum
  rw [Fin.sum_univ_eq_sum_range (fun n => if n < L then g n else 0) N, ← Finset.sum_filter, ← Finset.sum_filter]
  congr 1
  ext n
  simp only [mem_filter, mem_range]
  exact ⟨fun h => ⟨h.2, h.1⟩, fun h => ⟨h.2, h.1⟩⟩

theorem prefixSum_succ (T N : ℕ) (g : ℕ → M) (k : ℕ) :
    prefixSum N g ((k + 1) * T) = prefixSum N g (k * T) + tileSum T N g k := by
  rw [prefixSum_eq_range, prefixSum_eq_range, Nat.succ_mul, Finset.sum_range_add]
  exact congrArg _ (Fin.sum_univ_eq_sum_range (fun j => if k * T + j < N then g (k * T + j) else 0) T).symm

theorem prefixSum_one (T N : ℕ) (g : ℕ → M) : prefixSum N g ((0 + 1) * T) = 0 + tileSum T N g 0 := by
  rw [prefixSum_succ, Nat.zero_mul, prefixSum_eq_range, range_zero, sum_empty]

-- A quantity reset to tile 0 of row n / 8 when n % 8 = 0 and grown by tile n % 8 otherwise holds the prefix up to tile n % 8; at n % 8 = 7 the eight tiles reach past N, so it is the whole sum.
theorem acc_final {P : ℕ} (T N : ℕ) (hTN : N ≤ 8 * T) (s : (n : ℕ) → n < P → M) (g : ℕ → ℕ → M)
    (hA : ∀ (n : ℕ) (h : n < P), n % 8 = 0 → s n h = 0 + tileSum T N (g (n / 8)) 0)
    (hB : ∀ (n : ℕ) (h : n < P), ¬n % 8 = 0 →
      s n h = s (n - 1) (Nat.lt_of_le_of_lt (Nat.sub_le _ _) h) + tileSum T N (g (n / 8)) (n % 8))
    (n : ℕ) (h : n < P) (h7 : n % 8 = 7) : s n h = ∑ i : Fin N, g (n / 8) i.val := by
  have inv : ∀ (n : ℕ) (h : n < P), s n h = prefixSum N (g (n / 8)) ((n % 8 + 1) * T) := by
    intro n
    induction n with
    | zero =>
      intro h
      rw [hA 0 h (Nat.zero_mod _), Nat.zero_mod, Nat.zero_div]
      exact (prefixSum_one T N (g 0)).symm
    | succ n ih =>
      intro h
      by_cases h0 : (n + 1) % 8 = 0
      · rw [hA (n + 1) h h0, h0]
        exact (prefixSum_one T N _).symm
      · rw [hB (n + 1) h h0, show (n + 1) / 8 = n / 8 by omega, show (n + 1) % 8 = n % 8 + 1 by omega]
        show s n _ + _ = _
        rw [ih]
        exact (prefixSum_succ T N _ _).symm
  rw [inv n h, h7]
  exact Finset.sum_congr rfl fun i _ => if_pos (by have := i.isLt; omega)

end Cert.KernelIdeal.KVal
-- ==== Proof.KernelTail.lean ====
import proofs.«422094_j90494960927125_3_alg».proof.Proof.Gen.KernelIdeal.Launch
import Idealize.ShloMosaic.Lib.StableHlo.Run
import Idealize.ShloMosaic.Lib.Tactic

noncomputable section

open Idealize.ShloMosaic Idealize.ShloMosaic.TcCoe Idealize.SL.Sem

namespace Cert.KernelIdeal.KVal

open Cert.KernelIdeal Cert.KernelIdeal.Gen

variable {F : FTy → Type} [FloatOps F] [Named F]

def finalS (smask sdice ce : Vec F S_ .f32) : Vec F S3 .f32 :=
  concatenate S3 0
    [⟨S1, broadcastInDim S1 ![] bcast_S_S1 (mulf (constant S_ .f32 0x40000000#32) ce)⟩,
     ⟨S1, broadcastInDim S1 ![] bcast_S_S1 (mulf (constant S_ .f32 0x40A00000#32) (Host.divf sdice (constant S_ .f32 0x42F00000#32)))⟩,
     ⟨S1, broadcastInDim S1 ![] bcast_S_S1 (mulf (constant S_ .f32 0x40A00000#32) (Host.divf smask (constant S_ .f32 0x42F00000#32)))⟩]
    concatenates_S1_S1_S1_S3_d0

def maskOf (out : Vec F S4x30x2 .f32) : Vec F S4x30 .f32 :=
  shapeCast S4x30 (extractStridedSlice S4x30x1 ![0, 0, 0] out slices_S4x30x2_S4x30x1_0_0_0) shapeCasts_S4x30x1_S4x30

def diceOf (out : Vec F S4x30x2 .f32) : Vec F S4x30 .f32 :=
  shapeCast S4x30 (extractStridedSlice S4x30x1 ![0, 0, 1] out slices_S4x30x2_S4x30x1_0_0_1) shapeCasts_S4x30x1_S4x30

-- Both columns summed over the 120 masks, then twice the classification loss, five times the mean dice loss, five times the mean mask loss.
def tailK (out : Vec F S4x30x2 .f32) (ce : Vec F S_ .f32) : Vec F S3 .f32 :=
  finalS (Host.reduceAdd (maskOf out) (constant S_ .f32 0x00000000#32) reducesTo_S4x30_S_d0_1 h_S_)
    (Host.reduceAdd (diceOf out) (constant S_ .f32 0x00000000#32) reducesTo_S4x30_S_d0_1 h_S_) ce

theorem after_hostOps1 (V : Valuation τ sig (Elt F)) :
    StableHlo.after (hostOps1 (F := F)) V (Proc.devRef .tc main_v89)
      = tailK (V (Proc.devRef .tc main_v74)) (V (Proc.devRef .tc main_v44)) := by
  after_results
  rfl

end Cert.KernelIdeal.KVal

end
-- ==== Proof.KernelGeom.lean ====
import proofs.«422094_j90494960927125_3_alg».proof.Proof.Gen.KernelIdeal.Points
import proofs.«422094_j90494960927125_3_alg».proof.Proof.Gen.KernelIdeal.Launch
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.KVal

open Cert.KernelIdeal Cert.KernelIdeal.Gen

variable {F : FTy → Type} [FloatOps F] [Named F]

theorem N32 : cfg0.N = 32 := N_0

-- Position t of the 4 × 8 grid is row t / 8, tile t % 8; each block's index along an axis is one of the two, or zero.
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = 0 :=
  (by decide +kernel : ∀ t : Fin grid0.N, _)

theorem blk0_read (A : Vec F S4x45056x100 .f32) (t : Fin cfg0.N) (y : S1x5632x100.Idx) (i : S4x45056x100.Idx)
    (h0 : (i 0).val = t.val / 8) (h1 : (i 1).val = t.val % 8 * 5632 + (y 1).val) (h2 : (i 2).val = (y 2).val) :
    (((cfg0.win 0).blk t).view.read (Elt F) A : Vec F S1x5632x100 .f32) y = A i := by
  rw [View.read_apply]
  refine congrArg A (funext fun a => Fin.ext ?_)
  obtain ⟨e0, e1, e2, -⟩ := idx_facts t
  have hy0 : (y 0).val < 1 := (y 0).isLt
  match a with
  | ⟨0, _⟩ => show win0_0.index t 0 * 1 + 1 * (y 0).val = (i 0).val; rw [e0, h0]; omega
  | ⟨1, _⟩ => show win0_0.index t 1 * 5632 + 1 * (y 1).val = (i 1).val; rw [e1, h1]; omega
  | ⟨2, _⟩ => show win0_0.index t 2 * 100 + 1 * (y 2).val = (i 2).val; rw [e2, h2]; omega

theorem blk1_read (A : Vec F S4x100x30 .f32) (t : Fin cfg0.N) (y : S1x100x30.Idx) (i : S4x100x30.Idx)
    (h0 : (i 0).val = t.val / 8) (h1 : (i 1).val = (y 1).val) (h2 : (i 2).val = (y 2).val) :
    (((cfg0.win 1).blk t).view.read (Elt F) A : Vec F S1x100x30 .f32) y = A i := by
  rw [View.read_apply]
  refine congrArg A (funext fun a => Fin.ext ?_)
  obtain ⟨-, -, -, e0, e1, e2, -⟩ := idx_facts t
  have hy0 : (y 0).val < 1 := (y 0).isLt
  match a with
  | ⟨0, _⟩ => show win0_1.index t 0 * 1 + 1 * (y 0).val = (i 0).val; rw [e0, h0]; omega
  | ⟨1, _⟩ => show win0_1.index t 1 * 100 + 1 * (y 1).val = (i 1).val; rw [e1, h1]; omega
  | ⟨2, _⟩ => show win0_1.index t 2 * 30 + 1 * (y 2).val = (i 2).val; rw [e2, h2]; omega

theorem blk2_read (A : Vec F S4x30x45056 .f32) (t : Fin cfg0.N) (y : S1x30x5632.Idx) (i : S4x30x45056.Idx)
    (h0 : (i 0).val = t.val / 8) (h1 : (i 1).val = (y 1).val) (h2 : (i 2).val = t.val % 8 * 5632 + (y 2).val) :
    (((cfg0.win 2).blk t).view.read (Elt F) A : Vec F S1x30x5632 .f32) y = A i := by
  rw [View.read_apply]
  refine congrArg A (funext fun a => Fin.ext ?_)
  obtain ⟨-, -, -, -, -, -, e0, e1, e2, -⟩ := idx_facts t
  have hy0 : (y 0).val < 1 := (y 0).isLt
  match a with
  | ⟨0, _⟩ => show win0_2.index t 0 * 1 + 1 * (y 0).val = (i 0).val; rw [e0, h0]; omega
  | ⟨1, _⟩ => show win0_2.index t 1 * 30 + 1 * (y 1).val = (i 1).val; rw [e1, h1]; omega
  | ⟨2, _⟩ => show win0_2.index t 2 * 5632 + 1 * (y 2).val = (i 2).val; rw [e2, h2]; omega

theorem blk3_read (A : Vec F S4x30x2 .f32) (t : Fin cfg0.N) (y : S1x30x2.Idx) (i : S4x30x2.Idx)
    (h0 : (i 0).val = t.val / 8) (h1 : (i 1).val = (y 1).val) (h2 : (i 2).val = (y 2).val) :
    (((cfg0.win 3).blk t).view.read (Elt F) A : Vec F S1x30x2 .f32) y = A i := by
  rw [View.read_apply]
  refine congrArg A (funext fun a => Fin.ext ?_)
  obtain ⟨-, -, -, -, -, -, -, -, -, e0, e1, e2⟩ := idx_facts t
  have hy0 : (y 0).val < 1 := (y 0).isLt
  match a with
  | ⟨0, _⟩ => show win0_3.index t 0 * 1 + 1 * (y 0).val = (i 0).val; rw [e0, h0]; omega
  | ⟨1, _⟩ => show win0_3.index t 1 * 30 + 1 * (y 1).val = (i 1).val; rw [e1, h1]; omega
  | ⟨2, _⟩ => show win0_3.index t 2 * 2 + 1 * (y 2).val = (i 2).val; rw [e2, h2]; omega

theorem coords_facts : ∀ t : Fin cfg0.N, ((grid0.coords t) 0).val = t.val / 8 ∧ ((grid0.coords t) 1).val = t.val % 8 :=
  (by decide +kernel : ∀ t : Fin grid0.N, _)

-- Entry (b, ·, ·) of the result lies in the block of position 8 * b + 7, the last tile of row b.
theorem cover3 (i : S4x30x2.Idx) :
    ∃ t : Fin cfg0.N, (cfg0.win 3).flush t = true ∧ i ∈ ((cfg0.win 3).blk t).view.set := by
  have hi0 : (i 0).val < 4 := (i 0).isLt
  have hi1 : (i 1).val < 30 := (i 1).isLt
  have hi2 : (i 2).val < 2 := (i 2).isLt
  have hN : cfg0.N = 32 := N32
  let t : Fin cfg0.N := ⟨8 * (i 0).val + 7, by omega⟩
  have ht : t.val = 8 * (i 0).val + 7 := rfl
  refine ⟨t, (flush0_3 t).mpr (by rw [ht]; omega), ?_⟩
  show i ∈ ((View.whole main_v74).slice (win0_3.rect t)).set
  rw [View.set_slice_whole, Rect.mem_set_unit]
  obtain ⟨-, -, -, -, -, -, -, -, -, e0, e1, e2⟩ := idx_facts t
  intro a
  match a with
  | ⟨0, _⟩ => show win0_3.index t 0 * 1 ≤ (i 0).val ∧ (i 0).val < win0_3.index t 0 * 1 + 1; rw [e0, ht]; omega
  | ⟨1, _⟩ => show win0_3.index t 1 * 30 ≤ (i 1).val ∧ (i 1).val < win0_3.index t 1 * 30 + 30; rw [e1]; omega
  | ⟨2, _⟩ => show win0_3.index t 2 * 2 ≤ (i 2).val ∧ (i 2).val < win0_3.index t 2 * 2 + 2; rw [e2]; omega

end Cert.KernelIdeal.KVal

end
-- ==== Proof.KernelArrays.lean ====
import proofs.«422094_j90494960927125_3_alg».proof.Proof.FrameRuns
import proofs.«422094_j90494960927125_3_alg».proof.Proof.PointValues
import proofs.«422094_j90494960927125_3_alg».proof.Proof.KernelGeom
import proofs.«422094_j90494960927125_3_alg».proof.Proof.TileSum

noncomputable section

open Idealize.ShloMosaic Idealize.ShloMosaic.TcCoe Idealize.SL.Sem Idealize.ShloMosaic.ValueIdx

namespace Cert.KernelIdeal.KVal

open Cert.KernelIdeal Cert.KernelIdeal.Gen Cert.KernelIdeal.GenH Cert.KernelIdeal.PointVals

variable (m : (ℓ : Loc nD τ sig) → Buf (Elt Ideal) ℓ) (c : Dev nD) (t : Fin cfg0.N) (mm : Fin 30) (j : Fin 5632)

abbrev xarr : Vec Ideal S4x45056x100 .f32 := V m c main_v71

abbrev oarr : Vec Ideal S4x100x30 .f32 := V m c main_v69

abbrev tarr : Vec Ideal S4x30x45056 .f32 := V m c main_v73

abbrev xblk : Vec Ideal S1x5632x100 .f32 := iblk m c 0 t

abbrev oblk : Vec Ideal S1x100x30 .f32 := iblk m c 1 t

abbrev tblk : Vec Ideal S1x30x5632 .f32 := iblk m c 2 t

theorem row_lt : t.val / 8 < 4 := by
  have h := t.isLt
  have hN : cfg0.N = 32 := N32
  omega

theorem lane_lt : t.val % 8 * 5632 + j.val < 45056 := by
  have h := j.isLt
  omega

-- The matched logit of mask mm at row b, position n: ∑ q, logits (b, n, q) * selector (b, q, mm); zero outside the arrays.
def spA (b n : ℕ) : EReal :=
  if h : b < 4 ∧ n < 45056 then ∑ q : Fin 100, xarr m c (ix3 ⟨b, h.1⟩ ⟨n, h.2⟩ q) * oarr m c (ix3 ⟨b, h.1⟩ q mm) else 0

def stA (b n : ℕ) : EReal :=
  if h : b < 4 ∧ n < 45056 then tarr m c (ix3 ⟨b, h.1⟩ mm ⟨n, h.2⟩) else 0

theorem spT_blk :
    spT (xblk m c t) (oblk m c t) mm j = spA m c mm (t.val / 8) (t.val % 8 * 5632 + j.val) := by
  unfold spT spA
  rw [dif_pos ⟨row_lt t, lane_lt t j⟩]
  exact Finset.sum_congr rfl fun q _ => congrArg₂ (· * ·)
    (blk0_read _ t (ix3 (0 : Fin 1) j q) _ rfl rfl rfl) (blk1_read _ t (ix3 (0 : Fin 1) q mm) _ rfl rfl rfl)

theorem st_blk :
    tblk m c t (ix3 (0 : Fin 1) mm j) = stA m c mm (t.val / 8) (t.val % 8 * 5632 + j.val) := by
  unfold stA
  rw [dif_pos ⟨row_lt t, lane_lt t j⟩]
  exact blk2_read _ t (ix3 (0 : Fin 1) mm j) _ rfl rfl rfl

-- The four summands at row b, position n: the cross entropy, the clipped probability times the target, the clipped probability, the target.
def g0 (b n : ℕ) : EReal := Cert.Spec.bceK (spA m c mm b n) (stA m c mm b n)

def g1 (b n : ℕ) : EReal := Cert.Spec.pK (spA m c mm b n) * stA m c mm b n

def g2 (b n : ℕ) : EReal := Cert.Spec.pK (spA m c mm b n)

def g3 (b n : ℕ) : EReal := stA m c mm b n

-- Lane j of tile t % 8 is position (t % 8) * 5632 + j of row t / 8, so a masked lane sum is that tile of the row's masked sums.
theorem tile_of_terms (f : Fin 5632 → EReal) (g : ℕ → EReal)
    (hfg : ∀ j : Fin 5632, f j = g (t.val % 8 * 5632 + j.val)) :
    (∑ j : Fin 5632, if valid ((grid0.coords t) 1).val j then f j else 0) = tileSum 5632 45000 g (t.val % 8) := by
  unfold tileSum
  rw [(coords_facts t).2]
  refine Finset.sum_congr rfl fun j _ => ?_
  by_cases hv : valid (t.val % 8) j
  · rw [if_pos hv, if_pos (show t.val % 8 * 5632 + j.val < 45000 from hv), hfg j]
  · rw [if_neg hv, if_neg (show ¬t.val % 8 * 5632 + j.val < 45000 from hv)]

theorem tile0 :
    (∑ j : Fin 5632, if valid ((grid0.coords t) 1).val j
        then Cert.Spec.bceK (spT (xblk m c t) (oblk m c t) mm j) (tblk m c t (ix3 (0 : Fin 1) mm j)) else 0)
      = tileSum 5632 45000 (g0 m c mm (t.val / 8)) (t.val % 8) :=
  tile_of_terms t _ _ fun j => by rw [spT_blk, st_blk]; rfl

theorem tile1 :
    (∑ j : Fin 5632, if valid ((grid0.coords t) 1).val j
        then Cert.Spec.pK (spT (xblk m c t) (oblk m c t) mm j) * tblk m c t (ix3 (0 : Fin 1) mm j) else 0)
      = tileSum 5632 45000 (g1 m c mm (t.val / 8)) (t.val % 8) :=
  tile_of_terms t _ _ fun j => by rw [spT_blk, st_blk]; rfl

theorem tile2 :
    (∑ j : Fin 5632, if valid ((grid0.coords t) 1).val j
        then Cert.Spec.pK (spT (xblk m c t) (oblk m c t) mm j) else 0)
      = tileSum 5632 45000 (g2 m c mm (t.val / 8)) (t.val % 8) :=
  tile_of_terms t _ _ fun j => by rw [spT_blk]; rfl

theorem tile3 :
    (∑ j : Fin 5632, if valid ((grid0.coords t) 1).val j then tblk m c t (ix3 (0 : Fin 1) mm j) else 0)
      = tileSum 5632 45000 (g3 m c mm (t.val / 8)) (t.val % 8) :=
  tile_of_terms t _ _ fun j => by rw [st_blk]; rfl

end Cert.KernelIdeal.KVal

end
-- ==== Proof.KernelValue.lean ====
import proofs.«422094_j90494960927125_3_alg».proof.Proof.FrameCert
import proofs.«422094_j90494960927125_3_alg».proof.Proof.PointValues
import proofs.«422094_j90494960927125_3_alg».proof.Proof.Pieces
import proofs.«422094_j90494960927125_3_alg».proof.Proof.TileSum
import proofs.«422094_j90494960927125_3_alg».proof.Proof.KernelTail
import proofs.«422094_j90494960927125_3_alg».proof.Proof.KernelGeom
import proofs.«422094_j90494960927125_3_alg».proof.Proof.KernelArrays
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.KernelIdeal.GenH Cert.KernelIdeal.PointVals

variable (m : (ℓ : Loc nD τ sig) → Buf (Elt Ideal) ℓ) (ρ : Dev nD → PrngReg) (c : Dev nD) (mm : Fin 30) (t : Fin cfg0.N)

-- At the first tile of a row each running column is its new column over the zero column; at a later tile, over what the position before left.
theorem cols_A (h0 : t.val % 8 = 0) :
    (outsAt0 m c t.val t.isLt).2.1 = col0 (grid0.coords t) (xblk m c t) (oblk m c t) (tblk m c t) (k0_pay3 (F := Ideal))
    ∧ (outsAt0 m c t.val t.isLt).2.2.1 = col1 (grid0.coords t) (xblk m c t) (oblk m c t) (tblk m c t) (k0_pay4 (F := Ideal))
    ∧ (outsAt0 m c t.val t.isLt).2.2.2.1 = col2 (grid0.coords t) (xblk m c t) (oblk m c t) (k0_pay5 (F := Ideal))
    ∧ (outsAt0 m c t.val t.isLt).2.2.2.2 = col3 (grid0.coords t) (tblk m c t) (k0_pay6 (F := Ideal)) := by
  rw [outsAt0_A m c t h0 (by omega)]
  unfold caseA0
  dsimp only
  exact sout_A (F := Ideal) ..

theorem cols_BC (h0 : ¬t.val % 8 = 0) :
    (outsAt0 m c t.val t.isLt).2.1 = col0 (grid0.coords t) (xblk m c t) (oblk m c t) (tblk m c t)
        (outsAt0 m c (t.val - 1) (Nat.lt_of_le_of_lt (Nat.sub_le _ _) t.isLt)).2.1
    ∧ (outsAt0 m c t.val t.isLt).2.2.1 = col1 (grid0.coords t) (xblk m c t) (oblk m c t) (tblk m c t)
        (outsAt0 m c (t.val - 1) (Nat.lt_of_le_of_lt (Nat.sub_le _ _) t.isLt)).2.2.1
    ∧ (outsAt0 m c t.val t.isLt).2.2.2.1 = col2 (grid0.coords t) (xblk m c t) (oblk m c t)
        (outsAt0 m c (t.val - 1) (Nat.lt_of_le_of_lt (Nat.sub_le _ _) t.isLt)).2.2.2.1
    ∧ (outsAt0 m c t.val t.isLt).2.2.2.2 = col3 (grid0.coords t) (tblk m c t)
        (outsAt0 m c (t.val - 1) (Nat.lt_of_le_of_lt (Nat.sub_le _ _) t.isLt)).2.2.2.2 := by
  by_cases h1 : t.val % 8 = 7
  · rw [outsAt0_C m c t h0 h1]
    unfold caseC0
    dsimp only
    exact (sout_C (F := Ideal) ..).2
  · rw [outsAt0_B m c t h0 h1]
    unfold caseB0
    dsimp only
    exact sout_B (F := Ideal) ..

theorem out_C (h7 : t.val % 8 = 7) :
    (outsAt0 m c t.val t.isLt).1 = k0_pay2 (outsAt0 m c t.val t.isLt).2.1 (outsAt0 m c t.val t.isLt).2.2.1
      (outsAt0 m c t.val t.isLt).2.2.2.1 (outsAt0 m c t.val t.isLt).2.2.2.2 := by
  have h := cols_BC m c t (by omega)
  rw [h.1, h.2.1, h.2.2.1, h.2.2.2, outsAt0_C m c t (by omega) h7]
  unfold caseC0
  dsimp only
  exact (sout_C (F := Ideal) ..).1

-- Tile 0 of a row restarts each sum from zero and every later tile adds its masked lane sum, so at the last tile the sum is whole.
theorem full0 (h7 : t.val % 8 = 7) :
    (outsAt0 m c t.val t.isLt).2.1 (ix2 mm (0 : Fin 1)) = ∑ n : Fin 45000, g0 m c mm (t.val / 8) n.val :=
  acc_final 5632 45000 (by omega) (fun n h => (outsAt0 m c n h).2.1 (ix2 mm (0 : Fin 1))) (fun b => g0 m c mm b)
    (fun n h h0 => by rw [(cols_A m c ⟨n, h⟩ h0).1, col0_apply, (zero_cols _).1, tile0 m c ⟨n, h⟩ mm, h0])
    (fun n h h0 => by rw [(cols_BC m c ⟨n, h⟩ h0).1, col0_apply, tile0 m c ⟨n, h⟩ mm]) t.val t.isLt h7

theorem full1 (h7 : t.val % 8 = 7) :
    (outsAt0 m c t.val t.isLt).2.2.1 (ix2 mm (0 : Fin 1)) = ∑ n : Fin 45000, g1 m c mm (t.val / 8) n.val :=
  acc_final 5632 45000 (by omega) (fun n h => (outsAt0 m c n h).2.2.1 (ix2 mm (0 : Fin 1))) (fun b => g1 m c mm b)
    (fun n h h0 => by rw [(cols_A m c ⟨n, h⟩ h0).2.1, col1_apply, (zero_cols _).2.1, tile1 m c ⟨n, h⟩ mm, h0])
    (fun n h h0 => by rw [(cols_BC m c ⟨n, h⟩ h0).2.1, col1_apply, tile1 m c ⟨n, h⟩ mm]) t.val t.isLt h7

theorem full2 (h7 : t.val % 8 = 7) :
    (outsAt0 m c t.val t.isLt).2.2.2.1 (ix2 mm (0 : Fin 1)) = ∑ n : Fin 45000, g2 m c mm (t.val / 8) n.val :=
  acc_final 5632 45000 (by omega) (fun n h => (outsAt0 m c n h).2.2.2.1 (ix2 mm (0 : Fin 1))) (fun b => g2 m c mm b)
    (fun n h h0 => by rw [(cols_A m c ⟨n, h⟩ h0).2.2.1, col2_apply, (zero_cols _).2.2.1, tile2 m c ⟨n, h⟩ mm, h0])
    (fun n h h0 => by rw [(cols_BC m c ⟨n, h⟩ h0).2.2.1, col2_apply, tile2 m c ⟨n, h⟩ mm]) t.val t.isLt h7

theorem full3 (h7 : t.val % 8 = 7) :
    (outsAt0 m c t.val t.isLt).2.2.2.2 (ix2 mm (0 : Fin 1)) = ∑ n : Fin 45000, g3 m c mm (t.val / 8) n.val :=
  acc_final 5632 45000 (by omega) (fun n h => (outsAt0 m c n h).2.2.2.2 (ix2 mm (0 : Fin 1))) (fun b => g3 m c mm b)
    (fun n h h0 => by rw [(cols_A m c ⟨n, h⟩ h0).2.2.2, col3_apply, (zero_cols _).2.2.2, tile3 m c ⟨n, h⟩ mm, h0])
    (fun n h h0 => by rw [(cols_BC m c ⟨n, h⟩ h0).2.2.2, col3_apply, tile3 m c ⟨n, h⟩ mm]) t.val t.isLt h7

-- Entry (b, mm, 0) is the mean cross entropy of mask mm of row b over the 45000 points, entry (b, mm, 1) its dice loss 1 - (2 ∑ p t + 1) / (∑ p + ∑ t + 1).
def G : Vec Ideal S4x30x2 .f32 := fun i =>
  if (i 2).val = 0 then (∑ n : Fin 45000, g0 m c (i 1) (i 0).val n.val) * inv45000
  else 1 - Ideal.div (Ideal.ofBits .f32 0x40000000#32 * (∑ n : Fin 45000, g1 m c (i 1) (i 0).val n.val) + 1)
      ((∑ n : Fin 45000, g2 m c (i 1) (i 0).val n.val) + (∑ n : Fin 45000, g3 m c (i 1) (i 0).val n.val) + 1)

theorem out_C_apply (h7 : t.val % 8 = 7) (y : S1x30x2.Idx) :
    (outsAt0 m c t.val t.isLt).1 y
      = (((cfg0.win 3).blk t).view.read (Elt Ideal) (G m c) : Vec Ideal S1x30x2 .f32) y := by
  obtain ⟨a, mm, k, rfl⟩ : ∃ (a : Fin 1) (mm : Fin 30) (k : Fin 2), y = ix3 a mm k := ⟨y 0, y 1, y 2, eq_ix3 y⟩
  obtain rfl : a = 0 := Subsingleton.elim _ _
  rw [blk3_read (G m c) t (ix3 (0 : Fin 1) mm k) (ix3 ⟨t.val / 8, row_lt t⟩ mm k) rfl rfl rfl, out_C m c t h7]
  match k with
  | ⟨0, _⟩ =>
    refine (pay2_apply0 mm _ _ _ _).trans ?_
    rw [full0 m c mm t h7]
    rfl
  | ⟨1, _⟩ =>
    refine (pay2_apply1 mm _ _ _ _).trans ?_
    rw [full1 m c mm t h7, full2 m c mm t h7, full3 m c mm t h7]
    rfl

theorem flushed_eq (hf : (cfg0.win 3).flush t = true) :
    (dats m 0 c).flushed 3 t = ((cfg0.win 3).blk t).view.read (Elt Ideal) (G m c) := by
  have h7 : t.val % 8 = 7 := (flush0_3 t).mp hf
  show (cfg0.win 3).cut (grid0.coords t) ((dats m 0 c).after 3 t) = _
  rw [after0_3]
  exact funext fun y => out_C_apply m c t h7 y

-- The blocks written at the last tile of each row cover the result array, and each is its block of G.
theorem final_out : (dats m 0 c).arrAt 3 cfg0.N = G m c :=
  (dats m 0 c).arrAt_eq_of_cover 3 (G m c) (flushed_eq m c) fun i => cover3 i

theorem result_eq :
    Pipeline.afterTail₀ cfgs (dats m) 0 (V0 m) [hostOps1] c main_v89 = tailK (G m c) (V m c main_v44) := by
  unfold Pipeline.afterTail₀
  show StableHlo.after hostOps1 _ (Proc.devRef .tc main_v89) = _
  rw [after_hostOps1]
  refine congrArg₂ tailK ?_ ?_
  · exact (Pipeline.withArrays_arr spec0 launch0.win.arr_inj c _ _ 3).trans (final_out m c)
  · exact Pipeline.withArrays_of_ne spec0 c _ _ main_v44 (by decide)

theorem run : θ_run defs (onTc (τ := τ) (main (F := Ideal))) ⟨m, fun _ => 0, ρ⟩ fun r => ∀ c : Dev nD,
      r.2.mem ((c.tc : Thread nD τ).loc main_v89) = tailK (G m c) (V m c main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v89 (Pipeline.mem_restRefs_of main_v89 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩)
    (run_main m ρ)

end Cert.KernelIdeal.KVal

end
-- ==== Proof.IdxFns.lean ====
import Idealize.ShloMosaic.Lib.ValueIdx

namespace Cert.Idx

open Idealize.ShloMosaic Idealize.ShloMosaic.ValueIdx

def srcAt (x4 : (⟨2, ![4, 30]⟩ : Shape).Idx → BitVec 32) (b : Fin 4) (i : Fin 30) : Fin 100 :=
  ⟨min (x4 (ix2 b i)).toInt.toNat 99, by omega⟩
def tgtAt (x5 : (⟨2, ![4, 30]⟩ : Shape).Idx → BitVec 32) (b : Fin 4) (i : Fin 30) : Fin 30 :=
  ⟨min (x5 (ix2 b i)).toInt.toNat 29, by omega⟩
def sampAt (x6 : (⟨2, ![4, 45000]⟩ : Shape).Idx → BitVec 32) (b : Fin 4) (n : Fin 45000) : Fin 80000 :=
  ⟨min (x6 (ix2 b n)).toInt.toNat 79999, by omega⟩

def spAt (x1 : (⟨3, ![4, 80000, 100]⟩ : Shape).Idx → EReal) (x4 : (⟨2, ![4, 30]⟩ : Shape).Idx → BitVec 32)
    (x6 : (⟨2, ![4, 45000]⟩ : Shape).Idx → BitVec 32) (b : Fin 4) (i : Fin 30) (n : Fin 45000) : EReal :=
  x1 (ix3 b (sampAt x6 b n) (srcAt x4 b i))
def stAt (x2 : (⟨3, ![4, 30, 80000]⟩ : Shape).Idx → EReal) (x5 : (⟨2, ![4, 30]⟩ : Shape).Idx → BitVec 32)
    (x6 : (⟨2, ![4, 45000]⟩ : Shape).Idx → BitVec 32) (b : Fin 4) (i : Fin 30) (n : Fin 45000) : EReal :=
  x2 (ix3 b (tgtAt x5 b i) (sampAt x6 b n))

variable (x4 x5 : (⟨2, ![4, 30]⟩ : Shape).Idx → BitVec 32)

-- On a word already in range the clamp is the identity.
theorem srcAt_toInt (h : ∀ k, 0 ≤ (x4 k).toInt ∧ (x4 k).toInt < 100) (b : Fin 4) (i : Fin 30) :
    ((srcAt x4 b i).val : Int) = (x4 (ix2 b i)).toInt := by
  show ((min _ 99 : Nat) : Int) = _; have := h (ix2 b i); omega
theorem tgtAt_toInt (h : ∀ k, 0 ≤ (x5 k).toInt ∧ (x5 k).toInt < 30) (b : Fin 4) (i : Fin 30) :
    ((tgtAt x5 b i).val : Int) = (x5 (ix2 b i)).toInt := by
  show ((min _ 29 : Nat) : Int) = _; have := h (ix2 b i); omega

end Cert.Idx
-- ==== Proof.HostPrefix.lean ====
import proofs.«422094_j90494960927125_3_alg».proof.Proof.Gen.KernelIdeal
import proofs.«422094_j90494960927125_3_alg».proof.Proof.IdxFns
import Idealize.ShloMosaic.Lib.ValueIdx
import Idealize.ShloMosaic.Lib.ValueIdxCoords
import Idealize.ShloMosaic.Lib.KernelVsHost
import Idealize.ShloMosaic.Lib.Pipeline.Value
import Idealize.ShloMosaic.Lib.Affine
import Idealize.ShloMosaic.Lib.IdealHost
import Idealize.ShloMosaic.Lib.StableHlo.Run

noncomputable section

namespace Cert.KernelIdeal.HostVals

open Cert.KernelIdeal Cert.KernelIdeal.Gen Idealize.ShloMosaic Idealize.ShloMosaic.ValueIdx

section ScatterConst
open Classical
variable {ι κ α : Type} {s si u : Shape} {w : Nat}

-- Steps that each write c at one place, or nowhere, leave c where some step writes and the start elsewhere.
theorem foldl_set (φ : (κ → α) → ι → κ → α) (g : ι → Option κ) (c : α)
    (hpos : ∀ r n i, g n = some i → φ r n i = c) (hneg : ∀ r n i, g n ≠ some i → φ r n i = r i) (i : κ) :
    ∀ (l : List ι) (x : κ → α) [Decidable (∃ n ∈ l, g n = some i)],
      l.foldl φ x i = if ∃ n ∈ l, g n = some i then c else x i
  | [], x, _ => by simp
  | n :: l, x, _ => by
    rw [List.foldl_cons, foldl_set φ g c hpos hneg i l]
    by_cases hn : g n = some i
    · rw [hpos _ _ _ hn, if_pos (⟨n, List.mem_cons_self, hn⟩ : ∃ m ∈ n :: l, g m = some i)]; split <;> rfl
    · rw [hneg _ _ _ hn]
      exact if_congr ⟨fun ⟨m, hm, e⟩ => ⟨m, List.mem_cons_of_mem _ hm, e⟩,
        fun ⟨m, hm, e⟩ => (List.mem_cons.1 hm).elim (fun h => absurd (h ▸ e) hn) fun h => ⟨m, h, e⟩⟩ rfl rfl

-- A scatter of one value: the order of the updates is immaterial.
theorem scatter_const (d : ScatterDims s si u) (x : s.Idx → α) (idx : IVec si w) (upd : u.Idx → α) (c : α)
    (hupd : ∀ k, upd k = c) (i : s.Idx) :
    Host.scatter d (fun _ b => b) x idx upd i = if ∃ k : u.Idx, d.resultIdx? k idx = some i then c else x i := by
  unfold Host.scatter
  rw [foldl_set (g := fun n => d.resultIdx? (u.rowMajor.symm n) idx) (c := c) (i := i)]
  · exact if_congr ⟨fun ⟨n, _, h⟩ => ⟨_, h⟩,
      fun ⟨k, h⟩ => ⟨u.rowMajor k, List.mem_finRange _, by rw [Equiv.symm_apply_apply]; exact h⟩⟩ rfl rfl
  · intro r n i' hg
    simp only [hg]
    rw [if_pos trivial]; exact hupd _
  · intro r n i' hg
    generalize d.resultIdx? (u.rowMajor.symm n) idx = o at hg
    cases o with
    | none => rfl
    | some i₁ => exact if_neg (fun e => hg (by rw [e]))

end ScatterConst

section Gathers
variable {α : Type} {w : Nat}

abbrev gP := gather_S4x80000x100_S4x45000x1_S4x45000x100_2_1_0_0_1_2_11100
abbrev gT := gather_S4x30x80000_S4x45000x1_S4x30x45000_1_2_0_0_2_2_1301

-- The gather along axis 1 at (b, n, q): the operand at (b, clamp idx[b, n, 0], q).
theorem gP_apply (x : S4x80000x100.Idx → α) (idx : IVec S4x45000x1 w) (b : Fin 4) (n : Fin 45000) (q : Fin 100) :
    Host.gather gP x idx (ix3 b n q)
      = x (ix3 b ⟨min (idx (ix3 b n (0 : Fin 1))).toInt.toNat 79999, by omega⟩ q) := by
  unfold Host.gather
  refine congrArg x (funext fun a => Fin.ext ?_)
  match a with
  | ⟨0, _⟩ => show 0 + b.val + 0 = b.val; exact Nat.zero_add _
  | ⟨1, _⟩ =>
    refine congrArg (fun k => min (idx k).toInt.toNat 79999) (funext fun c => Fin.ext ?_)
    match c with
    | ⟨0, _⟩ => rfl
    | ⟨1, _⟩ => rfl
    | ⟨2, _⟩ => rfl
  | ⟨2, _⟩ => show 0 + 0 + q.val = q.val; exact Nat.zero_add _

-- The gather along axis 2 at (b, m, n): the operand at (b, m, clamp idx[b, n, 0]).
theorem gT_apply (x : S4x30x80000.Idx → α) (idx : IVec S4x45000x1 w) (b : Fin 4) (m : Fin 30) (n : Fin 45000) :
    Host.gather gT x idx (ix3 b m n)
      = x (ix3 b m ⟨min (idx (ix3 b n (0 : Fin 1))).toInt.toNat 79999, by omega⟩) := by
  unfold Host.gather
  refine congrArg x (funext fun a => Fin.ext ?_)
  match a with
  | ⟨0, _⟩ => show 0 + b.val + 0 = b.val; exact Nat.zero_add _
  | ⟨1, _⟩ => show 0 + 0 + m.val = m.val; exact Nat.zero_add _
  | ⟨2, _⟩ =>
    refine congrArg (fun k => min (idx k).toInt.toNat 79999) (funext fun c => Fin.ext ?_)
    match c with
    | ⟨0, _⟩ => rfl
    | ⟨1, _⟩ => rfl
    | ⟨2, _⟩ => rfl

end Gathers

section Take

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 by decide]
    exact foldl_andi_one f l fun n hn => h n (List.mem_cons_of_mem _ hn)

-- The wrap of a negative index by the axis length leaves a word that is not negative as it is.
theorem wrap_eq {v : BitVec 32} (h : 0 ≤ v.toInt) (n : BitVec 32) :
    Scalar.select (IntOp.cmpi .slt v 0#32) (IntOp.addi v n) v = v := by
  have hc : IntOp.cmpi .slt v 0#32 = 0#1 := eq_zero_of_ne_one fun e => by
    have := IntOp.cmpi_slt.1 e
    rw [show (0#32 : BitVec 32).toInt = 0 by decide] at this
    omega
  rw [hc, select_zero]

def normIdx (x6 : IVec S4x45000 32) : IVec S4x45000x1 32 :=
  broadcastInDim S4x45000x1 ![0, 1] bcast_S4x45000_S4x45000x1_0_1
    (select (cmpi .slt x6 (broadcastInDim S4x45000 ![] bcast_S_S4x45000 (constantI S_ 32 0#32)))
      (addi x6 (broadcastInDim S4x45000 ![] bcast_S_S4x45000 (constantI S_ 32 80000#32))) x6)

def inRange (v : IVec S4x45000x1 32) : IVec S4x45000 1 :=
  Host.reduce IntOp.andi
    (andi (cmpi .sge v (broadcastInDim S4x45000x1 ![] bcast_S_S4x45000x1 (constantI S_ 32 0#32)))
      (cmpi .sle v (broadcastInDim S4x45000x1 ![0, 1, 2] bcast_S1x1x1_S4x45000x1_0_1_2
        (broadcastInDim S1x1x1 ![2] bcast_S1_S1x1x1_2 (constantI S1 32 79999#32)))))
    (constantI S_ 1 1#1) reducesTo_S4x45000x1_S4x45000_d2 h_S_

theorem inRange_one (v : IVec S4x45000x1 32) (hv : ∀ i, 0 ≤ (v i).toInt ∧ (v i).toInt < 80000) (j : S4x45000.Idx) :
    inRange v j = 1#1 := by
  unfold inRange
  rw [Host.reduce_eq_foldl]
  refine foldl_andi_one _ _ fun i _ => ?_
  show IntOp.andi (IntOp.cmpi .sge (v i) 0#32) (IntOp.cmpi .sle (v i) 79999#32) = 1#1
  refine IntOp.andi_eq_one.2 ⟨IntOp.cmpi_sge.2 ?_, IntOp.cmpi_sle.2 ?_⟩
  · rw [show (0#32 : BitVec 32).toInt = 0 by decide]; exact (hv i).1
  · rw [show (79999#32 : BitVec 32).toInt = 79999 by decide]; have := (hv i).2; omega

def takePred (x1 : FVec Ideal S4x80000x100 .f32) (x6 : IVec S4x45000 32) : FVec Ideal S4x45000x100 .f32 :=
  select (broadcastInDim S4x45000x100 ![0, 1] bcast_S4x45000_S4x45000x100_0_1 (inRange (normIdx x6)))
    (Host.gather gP x1 (normIdx x6))
    (broadcastInDim S4x45000x100 ![] bcast_S_S4x45000x100 (constant (F := Ideal) S_ .f32 0x7FC00000#32))

def predPad (x1 : FVec Ideal S4x80000x100 .f32) (x6 : IVec S4x45000 32) : FVec Ideal S4x45056x100 .f32 :=
  pad S4x45056x100 ![0, 0, 0] ![0, 56, 0] ![0, 0, 0] (takePred x1 x6) (sitofp (F := Ideal) .f32 (constantI S_ 32 0#32))
    pads_S4x45000x100_S4x45056x100_000_0560_000 h_S_

def takeTgt (x2 : FVec Ideal S4x30x80000 .f32) (x6 : IVec S4x45000 32) : FVec Ideal S4x30x45000 .f32 :=
  select (broadcastInDim S4x30x45000 ![0, 2] bcast_S4x45000_S4x30x45000_0_2 (inRange (normIdx x6)))
    (Host.gather gT x2 (normIdx x6))
    (broadcastInDim S4x30x45000 ![] bcast_S_S4x30x45000 (constant (F := Ideal) S_ .f32 0x7FC00000#32))

def tgtPad (x2 : FVec Ideal S4x30x80000 .f32) (x6 : IVec S4x45000 32) : FVec Ideal S4x30x45056 .f32 :=
  pad S4x30x45056 ![0, 0, 0] ![0, 0, 56] ![0, 0, 0] (takeTgt x2 x6) (sitofp (F := Ideal) .f32 (constantI S_ 32 0#32))
    pads_S4x30x45000_S4x30x45056_000_000_0560 h_S_

variable (x1 : FVec Ideal S4x80000x100 .f32) (x2 : FVec Ideal S4x30x80000 .f32) (x6 : IVec S4x45000 32)
  (hS : ∀ i : S4x45000.Idx, 0 ≤ (x6 i).toInt ∧ (x6 i).toInt < 80000)
include hS

-- With no sample index negative the wrap is the identity: every position of a column reads its row's index.
theorem normIdx_eq : normIdx x6 = fun i => x6 (ix2 (i 0) (i 1)) := funext fun i => by
  unfold normIdx
  rw [broadcastInDim_apply _ bcast_S4x45000_S4x45000x1_0_1 _ i (ix2 (i 0) (i 1)) (fun a => by fin_cases a <;> rfl)]
  exact wrap_eq (hS _).1 _

theorem takePred_apply (b : Fin 4) (n : Fin 45000) (q : Fin 100) :
    takePred x1 x6 (ix3 b n q) = x1 (ix3 b (Cert.Idx.sampAt x6 b n) q) := by
  unfold takePred
  rw [normIdx_eq x6 hS, select_apply, broadcastInDim_apply _ bcast_S4x45000_S4x45000x100_0_1 _ (ix3 b n q) (ix2 b n)
    (fun a => by fin_cases a <;> rfl), inRange_one _ (fun i => hS _), select_one, gP_apply]
  rfl

-- The sampled rows, zero-padded: the sampled row below position 45000, zero from there on.
theorem predPad_apply (b : Fin 4) (n : Fin 45056) (q : Fin 100) :
    predPad x1 x6 (ix3 b n q)
      = if h : n.val < 45000 then x1 (ix3 b (Cert.Idx.sampAt x6 b ⟨n.val, h⟩) q) else 0 := by
  unfold predPad
  by_cases h : n.val < 45000
  · rw [dif_pos h, pad_apply_of_inside _ _ _ _ _ pads_S4x45000x100_S4x45056x100_000_0560_000 h_S_ (ix3 b n q)
      (ix3 b ⟨n.val, h⟩ q) (fun a => match a with
        | ⟨0, _⟩ => by show b.val = 0 + b.val * (0 + 1); omega
        | ⟨1, _⟩ => by show n.val = 0 + n.val * (0 + 1); omega
        | ⟨2, _⟩ => by show q.val = 0 + q.val * (0 + 1); omega)]
    exact takePred_apply x1 x6 hS b ⟨n.val, h⟩ q
  · rw [dif_neg h, pad_apply_of_not_inside _ _ _ _ _ pads_S4x45000x100_S4x45056x100_000_0560_000 h_S_ (ix3 b n q) 1
      (fun hh => h (by have h3 : (n.val - 0) / (0 + 1) < 45000 := hh.2.2; omega))]
    exact sitofp_zero

theorem takeTgt_apply (b : Fin 4) (m : Fin 30) (n : Fin 45000) :
    takeTgt x2 x6 (ix3 b m n) = x2 (ix3 b m (Cert.Idx.sampAt x6 b n)) := by
  unfold takeTgt
  rw [normIdx_eq x6 hS, select_apply, broadcastInDim_apply _ bcast_S4x45000_S4x30x45000_0_2 _ (ix3 b m n) (ix2 b n)
    (fun a => by fin_cases a <;> rfl), inRange_one _ (fun i => hS _), select_one, gT_apply]
  rfl

-- The sampled columns, zero-padded: the sampled column below position 45000, zero from there on.
theorem tgtPad_apply (b : Fin 4) (m : Fin 30) (n : Fin 45056) :
    tgtPad x2 x6 (ix3 b m n)
      = if h : n.val < 45000 then x2 (ix3 b m (Cert.Idx.sampAt x6 b ⟨n.val, h⟩)) else 0 := by
  unfold tgtPad
  by_cases h : n.val < 45000
  · rw [dif_pos h, pad_apply_of_inside _ _ _ _ _ pads_S4x30x45000_S4x30x45056_000_000_0560 h_S_ (ix3 b m n)
      (ix3 b m ⟨n.val, h⟩) (fun a => match a with
        | ⟨0, _⟩ => by show b.val = 0 + b.val * (0 + 1); omega
        | ⟨1, _⟩ => by show m.val = 0 + m.val * (0 + 1); omega
        | ⟨2, _⟩ => by show n.val = 0 + n.val * (0 + 1); omega)]
    exact takeTgt_apply x2 x6 hS b m ⟨n.val, h⟩
  · rw [dif_neg h, pad_apply_of_not_inside _ _ _ _ _ pads_S4x30x45000_S4x30x45056_000_000_0560 h_S_ (ix3 b m n) 2
      (fun hh => h (by have h3 : (n.val - 0) / (0 + 1) < 45000 := hh.2.2; omega))]
    exact sitofp_zero

end Take

section Selector
variable {w : Nat}

abbrev scat := scatter_S4x100x30_S4x30x3_S4x30_n_012_012_2

-- An update lands on i exactly when, on every axis, its start plus its window coordinate is i's coordinate.
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hc : ∀ a, 0 ≤ d.start j idx a + d.window j a ∧ d.start j idx a + d.window j a < s.size a
    · rw [dif_pos hc] at h
      have hv : (d.start j idx a + (d.window j a : Int)).toNat = (i a).val :=
        congrArg Fin.val (congrFun (Option.some.inj h) a)
      have := (hc a).1
      omega
    · rw [dif_neg hc] at h; exact absurd h (by simp)
  · intro h
    have hc : ∀ a, 0 ≤ d.start j idx a + d.window j a ∧ d.start j idx a + d.window j a < s.size a := fun a => by
      rw [h a]; have := (i a).isLt; omega
    rw [dif_pos hc]
    refine congrArg some (funext fun a => Fin.ext ?_)
    show (d.start j idx a + (d.window j a : Int)).toNat = (i a).val
    rw [h a]; exact Int.toNat_natCast _

theorem scat_siIdx (j : S4x30.Idx) (a : Fin 3)
    (h : List.idxOf a scat.scatterDimsToOperandDims < scat.scatterDimsToOperandDims.length) :
    scat.siIdx j ⟨List.idxOf a scat.scatterDimsToOperandDims, h⟩ = ix3 (j 0) (j 1) a := by
  funext b; refine Fin.ext ?_
  fin_cases a <;> fin_cases b <;> rfl

-- Update (b, i) starts, on axis a, at component a of its index vector, and has no window.
theorem scat_start (idx : IVec S4x30x3 w) (j : S4x30.Idx) (a : Fin 3) :
    scat.start j idx a + (scat.window j a : Int) = (idx (ix3 (j 0) (j 1) a)).toInt := by
  have hk : ∀ a : Fin 3, a ∉ scat.sKept := by decide
  have hm : ∀ a : Fin 3, a ∈ scat.scatterDimsToOperandDims := by decide
  have hw : scat.window j a = 0 := by
    unfold ScatterDims.window; rw [dif_neg (hk a)]
  rw [hw, Nat.cast_zero, add_zero]
  unfold ScatterDims.start
  rw [dif_pos (hm a), scat_siIdx]
  rfl

def batchCol : IVec S4x30x1 32 :=
  broadcastInDim S4x30x1 ![0, 1] bcast_S4x30_S4x30x1_0_1
    (broadcastInDim S4x30 ![0, 1] bcast_S4x1_S4x30_0_1
      (select
        (cmpi .slt (broadcastInDim S4x1 ![0] bcast_S4_S4x1_0 (iotaInDim S4 32 0))
          (broadcastInDim S4x1 ![] bcast_S_S4x1 (constantI S_ 32 0#32)))
        (addi (broadcastInDim S4x1 ![0] bcast_S4_S4x1_0 (iotaInDim S4 32 0))
          (broadcastInDim S4x1 ![] bcast_S_S4x1 (constantI S_ 32 4#32)))
        (broadcastInDim S4x1 ![0] bcast_S4_S4x1_0 (iotaInDim S4 32 0))))

def wrapCol (N : BitVec 32) (x : IVec S4x30 32) : IVec S4x30x1 32 :=
  broadcastInDim S4x30x1 ![0, 1] bcast_S4x30_S4x30x1_0_1
    (select (cmpi .slt x (broadcastInDim S4x30 ![] bcast_S_S4x30 (constantI S_ 32 0#32)))
      (addi x (broadcastInDim S4x30 ![] bcast_S_S4x30 (constantI S_ 32 N))) x)

def scatIdx (x4 x5 : IVec S4x30 32) : IVec S4x30x3 32 :=
  concatenate S4x30x3 2 [⟨S4x30x1, batchCol⟩, ⟨S4x30x1, wrapCol 100#32 x4⟩, ⟨S4x30x1, wrapCol 30#32 x5⟩]
    concatenates_S4x30x1_S4x30x1_S4x30x1_S4x30x3_d2

def onehot (x4 x5 : IVec S4x30 32) : FVec Ideal S4x100x30 .f32 :=
  Host.scatter scat (fun _ b => b)
    (broadcastInDim S4x100x30 ![] bcast_S_S4x100x30 (constant (F := Ideal) S_ .f32 0x00000000#32))
    (scatIdx x4 x5)
    (broadcastInDim S4x30 ![] bcast_S_S4x30 (constant (F := Ideal) S_ .f32 0x3F800000#32))

theorem toInt_ofNat_batch : ∀ b : Fin 4, (BitVec.ofNat 32 b.val).toInt = (b.val : Int) := by decide

theorem batchCol_apply (b : Fin 4) (i : Fin 30) (z : Fin 1) : batchCol (ix3 b i z) = BitVec.ofNat 32 b.val := by
  unfold batchCol
  rw [broadcastInDim_apply _ bcast_S4x30_S4x30x1_0_1 _ (ix3 b i z) (ix2 b i) (fun a => by fin_cases a <;> rfl),
    broadcastInDim_apply _ bcast_S4x1_S4x30_0_1 _ (ix2 b i) (ix2 b (0 : Fin 1)) (fun a => by fin_cases a <;> rfl)]
  have e : broadcastInDim S4x1 ![0] bcast_S4_S4x1_0 (iotaInDim S4 32 0) (ix2 b (0 : Fin 1)) = BitVec.ofNat 32 b.val := by
    rw [broadcastInDim_apply _ bcast_S4_S4x1_0 _ (ix2 b (0 : Fin 1)) (ix1 b) (fun a => by fin_cases a <;> rfl)]
    rfl
  exact (wrap_eq (by rw [e, toInt_ofNat_batch]; exact Int.natCast_nonneg _) _).trans e

theorem wrapCol_apply (N : BitVec 32) (x : IVec S4x30 32) (b : Fin 4) (i : Fin 30) (z : Fin 1)
    (h : 0 ≤ (x (ix2 b i)).toInt) : wrapCol N x (ix3 b i z) = x (ix2 b i) := by
  unfold wrapCol
  rw [broadcastInDim_apply _ bcast_S4x30_S4x30x1_0_1 _ (ix3 b i z) (ix2 b i) (fun a => by fin_cases a <;> rfl)]
  exact wrap_eq h N

-- Component k of the index vector of update (b, i) is column k at (b, i).
theorem scatIdx_col (x4 x5 : IVec S4x30 32) (b : Fin 4) (i : Fin 30) :
    scatIdx x4 x5 (ix3 b i (0 : Fin 3)) = batchCol (ix3 b i (0 : Fin 1))
    ∧ scatIdx x4 x5 (ix3 b i (1 : Fin 3)) = wrapCol 100#32 x4 (ix3 b i (0 : Fin 1))
    ∧ scatIdx x4 x5 (ix3 b i (2 : Fin 3)) = wrapCol 30#32 x5 (ix3 b i (0 : Fin 1)) := by
  have hi : ∀ (k : Fin 3) (b' : Fin 3), b'.cast (rfl : S4x30x1.rank = S4x30x3.rank) ≠ (2 : Fin 3) →
      ((ix3 b i (0 : Fin 1) : S4x30x1.Idx) b').val = ((ix3 b i k : S4x30x3.Idx) (b'.cast rfl)).val := fun k b' => match b' with
    | ⟨0, _⟩ => fun _ => rfl
    | ⟨1, _⟩ => fun _ => rfl
    | ⟨2, _⟩ => fun h => absurd rfl h
  unfold scatIdx
  exact ⟨concatenate_apply_piece (t := S4x30x3) (2 : Fin 3) _ _ (ix3 b i (0 : Fin 3)) 0 (by show (0 : Nat) < 3; decide)
      S4x30x1 batchCol rfl rfl 0 rfl (ix3 b i (0 : Fin 1)) (hi 0) rfl,
    concatenate_apply_piece (t := S4x30x3) (2 : Fin 3) _ _ (ix3 b i (1 : Fin 3)) 1 (by show (1 : Nat) < 3; decide)
      S4x30x1 (wrapCol 100#32 x4) rfl rfl 1 rfl (ix3 b i (0 : Fin 1)) (hi 1) rfl,
    concatenate_apply_piece (t := S4x30x3) (2 : Fin 3) _ _ (ix3 b i (2 : Fin 3)) 2 (by show (2 : Nat) < 3; decide)
      S4x30x1 (wrapCol 30#32 x5) rfl rfl 2 rfl (ix3 b i (0 : Fin 1)) (hi 2) rfl⟩

variable (x4 x5 : IVec S4x30 32)
  (hsrc : ∀ i : S4x30.Idx, 0 ≤ (x4 i).toInt ∧ (x4 i).toInt < 100)
  (htgt : ∀ i : S4x30.Idx, 0 ≤ (x5 i).toInt ∧ (x5 i).toInt < 30)
include hsrc htgt

-- Update (b', i) lands on (b, q, m) exactly when b' = b, src[b, i] = q and tgt[b, i] = m.
theorem lands_iff (b' b : Fin 4) (i : Fin 30) (q : Fin 100) (m : Fin 30) :
    scat.resultIdx? (ix2 b' i) (scatIdx x4 x5) = some (ix3 b q m)
      ↔ b' = b ∧ (x4 (ix2 b' i)).toInt = (q.val : Int) ∧ (x5 (ix2 b' i)).toInt = (m.val : Int) := by
  rw [resultIdx?_eq_some_iff]
  simp only [scat_start]
  obtain ⟨h0, h1, h2⟩ := scatIdx_col x4 x5 b' i
  have e0 : (scatIdx x4 x5 (ix3 b' i (0 : Fin 3))).toInt = (b'.val : Int) := by
    rw [h0, batchCol_apply]; exact toInt_ofNat_batch b'
  have e1 : scatIdx x4 x5 (ix3 b' i (1 : Fin 3)) = x4 (ix2 b' i) := by rw [h1, wrapCol_apply _ _ _ _ _ (hsrc _).1]
  have e2 : scatIdx x4 x5 (ix3 b' i (2 : Fin 3)) = x5 (ix2 b' i) := by rw [h2, wrapCol_apply _ _ _ _ _ (htgt _).1]
  constructor
  · intro h
    have a0 := h 0; have a1 := h 1; have a2 := h 2
    refine ⟨Fin.ext ?_, ?_, ?_⟩
    · have : (b'.val : Int) = (b.val : Int) := e0 ▸ a0
      omega
    · rw [← e1]; exact a1
    · rw [← e2]; exact a2
  · rintro ⟨rfl, hq, hm⟩ a
    match a with
    | ⟨0, _⟩ => exact e0
    | ⟨1, _⟩ => exact (congrArg BitVec.toInt e1).trans hq
    | ⟨2, _⟩ => exact (congrArg BitVec.toInt e2).trans hm

theorem exists_lands_iff (b : Fin 4) (q : Fin 100) (m : Fin 30) :
    (∃ k : S4x30.Idx, scat.resultIdx? k (scatIdx x4 x5) = some (ix3 b q m))
      ↔ ∃ i : Fin 30, (x4 (ix2 b i)).toInt = (q.val : Int) ∧ (x5 (ix2 b i)).toInt = (m.val : Int) := by
  constructor
  · rintro ⟨k, hk⟩
    rw [eq_ix2 k] at hk
    obtain ⟨hb, hq, hm⟩ := (lands_iff x4 x5 hsrc htgt (k 0) b (k 1) q m).1 hk
    exact ⟨k 1, hb ▸ hq, hb ▸ hm⟩
  · rintro ⟨i, hq, hm⟩
    exact ⟨ix2 b i, (lands_iff x4 x5 hsrc htgt b b i q m).2 ⟨rfl, hq, hm⟩⟩

open Classical in
-- The selector is 1 where some i pairs the row q with the column m, and 0 elsewhere.
theorem onehot_apply (b : Fin 4) (q : Fin 100) (m : Fin 30) :
    onehot x4 x5 (ix3 b q m)
      = if ∃ i : Fin 30, (x4 (ix2 b i)).toInt = (q.val : Int) ∧ (x5 (ix2 b i)).toInt = (m.val : Int) then 1 else 0 := by
  unfold onehot
  rw [scatter_const scat _ _ _ (1 : EReal) (fun k => ?_)]
  · exact if_congr (exists_lands_iff x4 x5 hsrc htgt b q m) rfl Ideal.ofBits_zero_f32
  · exact Ideal.ofBits_one_f32

open Cert.Idx in
-- The target indices of a batch being pairwise distinct, column tgt[b, i] of the selector is the indicator of row src[b, i].
theorem onehot_at_tgtAt (b : Fin 4) (i : Fin 30) (q : Fin 100) (hinj : Function.Injective (tgtAt x5 b)) :
    onehot x4 x5 (ix3 b q (tgtAt x5 b i)) = if q = srcAt x4 b i then 1 else 0 := by
  rw [onehot_apply x4 x5 hsrc htgt]
  refine if_congr ⟨fun ⟨i', hq, hm⟩ => ?_, fun e => ⟨i, ?_, (tgtAt_toInt x5 htgt b i).symm⟩⟩ rfl rfl
  · have : i' = i := hinj (Fin.ext (by
      have h1 := tgtAt_toInt x5 htgt b i'
      have h2 := tgtAt_toInt x5 htgt b i
      omega))
    subst this
    exact Fin.ext (by have := srcAt_toInt x4 hsrc b i'; omega)
  · rw [e]; exact (srcAt_toInt x4 hsrc b i).symm

end Selector

end Cert.KernelIdeal.HostVals
-- ==== Proof.HostLink.lean ====
import proofs.«422094_j90494960927125_3_alg».proof.Proof.FrameRuns
import proofs.«422094_j90494960927125_3_alg».proof.Proof.HostPrefix
import Idealize.ShloMosaic.Lib.StableHlo.Run

set_option maxRecDepth 400000

noncomputable section

namespace Cert.KernelIdeal.HostLink

open Cert.KernelIdeal Cert.KernelIdeal.Gen Cert.KernelIdeal.GenH
open Idealize.ShloMosaic Idealize.ShloMosaic.TcCoe Idealize.SL.Sem Idealize.ShloMosaic.StableHlo

section Nary3
variable {τ' : Topo} {sig' : RefSig} {Val : EltTy → Type} {x a b y : Ref sig' .tc}

theorem nary3_result'
    (f : ((k : Fin 3) → ((![x, a, b] : Fin 3 → Ref sig' .tc) k).ty.Contents Val) → y.ty.Contents Val) (hxs hy)
    (G : Valuation τ' sig' Val) :
    (nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl
end Nary3

theorem after_skip (ops : List (HloOp τ sig (Elt Ideal))) (W : Valuation τ sig (Elt Ideal)) (r : Ref sig .tc)
    (h : ops.Forall fun op => Proc.devRef .tc r ∉ op.writes) :
    StableHlo.after ops W (Proc.devRef .tc r) = W (Proc.devRef .tc r) :=
  StableHlo.after_of_forall_not_mem ops W (List.forall_iff_forall_mem.mp h)

macro "keeps " ops:ident : tactic =>
  `(tactic| (simp only [$ops:ident, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]; (repeat' apply And.intro); all_goals exact StableHlo.devRef_ne_of_ne (by decide)))

macro "stretch_results" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

macro "through6 " r:term : tactic =>
  `(tactic| rw [after_skip hostOps0_6 _ $r (by keeps hostOps0_6), after_skip hostOps0_5 _ $r (by keeps hostOps0_5),
      after_skip hostOps0_4 _ $r (by keeps hostOps0_4), after_skip hostOps0_3 _ $r (by keeps hostOps0_3),
      after_skip hostOps0_2 _ $r (by keeps hostOps0_2), after_skip hostOps0_1 _ $r (by keeps hostOps0_1),
      after_skip hostOps0 _ $r (by keeps hostOps0)])

macro "through9 " r:term : tactic =>
  `(tactic| rw [after_skip hostOps0_9 _ $r (by keeps hostOps0_9), after_skip hostOps0_8 _ $r (by keeps hostOps0_8),
      after_skip hostOps0_7 _ $r (by keeps hostOps0_7)])

variable (W : Valuation τ sig (Elt Ideal))

theorem pad_v71 : StableHlo.after hostOps0_9 W (Proc.devRef .tc main_v71)
    = pad S4x45056x100 ![0, 0, 0] ![0, 56, 0] ![0, 0, 0] (W (Proc.devRef .tc main_v70))
        (sitofp (F := Ideal) .f32 (W (Proc.devRef .tc main_c_22))) pads_S4x45000x100_S4x45056x100_000_0560_000 h_S_ := by
  simp only [hostOps0_9]
  stretch_results
  rfl

theorem zero_c22 : StableHlo.after hostOps0_8 W (Proc.devRef .tc main_c_22) = constantI S_ 32 0#32 := by
  simp only [hostOps0_8]
  stretch_results

theorem take_v70 : StableHlo.after hostOps0_7 W (Proc.devRef .tc main_v70)
    = HostVals.takePred (W (Proc.devRef .tc main_arg1)) (W (Proc.devRef .tc main_arg6)) := by
  simp only [hostOps0_7]
  stretch_results
  rfl

theorem pad_v73 : StableHlo.after hostOps0_12 W (Proc.devRef .tc main_v73)
    = pad S4x30x45056 ![0, 0, 0] ![0, 0, 56] ![0, 0, 0] (W (Proc.devRef .tc main_v72))
        (sitofp (F := Ideal) .f32 (W (Proc.devRef .tc main_c_23))) pads_S4x30x45000_S4x30x45056_000_000_0560 h_S_ := by
  simp only [hostOps0_12]
  stretch_results
  rfl

theorem zero_c23 : StableHlo.after hostOps0_11 W (Proc.devRef .tc main_c_23) = constantI S_ 32 0#32 := by
  simp only [hostOps0_11]
  stretch_results

theorem take_v72 : StableHlo.after hostOps0_10 W (Proc.devRef .tc main_v72)
    = HostVals.takeTgt (W (Proc.devRef .tc main_arg2)) (W (Proc.devRef .tc main_arg6)) := by
  simp only [hostOps0_10]
  stretch_results
  rfl

theorem scatter_v69 : StableHlo.after hostOps0_6 W (Proc.devRef .tc main_v69)
    = HostVals.onehot (W (Proc.devRef .tc main_arg4)) (W (Proc.devRef .tc main_arg5)) := by
  simp only [hostOps0_6]
  stretch_results
  rfl

variable (m : (ℓ : Loc nD τ sig) → Buf (Elt Ideal) ℓ)

theorem V_main_v71 (c : Dev nD) :
    GenH.V m c main_v71
      = HostVals.predPad (m ((c : Thread nD τ).loc main_arg1)) (m ((c : Thread nD τ).loc main_arg6)) := by
  dsimp only [GenH.V, GenH.V0]
  simp only [List.flatten_cons, List.flatten_nil, List.append_nil, StableHlo.after_append]
  rw [after_skip hostOps0_12 _ main_v71 (by keeps hostOps0_12), after_skip hostOps0_11 _ main_v71 (by keeps hostOps0_11),
    after_skip hostOps0_10 _ main_v71 (by keeps hostOps0_10), pad_v71, zero_c22,
    after_skip hostOps0_8 _ main_v70 (by keeps hostOps0_8), take_v70]
  through6 main_arg1
  through6 main_arg6
  rfl

theorem V_main_v73 (c : Dev nD) :
    GenH.V m c main_v73
      = HostVals.tgtPad (m ((c : Thread nD τ).loc main_arg2)) (m ((c : Thread nD τ).loc main_arg6)) := by
  dsimp only [GenH.V, GenH.V0]
  simp only [List.flatten_cons, List.flatten_nil, List.append_nil, StableHlo.after_append]
  rw [pad_v73, zero_c23, after_skip hostOps0_11 _ main_v72 (by keeps hostOps0_11), take_v72]
  through9 main_arg2
  through6 main_arg2
  through9 main_arg6
  through6 main_arg6
  rfl

theorem V_main_v69 (c : Dev nD) :
    GenH.V m c main_v69
      = HostVals.onehot (m ((c : Thread nD τ).loc main_arg4)) (m ((c : Thread nD τ).loc main_arg5)) := by
  dsimp only [GenH.V, GenH.V0]
  simp only [List.flatten_cons, List.flatten_nil, List.append_nil, StableHlo.after_append]
  rw [after_skip hostOps0_12 _ main_v69 (by keeps hostOps0_12), after_skip hostOps0_11 _ main_v69 (by keeps hostOps0_11),
    after_skip hostOps0_10 _ main_v69 (by keeps hostOps0_10), after_skip hostOps0_9 _ main_v69 (by keeps hostOps0_9),
    after_skip hostOps0_8 _ main_v69 (by keeps hostOps0_8), after_skip hostOps0_7 _ main_v69 (by keeps hostOps0_7), scatter_v69]
  rw [after_skip hostOps0_5 _ main_arg4 (by keeps hostOps0_5), after_skip hostOps0_4 _ main_arg4 (by keeps hostOps0_4),
    after_skip hostOps0_3 _ main_arg4 (by keeps hostOps0_3), after_skip hostOps0_2 _ main_arg4 (by keeps hostOps0_2),
    after_skip hostOps0_1 _ main_arg4 (by keeps hostOps0_1), after_skip hostOps0 _ main_arg4 (by keeps hostOps0)]
  rw [after_skip hostOps0_5 _ main_arg5 (by keeps hostOps0_5), after_skip hostOps0_4 _ main_arg5 (by keeps hostOps0_4),
    after_skip hostOps0_3 _ main_arg5 (by keeps hostOps0_3), after_skip hostOps0_2 _ main_arg5 (by keeps hostOps0_2),
    after_skip hostOps0_1 _ main_arg5 (by keeps hostOps0_1), after_skip hostOps0 _ main_arg5 (by keeps hostOps0)]

end Cert.KernelIdeal.HostLink
-- ==== Proof.Bridge.lean ====
import proofs.«422094_j90494960927125_3_alg».proof.Proof.Spec
import Idealize.ShloMosaic.PureOps.Ideal
import Idealize.ShloMosaic.PureOps.Ideal.Laws
import Idealize.ShloMosaic.Lib.ValueIdx
import Mathlib.Data.EReal.Basic
import Mathlib.Data.EReal.Inv
import Mathlib.Analysis.SpecialFunctions.Exp
import Mathlib.Algebra.BigOperators.Group.Finset.Basic
import Mathlib.Data.Fintype.BigOperators
import Mathlib.Logic.Equiv.Fintype

noncomputable section

namespace Cert.Bridge

open Idealize.ShloMosaic
open scoped BigOperators

theorem exists_real_of_abs_lt_top {x : EReal} (h : max x (-x) < ⊤) : ∃ r : ℝ, x = (r : EReal) := by
  induction x using EReal.rec with
  | bot => simp at h
  | coe r => exact ⟨r, rfl⟩
  | top => simp at h

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem exists_real_sum {ι : Type*} (s : Finset ι) (f : ι → EReal) (hf : ∀ i ∈ s, ∃ r : ℝ, f i = (r : EReal)) :
    ∃ r : ℝ, ∑ i ∈ s, f i = (r : EReal) := by
  classical
  choose! g hg using hf
  exact ⟨∑ i ∈ s, g i, by rw [← coe_sum]; exact Finset.sum_congr rfl hg⟩

theorem abs_coe (r : ℝ) : max (r : EReal) (-(r : EReal)) = ((|r| : ℝ) : EReal) := by
  rw [← EReal.coe_neg, ← EReal.coe_strictMono.monotone.map_max]; rfl

theorem zero_sub_eq_neg (a : EReal) : 0 - a = -a := by rw [sub_eq_add_neg, zero_add]

theorem eK_coe (r : ℝ) : Cert.Spec.eK (r : EReal) = ((Real.exp (-|r|) : ℝ) : EReal) := by
  rw [Cert.Spec.eK, Cert.Spec.absE, zero_sub_eq_neg, abs_coe, ← EReal.coe_neg, Ideal.exp_coe]

theorem bceK_eq_bceR' (x s : EReal) : Cert.Spec.bceK x s = Cert.Spec.bceR x s := by
  rw [Cert.Spec.bceK, Cert.Spec.bceR, Cert.Spec.eK, zero_sub_eq_neg, max_comm x 0]

theorem bceK_eq_bceR (r : ℝ) (s : EReal) : Cert.Spec.bceK (r : EReal) s = Cert.Spec.bceR (r : EReal) s :=
  bceK_eq_bceR' _ s

theorem bceK_coe (r t : ℝ) :
    Cert.Spec.bceK (r : EReal) (t : EReal)
      = ((max r 0 - r * t + Real.log (1 + Real.exp (-|r|)) : ℝ) : EReal) := by
  have hpos : ¬ (1 + Real.exp (-|r|) ≤ 0) := not_le.mpr (by positivity)
  rw [Cert.Spec.bceK, eK_coe, Ideal.log1p, ← EReal.coe_one, ← EReal.coe_add, Ideal.log_coe, if_neg hpos,
    ← EReal.coe_zero, ← EReal.coe_strictMono.monotone.map_max, ← EReal.coe_mul, ← EReal.coe_sub, ← EReal.coe_add]

theorem sigK_coe (r : ℝ) :
    Ideal.div (if (0 : EReal) ≤ (r : EReal) then (1 : EReal) else Cert.Spec.eK (r : EReal))
        (1 + Cert.Spec.eK (r : EReal))
      = (((1 + Real.exp (-r))⁻¹ : ℝ) : EReal) := by
  have hne : (1 + Real.exp (-|r|)) ≠ 0 := by positivity
  rw [eK_coe, ← EReal.coe_one, ← EReal.coe_add, Ideal.div_coe hne]
  by_cases h : 0 ≤ r
  · rw [if_pos (by exact_mod_cast h), ← EReal.coe_mul, abs_of_nonneg h]
    congr 1; field_simp
  · rw [if_neg (by exact_mod_cast h), ← EReal.coe_mul, abs_of_neg (not_le.mp h), neg_neg]
    congr 1
    have he : Real.exp (-r) = (Real.exp r)⁻¹ := Real.exp_neg r
    have hpos : 0 < Real.exp r := Real.exp_pos r
    rw [he]; field_simp; ring

theorem sigR_coe (r : ℝ) :
    Ideal.div 1 (1 + Ideal.exp (-(r : EReal))) = (((1 + Real.exp (-r))⁻¹ : ℝ) : EReal) :=
  Ideal.logistic_coe (r := r)

theorem clip_eq (a lo hi : EReal) : min (max a lo) hi = min hi (max lo a) := by
  rw [min_comm, max_comm]

theorem pK_eq_pR (r : ℝ) : Cert.Spec.pK (r : EReal) = Cert.Spec.pR (r : EReal) := by
  rw [Cert.Spec.pK, Cert.Spec.pR, sigK_coe, sigR_coe, clip_eq]

theorem sum_mul_onehot {n : ℕ} (x w : Fin n → EReal) (q₀ : Fin n)
    (hw : ∀ q, w q = if q = q₀ then 1 else 0) : ∑ q, x q * w q = x q₀ := by
  rw [Finset.sum_eq_single q₀]
  · rw [hw, if_pos rfl, mul_one]
  · intro q _ hq; rw [hw, if_neg hq, mul_zero]
  · intro h; exact absurd (Finset.mem_univ q₀) h

theorem zero_add_sum_mul_onehot {n : ℕ} (x w : Fin n → EReal) (q₀ : Fin n)
    (hw : ∀ q, w q = if q = q₀ then 1 else 0) : 0 + ∑ q, x q * w q = x q₀ := by
  rw [zero_add, sum_mul_onehot x w q₀ hw]

theorem ofBits_45000 : Ideal.ofBits .f32 0x472FC800#32 = ((45000 : ℝ) : EReal) := by
  simp [Ideal.ofBits, Ideal.ieee, -EReal.coe_mul]; norm_num

theorem mul_inv_45000 (s : EReal) :
    s * (((1 : ℝ) / 45000 : ℝ) : EReal) = Ideal.div s (Ideal.ofBits .f32 0x472FC800#32) := by
  rw [ofBits_45000, Ideal.div_coe (by norm_num : (45000 : ℝ) ≠ 0)]

theorem sum_comp_injective {ι M : Type*} [Fintype ι] [AddCommMonoid M] (σ : ι → ι)
    (hσ : Function.Injective σ) (f : ι → M) : ∑ i, f (σ i) = ∑ m, f m :=
  Equiv.sum_comp (Equiv.ofBijective σ hσ.bijective_of_finite) f

theorem sum_sum_comp_injective {B N : ℕ} {M : Type*} [AddCommMonoid M] (σ : Fin B → Fin N → Fin N)
    (hσ : ∀ b, Function.Injective (σ b)) (X Y : Fin B → Fin N → M)
    (h : ∀ b i, X b (σ b i) = Y b i) : ∑ b, ∑ m, X b m = ∑ b, ∑ i, Y b i := by
  refine Finset.sum_congr rfl fun b _ => ?_
  rw [← sum_comp_injective (σ b) (hσ b) (X b)]
  exact Finset.sum_congr rfl fun i _ => h b i

open Idealize.ShloMosaic.ValueIdx in

theorem sum_idx2_comp_injective {B N : ℕ} {M : Type*} [AddCommMonoid M] (σ : Fin B → Fin N → Fin N)
    (hσ : ∀ b, Function.Injective (σ b)) (X Y : (⟨2, ![B, N]⟩ : Shape).Idx → M)
    (h : ∀ b i, X (ix2 b (σ b i)) = Y (ix2 b i)) : ∑ j, X j = ∑ j, Y j := by
  rw [sum_idx2 X, sum_idx2 Y]
  exact sum_sum_comp_injective σ hσ (fun b m => X (ix2 b m)) (fun b i => Y (ix2 b i)) h

end Cert.Bridge

end
-- ==== Proof.KernelLink.lean ====
import proofs.«422094_j90494960927125_3_alg».proof.Proof.KernelValue
import proofs.«422094_j90494960927125_3_alg».proof.Proof.HostPrefix
import proofs.«422094_j90494960927125_3_alg».proof.Proof.HostLink
import proofs.«422094_j90494960927125_3_alg».proof.Proof.Bridge

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.KernelIdeal.GenH Cert.KernelIdeal.PointVals Cert.Idx

theorem pos_lt (n : Fin 45000) : n.val < 45056 := by have := n.isLt; omega

variable (m : (ℓ : Loc nD τ sig) → Buf (Elt Ideal) ℓ) (c : Dev nD)

abbrev a1 : FVec Ideal S4x80000x100 .f32 := m ((c : Thread nD τ).loc main_arg1)
abbrev a2 : FVec Ideal S4x30x80000 .f32 := m ((c : Thread nD τ).loc main_arg2)
abbrev a4 : IVec S4x30 32 := m ((c : Thread nD τ).loc main_arg4)
abbrev a5 : IVec S4x30 32 := m ((c : Thread nD τ).loc main_arg5)
abbrev a6 : IVec S4x45000 32 := m ((c : Thread nD τ).loc main_arg6)

variable (hS : ∀ i : S4x45000.Idx, 0 ≤ (a6 m c i).toInt ∧ (a6 m c i).toInt < 80000)
  (hsrc : ∀ i : S4x30.Idx, 0 ≤ (a4 m c i).toInt ∧ (a4 m c i).toInt < 100)
  (htgt : ∀ i : S4x30.Idx, 0 ≤ (a5 m c i).toInt ∧ (a5 m c i).toInt < 30)
  (hinj : ∀ b : Fin 4, Function.Injective (tgtAt (a5 m c) b))
include hS hsrc htgt hinj

-- The matched logit of mask tgt[b, i] at sample n: the selector's column picks the prediction at (b, sample[b, n], src[b, i]).
theorem spA_link (b : Fin 4) (i : Fin 30) (n : Fin 45000) :
    spA m c (tgtAt (a5 m c) b i) b.val n.val = spAt (a1 m c) (a4 m c) (a6 m c) b i n := by
  unfold spA
  rw [dif_pos ⟨b.isLt, pos_lt n⟩]
  refine Eq.trans (Finset.sum_congr rfl fun q _ => ?_)
    (Cert.Bridge.sum_mul_onehot (fun q => a1 m c (ix3 b (sampAt (a6 m c) b n) q))
      (fun q => if q = srcAt (a4 m c) b i then 1 else 0) (srcAt (a4 m c) b i) (fun q => rfl))
  show xarr m c (ix3 b ⟨n.val, pos_lt n⟩ q) * oarr m c (ix3 b q (tgtAt (a5 m c) b i))
    = a1 m c (ix3 b (sampAt (a6 m c) b n) q) * (if q = srcAt (a4 m c) b i then 1 else 0)
  rw [show xarr m c = _ from HostLink.V_main_v71 m c, show oarr m c = _ from HostLink.V_main_v69 m c,
    HostVals.onehot_at_tgtAt (a4 m c) (a5 m c) hsrc htgt b i q (hinj b),
    HostVals.predPad_apply (a1 m c) (a6 m c) hS b ⟨n.val, pos_lt n⟩ q, dif_pos (show (⟨n.val, pos_lt n⟩ : Fin 45056).val < 45000 from n.isLt)]

-- Its target: the target at (b, tgt[b, i], sample[b, n]).
theorem stA_link (b : Fin 4) (i : Fin 30) (n : Fin 45000) :
    stA m c (tgtAt (a5 m c) b i) b.val n.val = stAt (a2 m c) (a5 m c) (a6 m c) b i n := by
  unfold stA
  rw [dif_pos ⟨b.isLt, pos_lt n⟩]
  show V m c main_v73 _ = _
  rw [HostLink.V_main_v73]
  exact (HostVals.tgtPad_apply (a2 m c) (a6 m c) hS b (tgtAt (a5 m c) b i) ⟨n.val, pos_lt n⟩).trans
    (dif_pos (show (⟨n.val, pos_lt n⟩ : Fin 45056).val < 45000 from n.isLt))

-- The mean mask loss of mask tgt[b, i]: the cross entropy summed over the sampled points, over their number.
theorem link0 : ∀ (b : Fin 4) (i : Fin 30), G m c (ix3 b (tgtAt (a5 m c) b i) (0 : Fin 2))
      = (∑ n : Fin 45000, Cert.Spec.bceK (spAt (a1 m c) (a4 m c) (a6 m c) b i n) (stAt (a2 m c) (a5 m c) (a6 m c) b i n))
        * (((1 : ℝ) / 45000 : ℝ) : EReal) := fun b i => by
  show (∑ n : Fin 45000, g0 m c (tgtAt (a5 m c) b i) b.val n.val) * inv45000 = _
  refine congrArg (· * inv45000) (Finset.sum_congr rfl fun n _ => ?_)
  show Cert.Spec.bceK (spA m c (tgtAt (a5 m c) b i) b.val n.val) (stA m c (tgtAt (a5 m c) b i) b.val n.val) = _
  rw [spA_link m c hS hsrc htgt hinj b i n, stA_link m c hS hsrc htgt hinj b i n]

-- The dice loss of mask tgt[b, i].
theorem link1 : ∀ (b : Fin 4) (i : Fin 30), G m c (ix3 b (tgtAt (a5 m c) b i) (1 : Fin 2))
      = 1 - Ideal.div (Ideal.ofBits .f32 0x40000000#32
            * (∑ n : Fin 45000, Cert.Spec.pK (spAt (a1 m c) (a4 m c) (a6 m c) b i n) * stAt (a2 m c) (a5 m c) (a6 m c) b i n) + 1)
          ((∑ n : Fin 45000, Cert.Spec.pK (spAt (a1 m c) (a4 m c) (a6 m c) b i n))
            + (∑ n : Fin 45000, stAt (a2 m c) (a5 m c) (a6 m c) b i n) + 1) := fun b i => by
  show 1 - Ideal.div (Ideal.ofBits .f32 0x40000000#32 * (∑ n : Fin 45000,
        Cert.Spec.pK (spA m c (tgtAt (a5 m c) b i) b.val n.val) * stA m c (tgtAt (a5 m c) b i) b.val n.val) + 1)
      ((∑ n : Fin 45000, Cert.Spec.pK (spA m c (tgtAt (a5 m c) b i) b.val n.val))
        + (∑ n : Fin 45000, stA m c (tgtAt (a5 m c) b i) b.val n.val) + 1) = _
  simp only [spA_link m c hS hsrc htgt hinj b i, stA_link m c hS hsrc htgt hinj b i]

end Cert.KernelIdeal.KVal

end
-- ==== Proof.LossSpec.lean ====
import proofs.«422094_j90494960927125_3_alg».proof.Proof.Spec
import proofs.«422094_j90494960927125_3_alg».proof.Proof.IdxFns

noncomputable section

open scoped BigOperators

namespace Cert.Loss

open Idealize.ShloMosaic Idealize.ShloMosaic.ValueIdx
open Cert.Spec (bceR pR)
open Cert.Idx (spAt stAt)

variable (x1 : (⟨3, ![4, 80000, 100]⟩ : Shape).Idx → EReal) (x2 : (⟨3, ![4, 30, 80000]⟩ : Shape).Idx → EReal)
  (x4 x5 : (⟨2, ![4, 30]⟩ : Shape).Idx → BitVec 32) (x6 : (⟨2, ![4, 45000]⟩ : Shape).Idx → BitVec 32)

def bceSum (b : Fin 4) (i : Fin 30) : EReal := ∑ n : Fin 45000, bceR (spAt x1 x4 x6 b i n) (stAt x2 x5 x6 b i n)

def psSum (b : Fin 4) (i : Fin 30) : EReal := ∑ n : Fin 45000, pR (spAt x1 x4 x6 b i n) * stAt x2 x5 x6 b i n

def pSum (b : Fin 4) (i : Fin 30) : EReal := ∑ n : Fin 45000, pR (spAt x1 x4 x6 b i n)

def sSum (b : Fin 4) (i : Fin 30) : EReal := ∑ n : Fin 45000, stAt x2 x5 x6 b i n

def maskRow (b : Fin 4) (i : Fin 30) : EReal :=
  Ideal.div (bceSum x1 x2 x4 x5 x6 b i) (Ideal.ofBits .f32 0x472FC800#32)

def diceRow (b : Fin 4) (i : Fin 30) : EReal :=
  1 - Ideal.div (Ideal.ofBits .f32 0x40000000#32 * psSum x1 x2 x4 x5 x6 b i + 1)
    (pSum x1 x4 x6 b i + sSum x2 x5 x6 b i + 1)

def lossMask : EReal :=
  Ideal.div (∑ b : Fin 4, ∑ i : Fin 30, maskRow x1 x2 x4 x5 x6 b i) (Ideal.ofBits .f32 0x42F00000#32)

def lossDice : EReal :=
  Ideal.div (∑ b : Fin 4, ∑ i : Fin 30, diceRow x1 x2 x4 x5 x6 b i) (Ideal.ofBits .f32 0x42F00000#32)

def result (ce : EReal) : (⟨1, ![3]⟩ : Shape).Idx → EReal := fun j =>
  if (j 0).val = 0 then Ideal.ofBits .f32 0x40000000#32 * ce
  else if (j 0).val = 1 then Ideal.ofBits .f32 0x40A00000#32 * lossDice x1 x2 x4 x5 x6
  else Ideal.ofBits .f32 0x40A00000#32 * lossMask x1 x2 x4 x5 x6

end Cert.Loss

end
-- ==== Proof.BridgeRow.lean ====
import proofs.«422094_j90494960927125_3_alg».proof.Proof.Spec
import proofs.«422094_j90494960927125_3_alg».proof.Proof.Bridge

noncomputable section

namespace Cert.Bridge

open Idealize.ShloMosaic
open scoped BigOperators

variable {ι : Type*} [Fintype ι]

theorem sum_bceK_eq (x : ι → ℝ) (s : ι → EReal) :
    ∑ n, Cert.Spec.bceK (x n : EReal) (s n) = ∑ n, Cert.Spec.bceR (x n : EReal) (s n) :=
  Finset.sum_congr rfl fun n _ => bceK_eq_bceR (x n) (s n)

theorem sum_pK_eq (x : ι → ℝ) :
    ∑ n, Cert.Spec.pK (x n : EReal) = ∑ n, Cert.Spec.pR (x n : EReal) :=
  Finset.sum_congr rfl fun n _ => pK_eq_pR (x n)

theorem sum_pK_mul_eq (x : ι → ℝ) (s : ι → EReal) :
    ∑ n, Cert.Spec.pK (x n : EReal) * s n = ∑ n, Cert.Spec.pR (x n : EReal) * s n :=
  Finset.sum_congr rfl fun n _ => by rw [pK_eq_pR]

theorem mask_row_eq (x : ι → ℝ) (s : ι → EReal) :
    (∑ n, Cert.Spec.bceK (x n : EReal) (s n)) * (((1 : ℝ) / 45000 : ℝ) : EReal)
      = Ideal.div (∑ n, Cert.Spec.bceR (x n : EReal) (s n)) (Ideal.ofBits .f32 0x472FC800#32) := by
  rw [sum_bceK_eq, mul_inv_45000]

theorem dice_row_eq (x : ι → ℝ) (s : ι → EReal) (c : EReal) :
    1 - Ideal.div (c * (∑ n, Cert.Spec.pK (x n : EReal) * s n) + 1)
          ((∑ n, Cert.Spec.pK (x n : EReal)) + (∑ n, s n) + 1)
      = 1 - Ideal.div (c * (∑ n, Cert.Spec.pR (x n : EReal) * s n) + 1)
          ((∑ n, Cert.Spec.pR (x n : EReal)) + (∑ n, s n) + 1) := by
  rw [sum_pK_mul_eq, sum_pK_eq]

end Cert.Bridge

end
-- ==== Proof.KernelEnd.lean ====
import proofs.«422094_j90494960927125_3_alg».proof.Proof.Spec
import proofs.«422094_j90494960927125_3_alg».proof.Proof.IdxFns
import proofs.«422094_j90494960927125_3_alg».proof.Proof.LossSpec
import proofs.«422094_j90494960927125_3_alg».proof.Proof.KernelTail
import proofs.«422094_j90494960927125_3_alg».proof.Proof.Bridge
import proofs.«422094_j90494960927125_3_alg».proof.Proof.BridgeRow
import Idealize.ShloMosaic.Lib.IdealHost
import Idealize.ShloMosaic.Lib.Pipeline.Value

noncomputable section
namespace Cert.Bridge
open Idealize.ShloMosaic Idealize.ShloMosaic.ValueIdx
open Cert.KernelIdeal Cert.KernelIdeal.KVal
open Cert.Idx (spAt stAt tgtAt sampAt srcAt)
open scoped BigOperators

section Concat
variable {α : Type} (a b c : S1.Idx → α) (h : Shape.Concatenates [S1, S1, S1] S3 0)

theorem concat3_at0 : concatenate S3 0 [⟨S1, a⟩, ⟨S1, b⟩, ⟨S1, c⟩] h (ix1 (0 : Fin 3)) = a (ix1 (0 : Fin 1)) :=
  concatenate_apply_piece (0 : Fin S3.rank) [⟨S1, a⟩, ⟨S1, b⟩, ⟨S1, c⟩] h (ix1 (0 : Fin 3)) 0
    (by show (0 : ℕ) < 3; omega) S1 a rfl rfl 0 rfl (ix1 (0 : Fin 1))
    (fun e he => match e, he with | ⟨0, _⟩, he => absurd rfl he) rfl

theorem concat3_at1 : concatenate S3 0 [⟨S1, a⟩, ⟨S1, b⟩, ⟨S1, c⟩] h (ix1 (1 : Fin 3)) = b (ix1 (0 : Fin 1)) :=
  concatenate_apply_piece (0 : Fin S3.rank) [⟨S1, a⟩, ⟨S1, b⟩, ⟨S1, c⟩] h (ix1 (1 : Fin 3)) 1
    (by show (1 : ℕ) < 3; omega) S1 b rfl rfl 1 rfl (ix1 (0 : Fin 1))
    (fun e he => match e, he with | ⟨0, _⟩, he => absurd rfl he) rfl

theorem concat3_at2 : concatenate S3 0 [⟨S1, a⟩, ⟨S1, b⟩, ⟨S1, c⟩] h (ix1 (2 : Fin 3)) = c (ix1 (0 : Fin 1)) :=
  concatenate_apply_piece (0 : Fin S3.rank) [⟨S1, a⟩, ⟨S1, b⟩, ⟨S1, c⟩] h (ix1 (2 : Fin 3)) 2
    (by show (2 : ℕ) < 3; omega) S1 c rfl rfl 2 rfl (ix1 (0 : Fin 1))
    (fun e he => match e, he with | ⟨0, _⟩, he => absurd rfl he) rfl

end Concat

-- Column q of a [4, 30, 2] array, as a [4, 30] array, reads the array at (b, m, q).
theorem column_apply {α : Type} (x : S4x30x2.Idx → α) (q : Fin 2) (h1 : S4x30x2.Slices ![0, 0, q.val] S4x30x1)
    (h2 : S4x30x1.ShapeCasts S4x30) (b : Fin 4) (m : Fin 30) :
    shapeCast S4x30 (extractStridedSlice S4x30x1 ![0, 0, q.val] x h1) h2 (ix2 b m) = x (ix3 b m q) :=
  (shapeCast_apply _ h2 (ix2 b m) (ix3 b m (0 : Fin 1)) rfl).trans
    (extractStridedSlice_apply _ x h1 _ _ fun a => match a with
      | ⟨0, _⟩ => (Nat.zero_add _).symm
      | ⟨1, _⟩ => (Nat.zero_add _).symm
      | ⟨2, _⟩ => rfl)

theorem reduce_all_apply (v : FVec Ideal S4x30 .f32) (h : S4x30.ReducesTo [0, 1] S_) (hu : 0 < S_.numel) (j : S_.Idx) :
    (Host.reduceAdd v (constant S_ .f32 0x00000000#32) h hu : FVec Ideal S_ .f32) j
      = ∑ b : Fin 4, ∑ m : Fin 30, v (ix2 b m) := by
  rw [hostReduceAdd_apply, Ideal.hostReduceAdd_total h (fun e => e.elim0), constant_apply, Ideal.ofBits_zero_f32,
    zero_add, sum_idx2]

-- Each scene's target rows are a permutation of 0 … 29, so the sums over rows are the sums over masks; row by row the terms are the reference's.
theorem kernel_result_eq_loss (out : Vec Ideal S4x30x2 .f32) (ce : Vec Ideal S_ .f32)
    (x1 : (⟨3, ![4, 80000, 100]⟩ : Shape).Idx → EReal) (x2 : (⟨3, ![4, 30, 80000]⟩ : Shape).Idx → EReal)
    (x4 x5 : (⟨2, ![4, 30]⟩ : Shape).Idx → BitVec 32) (x6 : (⟨2, ![4, 45000]⟩ : Shape).Idx → BitVec 32)
    (hx1 : ∀ k, ∃ r : ℝ, x1 k = (r : EReal))
    (hinj : ∀ b, Function.Injective (Cert.Idx.tgtAt x5 b))
    (h0 : ∀ b i, out (ix3 b (Cert.Idx.tgtAt x5 b i) (0 : Fin 2))
      = (∑ n : Fin 45000, Cert.Spec.bceK (Cert.Idx.spAt x1 x4 x6 b i n) (Cert.Idx.stAt x2 x5 x6 b i n))
          * (((1 : ℝ) / 45000 : ℝ) : EReal))
    (h1 : ∀ b i, out (ix3 b (Cert.Idx.tgtAt x5 b i) (1 : Fin 2))
      = 1 - Ideal.div (Ideal.ofBits .f32 0x40000000#32
              * (∑ n : Fin 45000, Cert.Spec.pK (Cert.Idx.spAt x1 x4 x6 b i n) * Cert.Idx.stAt x2 x5 x6 b i n) + 1)
            ((∑ n : Fin 45000, Cert.Spec.pK (Cert.Idx.spAt x1 x4 x6 b i n))
              + (∑ n : Fin 45000, Cert.Idx.stAt x2 x5 x6 b i n) + 1)) :
    Cert.KernelIdeal.KVal.tailK (F := Ideal) out ce = Cert.Loss.result x1 x2 x4 x5 x6 (ce ix0) := by
  choose r hr using hx1
  have hsp : ∀ b i n, Cert.Idx.spAt x1 x4 x6 b i n
      = ((r (ix3 b (Cert.Idx.sampAt x6 b n) (Cert.Idx.srcAt x4 b i)) : ℝ) : EReal) := fun b i n => hr _
  have hmask : ∑ b : Fin 4, ∑ m : Fin 30, maskOf out (ix2 b m)
      = ∑ b : Fin 4, ∑ i : Fin 30, Cert.Loss.maskRow x1 x2 x4 x5 x6 b i := by
    refine sum_sum_comp_injective (Cert.Idx.tgtAt x5) hinj _ _ fun b i =>
      (column_apply out 0 _ _ b _).trans ((h0 b i).trans ?_)
    rw [Cert.Loss.maskRow, Cert.Loss.bceSum]
    simp only [hsp]
    exact mask_row_eq _ _
  have hdice : ∑ b : Fin 4, ∑ m : Fin 30, diceOf out (ix2 b m)
      = ∑ b : Fin 4, ∑ i : Fin 30, Cert.Loss.diceRow x1 x2 x4 x5 x6 b i := by
    refine sum_sum_comp_injective (Cert.Idx.tgtAt x5) hinj _ _ fun b i =>
      (column_apply out 1 _ _ b _).trans ((h1 b i).trans ?_)
    rw [Cert.Loss.diceRow, Cert.Loss.psSum, Cert.Loss.pSum, Cert.Loss.sSum]
    simp only [hsp]
    exact dice_row_eq _ _ _
  funext j
  obtain ⟨k, rfl⟩ : ∃ k : Fin 3, j = ix1 k := ⟨j 0, eq_ix1 j⟩
  unfold tailK finalS
  match k with
  | ⟨0, _⟩ =>
    refine (concat3_at0 _ _ _ _).trans ?_
    rw [broadcastInDim_scalar_apply, mulf_apply, constant_apply]
    rfl
  | ⟨1, _⟩ =>
    refine (concat3_at1 _ _ _ _).trans ?_
    rw [broadcastInDim_scalar_apply, mulf_apply, constant_apply, hostDivf_apply, constant_apply,
      reduce_all_apply, hdice]
    rfl
  | ⟨2, _⟩ =>
    refine (concat3_at2 _ _ _ _).trans ?_
    rw [broadcastInDim_scalar_apply, mulf_apply, constant_apply, hostDivf_apply, constant_apply,
      reduce_all_apply, hmask]
    rfl

end Cert.Bridge
end
-- ==== Proof.ClsLoss.lean ====
import proofs.«422094_j90494960927125_3_alg».proof.Proof.Gen.KernelIdeal.Launch
import proofs.«422094_j90494960927125_3_alg».proof.Proof.RefReadP
import Idealize.ShloMosaic.Lib.StableHlo.Run
import Idealize.ShloMosaic.Lib.Pipeline.Frame

noncomputable section

namespace Cert.ClsLoss

open Idealize.ShloMosaic Idealize.ShloMosaic.TcCoe Idealize.SL.Sem Idealize.ShloMosaic.StableHlo

variable {F : FTy → Type} [FloatOps F]

def clsLoss (a0 : (⟨Cert.ReferenceIdeal.S4x100x21, .f32⟩ : BufTy).Contents (Elt F))
    (a3 a4 a5 : (⟨Cert.ReferenceIdeal.S4x30, .i32⟩ : BufTy).Contents (Elt F)) :
    (⟨Cert.ReferenceIdeal.S_, .f32⟩ : BufTy).Contents (Elt F) :=
  Cert.ReferenceIdeal.Read.val_main_v44 (F := F) a0 a3 a4 a5

theorem ref_v44 (a0 : (⟨Cert.ReferenceIdeal.S4x100x21, .f32⟩ : BufTy).Contents (Elt F))
    (a3 a4 a5 : (⟨Cert.ReferenceIdeal.S4x30, .i32⟩ : BufTy).Contents (Elt F)) :
    Cert.ReferenceIdeal.Read.val_main_v44 (F := F) a0 a3 a4 a5 = clsLoss a0 a3 a4 a5 := rfl

section Kernel

open Cert.KernelIdeal Cert.KernelIdeal.Gen
open Cert.ReferenceIdeal.Read

variable [Named F]

theorem after_split (W : Valuation τ sig (Elt F)) :
    StableHlo.after (List.flatten [hostOps0, hostOps0_1, hostOps0_2, hostOps0_3, hostOps0_4, hostOps0_5, hostOps0_6,
        hostOps0_7, hostOps0_8, hostOps0_9, hostOps0_10, hostOps0_11, hostOps0_12]) W
      = StableHlo.after (List.flatten [hostOps0_7, hostOps0_8, hostOps0_9, hostOps0_10, hostOps0_11, hostOps0_12])
          (StableHlo.after hostOps0_6 (StableHlo.after (hostOps0_4 ++ hostOps0_5) (StableHlo.after hostOps0_3
            (StableHlo.after (List.flatten [hostOps0, hostOps0_1, hostOps0_2]) W)))) := by
  rw [← StableHlo.after_append, ← StableHlo.after_append, ← StableHlo.after_append, ← StableHlo.after_append]
  simp only [List.flatten_cons, List.flatten_nil, List.append_nil, List.append_assoc]

set_option maxRecDepth 8192 in
set_option maxHeartbeats 4000000 in

theorem table_v23 (W : Valuation τ sig (Elt F)) :
    StableHlo.after (List.flatten [hostOps0, hostOps0_1, hostOps0_2]) W (Proc.devRef .tc main_v23)
      = val_main_v23 (F := F) (W (Proc.devRef .tc main_arg3)) (W (Proc.devRef .tc main_arg4))
          (W (Proc.devRef .tc main_arg5)) := by
  simp only [hostOps0, hostOps0_1, hostOps0_2,
    List.flatten_cons, List.flatten_nil, List.append_nil, List.cons_append, List.nil_append]
  after_results
  generalize W (Proc.devRef .tc main_arg3) = a3
  generalize W (Proc.devRef .tc main_arg4) = a4
  generalize W (Proc.devRef .tc main_arg5) = a5
  simp only [TRef.ofBuf, TRef.toBuf, cast_eq]
  rfl

set_option maxRecDepth 8192 in
set_option maxHeartbeats 4000000 in

theorem weights_v4 (W : Valuation τ sig (Elt F)) :
    StableHlo.after (List.flatten [hostOps0, hostOps0_1, hostOps0_2]) W (Proc.devRef .tc main_v4)
      = val_main_v4 (F := F) := by
  simp only [hostOps0, hostOps0_1, hostOps0_2,
    List.flatten_cons, List.flatten_nil, List.append_nil, List.cons_append, List.nil_append]
  after_results_simp
  rfl

set_option maxRecDepth 8192 in
set_option maxHeartbeats 4000000 in

theorem keep0_arg0 (W : Valuation τ sig (Elt F)) :
    StableHlo.after (List.flatten [hostOps0, hostOps0_1, hostOps0_2]) W (Proc.devRef .tc main_arg0)
      = W (Proc.devRef .tc main_arg0) := by
  simp only [hostOps0, hostOps0_1, hostOps0_2,
    List.flatten_cons, List.flatten_nil, List.append_nil, List.cons_append, List.nil_append]
  after_results_simp

set_option maxRecDepth 8192 in
set_option maxHeartbeats 4000000 in

theorem logp_v24 (W : Valuation τ sig (Elt F)) :
    StableHlo.after hostOps0_3 W (Proc.devRef .tc main_v24)
      = val_main_v24 (F := F) (W (Proc.devRef .tc main_arg0)) := by
  simp only [hostOps0_3]
  after_results_simp
  generalize W (Proc.devRef .tc main_arg0) = a0
  simp only [TRef.ofBuf, TRef.toBuf, cast_eq]
  rfl

set_option maxRecDepth 8192 in

theorem keep3 (W : Valuation τ sig (Elt F)) :
    StableHlo.after hostOps0_3 W (Proc.devRef .tc main_v23) = W (Proc.devRef .tc main_v23)
    ∧ StableHlo.after hostOps0_3 W (Proc.devRef .tc main_v4) = W (Proc.devRef .tc main_v4) := by
  constructor <;> (simp only [hostOps0_3]; after_results_simp)

set_option maxRecDepth 8192 in
set_option maxHeartbeats 4000000 in

theorem picked_v26 (W : Valuation τ sig (Elt F))
    (a0 : (⟨Cert.ReferenceIdeal.S4x100x21, .f32⟩ : BufTy).Contents (Elt F))
    (a3 a4 a5 : (⟨Cert.ReferenceIdeal.S4x30, .i32⟩ : BufTy).Contents (Elt F))
    (h23 : W (Proc.devRef .tc main_v23) = val_main_v23 (F := F) a3 a4 a5)
    (h24 : W (Proc.devRef .tc main_v24) = val_main_v24 (F := F) a0) :
    StableHlo.after (hostOps0_4 ++ hostOps0_5) W (Proc.devRef .tc main_v26)
      = val_main_v26 (F := F) a0 a3 a4 a5 := by
  simp only [hostOps0_4, hostOps0_5, List.cons_append, List.nil_append]
  after_results_simp
  rw [h23, h24]
  simp only [TRef.ofBuf, TRef.toBuf, cast_eq]
  rfl

set_option maxRecDepth 8192 in

theorem keep45 (W : Valuation τ sig (Elt F)) :
    StableHlo.after (hostOps0_4 ++ hostOps0_5) W (Proc.devRef .tc main_v23) = W (Proc.devRef .tc main_v23)
    ∧ StableHlo.after (hostOps0_4 ++ hostOps0_5) W (Proc.devRef .tc main_v4) = W (Proc.devRef .tc main_v4) := by
  constructor <;> (simp only [hostOps0_4, hostOps0_5, List.cons_append, List.nil_append]; after_results_simp)

set_option maxRecDepth 8192 in
set_option maxHeartbeats 4000000 in

theorem quot_v44 (W : Valuation τ sig (Elt F))
    (a0 : (⟨Cert.ReferenceIdeal.S4x100x21, .f32⟩ : BufTy).Contents (Elt F))
    (a3 a4 a5 : (⟨Cert.ReferenceIdeal.S4x30, .i32⟩ : BufTy).Contents (Elt F))
    (h23 : W (Proc.devRef .tc main_v23) = val_main_v23 (F := F) a3 a4 a5)
    (h4 : W (Proc.devRef .tc main_v4) = val_main_v4 (F := F))
    (h26 : W (Proc.devRef .tc main_v26) = val_main_v26 (F := F) a0 a3 a4 a5) :
    StableHlo.after hostOps0_6 W (Proc.devRef .tc main_v44)
      = val_main_v44 (F := F) a0 a3 a4 a5 := by
  simp only [hostOps0_6]
  after_results_simp
  rw [h23, h4, h26]
  rfl

set_option maxRecDepth 8192 in
set_option maxHeartbeats 4000000 in
theorem keep7 (W : Valuation τ sig (Elt F)) :
    StableHlo.after (List.flatten [hostOps0_7, hostOps0_8, hostOps0_9, hostOps0_10, hostOps0_11, hostOps0_12]) W
        (Proc.devRef .tc main_v44) = W (Proc.devRef .tc main_v44) := by
  simp only [hostOps0_7, hostOps0_8, hostOps0_9, hostOps0_10, hostOps0_11, hostOps0_12,
    List.flatten_cons, List.flatten_nil, List.append_nil, List.cons_append, List.nil_append]
  after_results_simp

theorem kernel_v44 (W : Valuation τ sig (Elt F)) :
    StableHlo.after (List.flatten [hostOps0, hostOps0_1, hostOps0_2, hostOps0_3, hostOps0_4, hostOps0_5, hostOps0_6,
        hostOps0_7, hostOps0_8, hostOps0_9, hostOps0_10, hostOps0_11, hostOps0_12]) W (Proc.devRef .tc main_v44)
      = clsLoss (W (Proc.devRef .tc main_arg0)) (W (Proc.devRef .tc main_arg3)) (W (Proc.devRef .tc main_arg4))
          (W (Proc.devRef .tc main_arg5)) := by
  rw [after_split W, keep7]
  have h23 := table_v23 W
  have h4 := weights_v4 W
  have h0 := keep0_arg0 W
  generalize StableHlo.after (List.flatten [hostOps0, hostOps0_1, hostOps0_2]) W = W1 at h23 h4 h0 ⊢
  have h24 := (logp_v24 W1).trans (congrArg (val_main_v24 (F := F)) h0)
  have k23 := ((keep3 W1).1).trans h23
  have k4 := ((keep3 W1).2).trans h4
  generalize StableHlo.after hostOps0_3 W1 = W2 at h24 k23 k4 ⊢
  have h26 := picked_v26 W2 _ _ _ _ k23 h24
  have l23 := ((keep45 W2).1).trans k23
  have l4 := ((keep45 W2).2).trans k4
  generalize StableHlo.after (hostOps0_4 ++ hostOps0_5) W2 = W3 at h26 l23 l4 ⊢
  exact quot_v44 W3 _ _ _ _ l23 l4 h26

end Kernel

end Cert.ClsLoss

end
-- ==== Proof.ClsLossV.lean ====
import proofs.«422094_j90494960927125_3_alg».proof.Proof.ClsLoss
import proofs.«422094_j90494960927125_3_alg».proof.Proof.FrameRuns

noncomputable section

namespace Cert.ClsLoss

open Cert.KernelIdeal Cert.KernelIdeal.Gen
open Idealize.ShloMosaic Idealize.ShloMosaic.TcCoe Idealize.SL.Sem

variable {F : FTy → Type} [FloatOps F] [Named F]

theorem kernel_v44_V (m : (ℓ : Loc nD τ sig) → Buf (Elt F) ℓ) (c : Dev nD) :
    Cert.KernelIdeal.GenH.V m c main_v44
      = clsLoss (m ((c : Thread nD τ).loc main_arg0)) (m ((c : Thread nD τ).loc main_arg3))
          (m ((c : Thread nD τ).loc main_arg4)) (m ((c : Thread nD τ).loc main_arg5)) :=
  kernel_v44 (fun b => m (c, b))

end Cert.ClsLoss

end
-- ==== Proof.PreFacts.lean ====
import proofs.«422094_j90494960927125_3_alg».proof.Pre_finite_inputs
import Idealize.ShloMosaic.Lib.ReduceAll
import Idealize.ShloMosaic.Lib.IdealHost
import Idealize.ShloMosaic.PureOps.Ideal

noncomputable section

namespace Cert.PreFacts

open Idealize.ShloMosaic Idealize.ShloMosaic.ValueIdx Cert.Pre_finite_inputs

variable [Cert.Pre_finite_inputs.Facts]

instance : Subsingleton S_.Idx := ⟨fun a b => funext fun d => d.elim0⟩

-- An extended real whose absolute value tests below +∞ is a real number.
theorem real_of_abs_lt (x : EReal) (hx : Ideal.cmp .olt (max x (-x)) (Ideal.ofBits .f32 0x7F800000#32) = 1#1) :
    ∃ r : ℝ, x = (r : EReal) := by
  rw [show Ideal.ofBits .f32 0x7F800000#32 = (⊤ : EReal) by simp [Ideal.ofBits, Ideal.ieee]] at hx
  induction x using EReal.rec with
  | coe r => exact ⟨r, rfl⟩
  | _ => exact absurd hx (by simp [Ideal.cmp])

-- A word that tests 0 ≤ w and w < n signed lies in [0, n).
theorem range_of_cmp (w : BitVec 32) (n : Nat) (hn : n < 2 ^ 31)
    (h : IntOp.andi (IntOp.cmpi .sge w 0#32) (IntOp.cmpi .slt w (BitVec.ofNat 32 n)) = 1#1) :
    0 ≤ w.toInt ∧ w.toInt < n := by
  obtain ⟨h0, h1⟩ := IntOp.andi_eq_one.1 h
  rw [IntOp.cmpi_sge] at h0
  rw [IntOp.cmpi_slt, BitVec.toInt_ofNat', Int.bmod_eq_of_le (by omega) (by omega)] at h1
  exact ⟨by simpa using h0, h1⟩

section Reads
variable {α : Type}

theorem read_col (h1 : S4x30.BroadcastsInDim S4x30x1 ![0, 1]) (h2 : S4x30x1.BroadcastsInDim S4x30x30 ![0, 1, 2])
    (x : S4x30.Idx → α) (b : Fin 4) (i j : Fin 30) :
    broadcastInDim S4x30x30 ![0, 1, 2] h2 (broadcastInDim S4x30x1 ![0, 1] h1 x) (ix3 b i j) = x (ix2 b i) := by
  unfold broadcastInDim
  exact congrArg x (funext fun a => by match a with | ⟨0, _⟩ => rfl | ⟨1, _⟩ => rfl)

theorem read_row (h1 : S4x30.BroadcastsInDim S4x1x30 ![0, 2]) (h2 : S4x1x30.BroadcastsInDim S4x30x30 ![0, 1, 2])
    (x : S4x30.Idx → α) (b : Fin 4) (i j : Fin 30) :
    broadcastInDim S4x30x30 ![0, 1, 2] h2 (broadcastInDim S4x1x30 ![0, 2] h1 x) (ix3 b i j) = x (ix2 b j) := by
  unfold broadcastInDim
  exact congrArg x (funext fun a => by match a with | ⟨0, _⟩ => rfl | ⟨1, _⟩ => rfl)

theorem read_vcol (h1 : S30.BroadcastsInDim S30x1 ![0]) (h2 : S30x1.BroadcastsInDim S30x30 ![0, 1])
    (x : S30.Idx → α) (i j : Fin 30) :
    broadcastInDim S30x30 ![0, 1] h2 (broadcastInDim S30x1 ![0] h1 x) (ix2 i j) = x (ix1 i) := by
  unfold broadcastInDim
  exact congrArg x (funext fun a => by match a with | ⟨0, _⟩ => rfl)

theorem read_vrow (h1 : S30.BroadcastsInDim S1x30 ![1]) (h2 : S1x30.BroadcastsInDim S30x30 ![0, 1])
    (x : S30.Idx → α) (i j : Fin 30) :
    broadcastInDim S30x30 ![0, 1] h2 (broadcastInDim S1x30 ![1] h1 x) (ix2 i j) = x (ix1 j) := by
  unfold broadcastInDim
  exact congrArg x (funext fun a => by match a with | ⟨0, _⟩ => rfl)

theorem read_lift (h1 : S30x30.BroadcastsInDim S1x30x30 ![1, 2]) (h2 : S1x30x30.BroadcastsInDim S4x30x30 ![0, 1, 2])
    (x : S30x30.Idx → α) (b : Fin 4) (i j : Fin 30) :
    broadcastInDim S4x30x30 ![0, 1, 2] h2 (broadcastInDim S1x30x30 ![1, 2] h1 x) (ix3 b i j) = x (ix2 i j) := by
  unfold broadcastInDim
  exact congrArg x (funext fun a => by match a with | ⟨0, _⟩ => rfl | ⟨1, _⟩ => rfl)

end Reads

variable (a0 : FVec Ideal S4x100x21 .f32) (a1 : FVec Ideal S4x80000x100 .f32) (a2 : FVec Ideal S4x30x80000 .f32)
  (a3 a4 a5 : IVec S4x30 32) (a6 : IVec S4x45000 32)

-- What the predicate says: real predictions, index words in range, no row of target words repeating one.
structure Decoded : Prop where
  real1 : ∀ i, ∃ r : ℝ, a1 i = (r : EReal)
  src : ∀ i, 0 ≤ (a4 i).toInt ∧ (a4 i).toInt < 100
  tgt : ∀ i, 0 ≤ (a5 i).toInt ∧ (a5 i).toInt < 30
  smp : ∀ i, 0 ≤ (a6 i).toInt ∧ (a6 i).toInt < 80000
  tgt_ne : ∀ (b : Fin 4) (i j : Fin 30), i ≠ j → a5 (ix2 b i) ≠ a5 (ix2 b j)

-- The predicate's one word is the `and` of seven all-reductions; each being 1 makes its operand 1 at every index.
theorem decode (h : fn (F := Ideal) a0 a1 a2 a3 a4 a5 a6 = fun _ => 1#1) : Decoded a1 a4 a5 a6 := by
  have e := congrFun h ix0
  dsimp only [fn, fn_part1, fn_part2] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, -⟩ := IntOp.andi_eq_one.1 e
  obtain ⟨-, e1⟩ := IntOp.andi_eq_one.1 e
  refine ⟨fun i => ?_, fun i => ?_, fun i => ?_, fun i => ?_, fun b i j hij => ?_⟩
  · exact real_of_abs_lt (a1 i) (Host.reduce_andi_all _ _ _ _ _ e1 i)
  · exact range_of_cmp (a4 i) 100 (by decide) (Host.reduce_andi_all _ _ _ _ _ e4 i)
  · exact range_of_cmp (a5 i) 30 (by decide) (Host.reduce_andi_all _ _ _ _ _ e5 i)
  · exact range_of_cmp (a6 i) 80000 (by decide) (Host.reduce_andi_all _ _ _ _ _ e6 i)
  · rcases IntOp.ori_eq_one.1 (Host.reduce_andi_all _ _ _ _ _ e7 (ix3 b i j)) with hne | heq
    · have hne' := IntOp.cmpi_ne.1 hne
      rwa [read_col, read_row] at hne'
    · rw [read_lift] at heq
      have heq' := IntOp.cmpi_eq.1 heq
      rw [read_vcol, read_vrow] at heq'
      have := congrArg BitVec.toNat (show BitVec.ofNat 32 i.val = BitVec.ofNat 32 j.val from heq')
      simp only [BitVec.toNat_ofNat] at this
      exact absurd (Fin.ext (by omega)) hij

end Cert.PreFacts
-- ==== Proof.PreAt.lean ====
import proofs.«422094_j90494960927125_3_alg».proof.Defs
import proofs.«422094_j90494960927125_3_alg».proof.Proof.PreFacts
import proofs.«422094_j90494960927125_3_alg».proof.Proof.IdxFns
import proofs.«422094_j90494960927125_3_alg».proof.Proof.Gen.Pre_finite_inputs
import proofs.«422094_j90494960927125_3_alg».proof.Proof.Gen.KernelIdeal

noncomputable section

namespace Cert.PreAt

open Idealize.ShloMosaic Idealize.ShloMosaic.ValueIdx Idealize.SL.Sem Cert.KernelIdeal

variable [hPre_finite_inputs : Cert.Pre_finite_inputs.Facts]
variable (m : (ℓ : Loc nD τ sig) → Buf (Elt Ideal) ℓ)

abbrev x0 (c : Dev nD) : FVec Ideal Cert.Pre_finite_inputs.S4x100x21 .f32 := m ((c.tc : Thread nD τ).loc main_arg0)
abbrev x1 (c : Dev nD) : FVec Ideal Cert.Pre_finite_inputs.S4x80000x100 .f32 := m ((c.tc : Thread nD τ).loc main_arg1)
abbrev x2 (c : Dev nD) : FVec Ideal Cert.Pre_finite_inputs.S4x30x80000 .f32 := m ((c.tc : Thread nD τ).loc main_arg2)
abbrev x3 (c : Dev nD) : IVec Cert.Pre_finite_inputs.S4x30 32 := m ((c.tc : Thread nD τ).loc main_arg3)
abbrev x4 (c : Dev nD) : IVec Cert.Pre_finite_inputs.S4x30 32 := m ((c.tc : Thread nD τ).loc main_arg4)
abbrev x5 (c : Dev nD) : IVec Cert.Pre_finite_inputs.S4x30 32 := m ((c.tc : Thread nD τ).loc main_arg5)
abbrev x6 (c : Dev nD) : IVec Cert.Pre_finite_inputs.S4x45000 32 := m ((c.tc : Thread nD τ).loc main_arg6)

theorem decoded (h : Cert.Pre_KernelIdeal m) (c : Dev nD) :
    Cert.PreFacts.Decoded (x1 m c) (x4 m c) (x5 m c) (x6 m c) :=
  Cert.PreFacts.decode (x0 m c) (x1 m c) (x2 m c) (x3 m c) (x4 m c) (x5 m c) (x6 m c) (h c)

theorem hx1 (h : Cert.Pre_KernelIdeal m) (c : Dev nD) : ∀ k, ∃ r : ℝ, x1 m c k = (r : EReal) := (decoded m h c).real1

theorem hsrc (h : Cert.Pre_KernelIdeal m) (c : Dev nD) : ∀ k, 0 ≤ (x4 m c k).toInt ∧ (x4 m c k).toInt < 100 :=
  (decoded m h c).src
theorem htgt (h : Cert.Pre_KernelIdeal m) (c : Dev nD) : ∀ k, 0 ≤ (x5 m c k).toInt ∧ (x5 m c k).toInt < 30 :=
  (decoded m h c).tgt
theorem hsmp (h : Cert.Pre_KernelIdeal m) (c : Dev nD) : ∀ k, 0 ≤ (x6 m c k).toInt ∧ (x6 m c k).toInt < 80000 :=
  (decoded m h c).smp

-- In range the clamp is the word, and a row's words are pairwise distinct.
theorem hinj (h : Cert.Pre_KernelIdeal m) (c : Dev nD) : ∀ b : Fin 4, Function.Injective (Cert.Idx.tgtAt (x5 m c) b) :=
  fun b i j hij => by
    by_contra hne
    refine (decoded m h c).tgt_ne b i j hne (BitVec.eq_of_toInt_eq ?_)
    rw [← Cert.Idx.tgtAt_toInt _ (htgt m h c) b i, ← Cert.Idx.tgtAt_toInt _ (htgt m h c) b j, hij]

end Cert.PreAt
-- ==== Proof.RefGather.lean ====
import proofs.«422094_j90494960927125_3_alg».proof.Proof.Gen.ReferenceIdeal
import Idealize.ShloMosaic.Lib.ValueIdx
import Idealize.ShloMosaic.Lib.ReduceAll

noncomputable section

namespace Cert.ReferenceIdeal.RefVal

open Cert.ReferenceIdeal Cert.ReferenceIdeal.Gen Idealize.ShloMosaic Idealize.ShloMosaic.ValueIdx

theorem gather_rows100 {α : Type} (x : S4x100x80000.Idx → α) (idx : IVec S4x30x1 32) (b : Fin 4) (i : Fin 30) (p : Fin 80000) :
    Host.gather gather_S4x100x80000_S4x30x1_S4x30x80000_2_1_0_0_1_2_1180000 x idx (ix3 b i p)
      = x (ix3 b ⟨min (idx (ix3 b i (0 : Fin 1))).toInt.toNat 99, by omega⟩ p) := by
  unfold Host.gather; congr 1; funext a; apply Fin.ext
  fin_cases a <;>
    simp [GatherDims.operandIdx, GatherDims.start, GatherDims.offCoord, GatherDims.batchCoord, GatherDims.siCoord, GatherDims.siIdx,
      gather_S4x100x80000_S4x30x1_S4x30x80000_2_1_0_0_1_2_1180000, GatherDims.sKept, GatherDims.siKept, GatherDims.batchDims, Shape.kept]
  · rfl
  · have hsi : (gather_S4x100x80000_S4x30x1_S4x30x80000_2_1_0_0_1_2_1180000).siIdx (ix3 b i p) ⟨0, by decide⟩ = ix3 b i (0 : Fin 1) := by
      funext k; apply Fin.ext; fin_cases k <;> rfl
    exact congrArg (fun y => min (idx y).toInt.toNat 99) hsi
  · rfl

theorem gather_rows30 {α : Type} (x : S4x30x80000.Idx → α) (idx : IVec S4x30x1 32) (b : Fin 4) (i : Fin 30) (p : Fin 80000) :
    Host.gather gather_S4x30x80000_S4x30x1_S4x30x80000_2_1_0_0_1_2_1180000 x idx (ix3 b i p)
      = x (ix3 b ⟨min (idx (ix3 b i (0 : Fin 1))).toInt.toNat 29, by omega⟩ p) := by
  unfold Host.gather; congr 1; funext a; apply Fin.ext
  fin_cases a <;>
    simp [GatherDims.operandIdx, GatherDims.start, GatherDims.offCoord, GatherDims.batchCoord, GatherDims.siCoord, GatherDims.siIdx,
      gather_S4x30x80000_S4x30x1_S4x30x80000_2_1_0_0_1_2_1180000, GatherDims.sKept, GatherDims.siKept, GatherDims.batchDims, Shape.kept]
  · rfl
  · have hsi : (gather_S4x30x80000_S4x30x1_S4x30x80000_2_1_0_0_1_2_1180000).siIdx (ix3 b i p) ⟨0, by decide⟩ = ix3 b i (0 : Fin 1) := by
      funext k; apply Fin.ext; fin_cases k <;> rfl
    exact congrArg (fun y => min (idx y).toInt.toNat 29) hsi
  · rfl

theorem gather_cols {α : Type} (x : S4x30x80000.Idx → α) (idx : IVec S4x45000x1 32) (b : Fin 4) (i : Fin 30) (n : Fin 45000) :
    Host.gather gather_S4x30x80000_S4x45000x1_S4x30x45000_1_2_0_0_2_2_1301 x idx (ix3 b i n)
      = x (ix3 b i ⟨min (idx (ix3 b n (0 : Fin 1))).toInt.toNat 79999, by omega⟩) := by
  unfold Host.gather; congr 1; funext a; apply Fin.ext
  fin_cases a <;>
    simp [GatherDims.operandIdx, GatherDims.start, GatherDims.offCoord, GatherDims.batchCoord, GatherDims.siCoord, GatherDims.siIdx,
      gather_S4x30x80000_S4x45000x1_S4x30x45000_1_2_0_0_2_2_1301, GatherDims.sKept, GatherDims.siKept, GatherDims.batchDims, Shape.kept]
  · rfl
  · rfl
  · have hsi : (gather_S4x30x80000_S4x45000x1_S4x30x45000_1_2_0_0_2_2_1301).siIdx (ix3 b i n) ⟨0, by decide⟩ = ix3 b n (0 : Fin 1) := by
      funext k; apply Fin.ext; fin_cases k <;> rfl
    exact congrArg (fun y => min (idx y).toInt.toNat 79999) hsi

theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ (fun n _ => hx n)

theorem wrap_id (w N : BitVec 32) (h0 : 0 ≤ w.toInt) :
    Scalar.select (IntOp.cmpi .slt w 0#32) (IntOp.addi w N) w = w := by
  have : ¬ (IntOp.cmpi .slt w 0#32 = 1#1) := by
    rw [IntOp.cmpi_slt]; simp only [BitVec.toInt_zero]; omega
  exact if_neg this

theorem sge_zero (w : BitVec 32) (h0 : 0 ≤ w.toInt) : IntOp.cmpi .sge w 0#32 = 1#1 := by
  rw [IntOp.cmpi_sge]; simpa using h0

theorem sle_of_le (w M : BitVec 32) (h : w.toInt ≤ M.toInt) : IntOp.cmpi .sle w M = 1#1 := by
  rw [IntOp.cmpi_sle]; exact h

end Cert.ReferenceIdeal.RefVal

end
-- ==== Proof.RefMatched.lean ====
import proofs.«422094_j90494960927125_3_alg».proof.Proof.RefReadP
import proofs.«422094_j90494960927125_3_alg».proof.Proof.RefGather
import proofs.«422094_j90494960927125_3_alg».proof.Proof.IdxFns

noncomputable section

namespace Cert.ReferenceIdeal.RefVal

open Cert.ReferenceIdeal Cert.ReferenceIdeal.Gen Cert.ReferenceIdeal.Read
open Idealize.ShloMosaic Idealize.ShloMosaic.ValueIdx
open Cert.Idx (srcAt tgtAt sampAt spAt stAt)

variable (x1 : (⟨S4x80000x100, .f32⟩ : BufTy).Contents (Elt Ideal)) (x2 : (⟨S4x30x80000, .f32⟩ : BufTy).Contents (Elt Ideal))
  (x4 x5 : (⟨S4x30, .i32⟩ : BufTy).Contents (Elt Ideal)) (x6 : (⟨S4x45000, .i32⟩ : BufTy).Contents (Elt Ideal))

theorem toInt_99 : (99#32 : BitVec 32).toInt = 99 := by decide
theorem toInt_29 : (29#32 : BitVec 32).toInt = 29 := by decide

theorem v46_at (b : Fin 4) (i : Fin 30) : val_main_v46 (F := Ideal) x4 (ix3 b i (0 : Fin 1)) = x4 (ix2 b i) := by
  rw [val_main_v46_apply]
  exact congrArg x4 (funext fun a => by match a with | ⟨0, _⟩ => rfl | ⟨1, _⟩ => rfl)

theorem call3_v4_at (hsrc : ∀ k, 0 ≤ (x4 k).toInt ∧ (x4 k).toInt < 100) (b : Fin 4) (i : Fin 30) :
    val_main_call3_v4 (F := Ideal) x4 (ix3 b i (0 : Fin 1)) = x4 (ix2 b i) := by
  rw [val_main_call3_v4_apply, val_main_call3_v1_apply, val_main_call3_v3_apply, v46_at, val_main_call3_v0_apply,
    val_main_call3_c_apply]
  exact wrap_id _ _ (hsrc _).1

theorem call3_v10_all (hsrc : ∀ k, 0 ≤ (x4 k).toInt ∧ (x4 k).toInt < 100) (k : S4x30x1.Idx) :
    val_main_call3_v10 (F := Ideal) x4 k = 1#1 := by
  obtain ⟨b, i, z, rfl⟩ : ∃ (b : Fin 4) (i : Fin 30) (z : Fin 1), k = ix3 b i z := ⟨k 0, k 1, k 2, eq_ix3 k⟩
  obtain rfl : z = 0 := Subsingleton.elim _ _
  rw [val_main_call3_v10_apply, val_main_call3_v6_apply, val_main_call3_v9_apply, call3_v4_at x4 hsrc,
    val_main_call3_v5_apply, val_main_call3_c_2_apply, val_main_call3_v8_apply, val_main_call3_v7_apply,
    val_main_call3_c_1_apply, sge_zero _ (hsrc _).1,
    sle_of_le _ _ (by rw [toInt_99]; have := (hsrc (ix2 b i)).2; omega)]
  rfl

theorem call3_v13_all (hsrc : ∀ k, 0 ≤ (x4 k).toInt ∧ (x4 k).toInt < 100) (k : S4x30x80000.Idx) :
    val_main_call3_v13 (F := Ideal) x4 k = 1#1 := by
  rw [val_main_call3_v13_apply]
  unfold val_main_call3_v11
  exact reduce_andi_of_all _ _ _ _ rfl (call3_v10_all x4 hsrc) _

theorem v47_at (hsrc : ∀ k, 0 ≤ (x4 k).toInt ∧ (x4 k).toInt < 100) (b : Fin 4) (i : Fin 30) (q : Fin 80000) :
    val_main_v47 (F := Ideal) x1 x4 (ix3 b i q) = x1 (ix3 b q (srcAt x4 b i)) := by
  rw [val_main_v47_apply, call3_v13_all x4 hsrc, select_one]
  unfold val_main_call3_v12
  rw [gather_rows100, val_main_v45_apply]
  refine congrArg x1 (funext fun a => Fin.ext ?_)
  match a with
  | ⟨0, _⟩ => rfl
  | ⟨1, _⟩ => rfl
  | ⟨2, _⟩ =>
    show min (val_main_call3_v4 (F := Ideal) x4 (ix3 b i (0 : Fin 1))).toInt.toNat 99 = min (x4 (ix2 b i)).toInt.toNat 99
    rw [call3_v4_at x4 hsrc]

theorem v48_at (b : Fin 4) (i : Fin 30) : val_main_v48 (F := Ideal) x5 (ix3 b i (0 : Fin 1)) = x5 (ix2 b i) := by
  rw [val_main_v48_apply]
  exact congrArg x5 (funext fun a => by match a with | ⟨0, _⟩ => rfl | ⟨1, _⟩ => rfl)

theorem call4_v4_at (htgt : ∀ k, 0 ≤ (x5 k).toInt ∧ (x5 k).toInt < 30) (b : Fin 4) (i : Fin 30) :
    val_main_call4_v4 (F := Ideal) x5 (ix3 b i (0 : Fin 1)) = x5 (ix2 b i) := by
  rw [val_main_call4_v4_apply, val_main_call4_v1_apply, val_main_call4_v3_apply, v48_at, val_main_call4_v0_apply,
    val_main_call4_c_apply]
  exact wrap_id _ _ (htgt _).1

theorem call4_v10_all (htgt : ∀ k, 0 ≤ (x5 k).toInt ∧ (x5 k).toInt < 30) (k : S4x30x1.Idx) :
    val_main_call4_v10 (F := Ideal) x5 k = 1#1 := by
  obtain ⟨b, i, z, rfl⟩ : ∃ (b : Fin 4) (i : Fin 30) (z : Fin 1), k = ix3 b i z := ⟨k 0, k 1, k 2, eq_ix3 k⟩
  obtain rfl : z = 0 := Subsingleton.elim _ _
  rw [val_main_call4_v10_apply, val_main_call4_v6_apply, val_main_call4_v9_apply, call4_v4_at x5 htgt,
    val_main_call4_v5_apply, val_main_call4_c_2_apply, val_main_call4_v8_apply, val_main_call4_v7_apply,
    val_main_call4_c_1_apply, sge_zero _ (htgt _).1,
    sle_of_le _ _ (by rw [toInt_29]; have := (htgt (ix2 b i)).2; omega)]
  rfl

theorem call4_v13_all (htgt : ∀ k, 0 ≤ (x5 k).toInt ∧ (x5 k).toInt < 30) (k : S4x30x80000.Idx) :
    val_main_call4_v13 (F := Ideal) x5 k = 1#1 := by
  rw [val_main_call4_v13_apply]
  unfold val_main_call4_v11
  exact reduce_andi_of_all _ _ _ _ rfl (call4_v10_all x5 htgt) _

theorem v49_at (htgt : ∀ k, 0 ≤ (x5 k).toInt ∧ (x5 k).toInt < 30) (b : Fin 4) (i : Fin 30) (q : Fin 80000) :
    val_main_v49 (F := Ideal) x2 x5 (ix3 b i q) = x2 (ix3 b (tgtAt x5 b i) q) := by
  rw [val_main_v49_apply, call4_v13_all x5 htgt, select_one]
  unfold val_main_call4_v12
  rw [gather_rows30]
  refine congrArg x2 (funext fun a => Fin.ext ?_)
  match a with
  | ⟨0, _⟩ => rfl
  | ⟨1, _⟩ =>
    show min (val_main_call4_v4 (F := Ideal) x5 (ix3 b i (0 : Fin 1))).toInt.toNat 29 = min (x5 (ix2 b i)).toInt.toNat 29
    rw [call4_v4_at x5 htgt]
  | ⟨2, _⟩ => rfl

theorem v55_at (hsamp : ∀ k, 0 ≤ (x6 k).toInt ∧ (x6 k).toInt < 80000) (b : Fin 4) (n : Fin 45000) :
    val_main_v55 (F := Ideal) x6 (ix3 b n (0 : Fin 1)) = x6 (ix2 b n) := by
  rw [val_main_v55_apply]
  have e : idx_main_v55 (ix3 b n (0 : Fin 1)) = ix2 b n := funext fun a => by match a with | ⟨0, _⟩ => rfl | ⟨1, _⟩ => rfl
  rw [e, val_main_v54_apply, val_main_v51_apply, val_main_v53_apply, val_main_v50_apply, val_main_c_14_apply]
  exact wrap_id _ _ (hsamp _).1

theorem v62_at (hsamp : ∀ k, 0 ≤ (x6 k).toInt ∧ (x6 k).toInt < 80000) (b : Fin 4) (n : Fin 45000) :
    val_main_v62 (F := Ideal) x6 (ix3 b n (0 : Fin 1)) = x6 (ix2 b n) := by
  rw [val_main_v62_apply]
  have e : idx_main_v62 (ix3 b n (0 : Fin 1)) = ix2 b n := funext fun a => by match a with | ⟨0, _⟩ => rfl | ⟨1, _⟩ => rfl
  rw [e, val_main_v61_apply, val_main_v58_apply, val_main_v60_apply, val_main_v57_apply, val_main_c_16_apply]
  exact wrap_id _ _ (hsamp _).1

theorem v56_at (hsrc : ∀ k, 0 ≤ (x4 k).toInt ∧ (x4 k).toInt < 100) (hsamp : ∀ k, 0 ≤ (x6 k).toInt ∧ (x6 k).toInt < 80000)
    (b : Fin 4) (i : Fin 30) (n : Fin 45000) :
    val_main_v56 (F := Ideal) x1 x4 x6 (ix3 b i n) = spAt x1 x4 x6 b i n := by
  unfold val_main_v56
  rw [gather_cols, v47_at x1 x4 hsrc]
  unfold Cert.Idx.spAt
  refine congrArg x1 (funext fun a => Fin.ext ?_)
  match a with
  | ⟨0, _⟩ => rfl
  | ⟨1, _⟩ =>
    show min (val_main_v55 (F := Ideal) x6 (ix3 b n (0 : Fin 1))).toInt.toNat 79999 = min (x6 (ix2 b n)).toInt.toNat 79999
    rw [v55_at x6 hsamp]
  | ⟨2, _⟩ => rfl

theorem v63_at (htgt : ∀ k, 0 ≤ (x5 k).toInt ∧ (x5 k).toInt < 30) (hsamp : ∀ k, 0 ≤ (x6 k).toInt ∧ (x6 k).toInt < 80000)
    (b : Fin 4) (i : Fin 30) (n : Fin 45000) :
    val_main_v63 (F := Ideal) x2 x5 x6 (ix3 b i n) = stAt x2 x5 x6 b i n := by
  unfold val_main_v63
  rw [gather_cols, v49_at x2 x5 htgt]
  unfold Cert.Idx.stAt
  refine congrArg x2 (funext fun a => Fin.ext ?_)
  match a with
  | ⟨0, _⟩ => rfl
  | ⟨1, _⟩ => rfl
  | ⟨2, _⟩ =>
    show min (val_main_v62 (F := Ideal) x6 (ix3 b n (0 : Fin 1))).toInt.toNat 79999 = min (x6 (ix2 b n)).toInt.toNat 79999
    rw [v62_at x6 hsamp]

end Cert.ReferenceIdeal.RefVal

end
-- ==== Proof.RefValue.lean ====
import proofs.«422094_j90494960927125_3_alg».proof.Proof.RefReadP
import proofs.«422094_j90494960927125_3_alg».proof.Proof.RefMatched
import proofs.«422094_j90494960927125_3_alg».proof.Proof.LossSpec

noncomputable section

open scoped BigOperators

namespace Cert.ReferenceIdeal.RefVal

open Cert.ReferenceIdeal Cert.ReferenceIdeal.Gen Cert.ReferenceIdeal.Read
open Idealize.ShloMosaic Idealize.ShloMosaic.ValueIdx
open Cert.Spec (bceR pR)
open Cert.Idx (spAt stAt)
open Cert.Loss (bceSum psSum pSum sSum maskRow diceRow lossMask lossDice result)

variable (x0 : (⟨S4x100x21, .f32⟩ : BufTy).Contents (Elt Ideal))
  (x1 : (⟨S4x80000x100, .f32⟩ : BufTy).Contents (Elt Ideal)) (x2 : (⟨S4x30x80000, .f32⟩ : BufTy).Contents (Elt Ideal))
  (x3 x4 x5 : (⟨S4x30, .i32⟩ : BufTy).Contents (Elt Ideal)) (x6 : (⟨S4x45000, .i32⟩ : BufTy).Contents (Elt Ideal))

theorem sum_rows (f : S4x30.Idx → EReal) (g : Fin 4 → Fin 30 → EReal) (h : ∀ b i, f (ix2 b i) = g b i) :
    ∑ j : S4x30.Idx, f j = ∑ b : Fin 4, ∑ i : Fin 30, g b i := by
  rw [sum_idx2 (n0 := 4) (n1 := 30) f]
  exact Finset.sum_congr rfl fun b _ => Finset.sum_congr rfl fun i _ => h b i

theorem concat3_at0 (y0 y1 y2 : S1.Idx → EReal) :
    concatenate S3 0 [⟨S1, y0⟩, ⟨S1, y1⟩, ⟨S1, y2⟩] concatenates_S1_S1_S1_S3_d0 (ix1 (0 : Fin 3)) = y0 (ix1 (0 : Fin 1)) :=
  concatenate_apply_piece (t := S3) 0 [⟨S1, y0⟩, ⟨S1, y1⟩, ⟨S1, y2⟩] concatenates_S1_S1_S1_S3_d0 (ix1 (0 : Fin 3))
    0 (by simp) S1 y0 rfl rfl 0 rfl (ix1 (0 : Fin 1)) (fun b hb => absurd (Subsingleton.elim _ _) hb) rfl
theorem concat3_at1 (y0 y1 y2 : S1.Idx → EReal) :
    concatenate S3 0 [⟨S1, y0⟩, ⟨S1, y1⟩, ⟨S1, y2⟩] concatenates_S1_S1_S1_S3_d0 (ix1 (1 : Fin 3)) = y1 (ix1 (0 : Fin 1)) :=
  concatenate_apply_piece (t := S3) 0 [⟨S1, y0⟩, ⟨S1, y1⟩, ⟨S1, y2⟩] concatenates_S1_S1_S1_S3_d0 (ix1 (1 : Fin 3))
    1 (by simp) S1 y1 rfl rfl 1 rfl (ix1 (0 : Fin 1)) (fun b hb => absurd (Subsingleton.elim _ _) hb) rfl
theorem concat3_at2 (y0 y1 y2 : S1.Idx → EReal) :
    concatenate S3 0 [⟨S1, y0⟩, ⟨S1, y1⟩, ⟨S1, y2⟩] concatenates_S1_S1_S1_S3_d0 (ix1 (2 : Fin 3)) = y2 (ix1 (0 : Fin 1)) :=
  concatenate_apply_piece (t := S3) 0 [⟨S1, y0⟩, ⟨S1, y1⟩, ⟨S1, y2⟩] concatenates_S1_S1_S1_S3_d0 (ix1 (2 : Fin 3))
    2 (by simp) S1 y2 rfl rfl 2 rfl (ix1 (0 : Fin 1)) (fun b hb => absurd (Subsingleton.elim _ _) hb) rfl

theorem v71_at (k : S4x30x45000.Idx) :
    val_main_v71 (F := Ideal) x1 x2 x4 x5 x6 k
      = bceR (val_main_v56 (F := Ideal) x1 x4 x6 k) (val_main_v63 (F := Ideal) x2 x5 x6 k) := by
  rw [val_main_v71_apply, val_main_v66_apply, val_main_v64_apply, val_main_v65_apply, val_main_v70_apply,
    val_main_v69_apply, val_main_v68_apply, val_main_v67_apply, val_main_call5_v1_apply, val_main_call5_v0_apply,
    val_main_cst_18_apply]
  simp only [Ideal.addf_def, Ideal.subf_def, Ideal.mulf_def, Ideal.maximumf_def, Ideal.hostUnary_log1p_def,
    Ideal.hostUnary_exp_def, Ideal.hostNegf_def, Ideal.negf_def, Ideal.hostAbsf_def, Ideal.absf_def, Ideal.ofBits_def,
    Ideal.ofBits_zero_f32]
  rfl

theorem v83_at (k : S4x30x45000.Idx) :
    val_main_v83 (F := Ideal) x1 x4 x6 k = pR (val_main_v56 (F := Ideal) x1 x4 x6 k) := by
  rw [val_main_v83_apply, val_main_call6_v4_apply, val_main_call6_v3_apply, val_main_cst_26_apply,
    val_main_call6_v2_apply, val_main_call6_v1_apply, val_main_call6_v0_apply, val_main_cst_25_apply,
    val_main_v82_apply, val_main_v81_apply, val_main_cst_24_apply, val_main_v80_apply, val_main_v79_apply,
    val_main_cst_23_apply, val_main_v78_apply, val_main_v77_apply]
  simp only [Ideal.minimumf_def, Ideal.maximumf_def, Ideal.hostDivf_def, Ideal.addf_def, Ideal.hostUnary_exp_def,
    Ideal.hostNegf_def, Ideal.negf_def, Ideal.ofBits_def, Ideal.ofBits_one_f32]
  rfl

section Rows

variable (hsrc : ∀ k, 0 ≤ (x4 k).toInt ∧ (x4 k).toInt < 100) (htgt : ∀ k, 0 ≤ (x5 k).toInt ∧ (x5 k).toInt < 30)
  (hsamp : ∀ k, 0 ≤ (x6 k).toInt ∧ (x6 k).toInt < 80000)

include hsrc htgt hsamp in

theorem v72_at (b : Fin 4) (i : Fin 30) :
    val_main_v72 (F := Ideal) x1 x2 x4 x5 x6 (ix2 b i) = bceSum x1 x2 x4 x5 x6 b i := by
  rw [val_main_v72_apply, val_main_cst_19_apply, Ideal.ofBits_def, Ideal.ofBits_zero_f32, zero_add]
  refine Finset.sum_congr rfl fun n _ => ?_
  have e : idx_main_v72 (ix2 b i) n = ix3 b i n :=
    funext fun a => by match a with | ⟨0, _⟩ => rfl | ⟨1, _⟩ => rfl | ⟨2, _⟩ => rfl
  rw [e, v71_at, v56_at x1 x4 x6 hsrc hsamp, v63_at x2 x5 x6 htgt hsamp]

include hsrc htgt hsamp in

theorem v85_at (b : Fin 4) (i : Fin 30) :
    val_main_v85 (F := Ideal) x1 x2 x4 x5 x6 (ix2 b i) = psSum x1 x2 x4 x5 x6 b i := by
  rw [val_main_v85_apply, val_main_cst_27_apply, Ideal.ofBits_def, Ideal.ofBits_zero_f32, zero_add]
  refine Finset.sum_congr rfl fun n _ => ?_
  have e : idx_main_v85 (ix2 b i) n = ix3 b i n :=
    funext fun a => by match a with | ⟨0, _⟩ => rfl | ⟨1, _⟩ => rfl | ⟨2, _⟩ => rfl
  rw [e, val_main_v84_apply, v83_at, v56_at x1 x4 x6 hsrc hsamp, v63_at x2 x5 x6 htgt hsamp]
  rfl

include hsrc hsamp in

theorem v88_at (b : Fin 4) (i : Fin 30) :
    val_main_v88 (F := Ideal) x1 x4 x6 (ix2 b i) = pSum x1 x4 x6 b i := by
  rw [val_main_v88_apply, val_main_cst_29_apply, Ideal.ofBits_def, Ideal.ofBits_zero_f32, zero_add]
  refine Finset.sum_congr rfl fun n _ => ?_
  have e : idx_main_v88 (ix2 b i) n = ix3 b i n :=
    funext fun a => by match a with | ⟨0, _⟩ => rfl | ⟨1, _⟩ => rfl | ⟨2, _⟩ => rfl
  rw [e, v83_at, v56_at x1 x4 x6 hsrc hsamp]

include htgt hsamp in

theorem v89_at (b : Fin 4) (i : Fin 30) :
    val_main_v89 (F := Ideal) x2 x5 x6 (ix2 b i) = sSum x2 x5 x6 b i := by
  rw [val_main_v89_apply, val_main_cst_30_apply, Ideal.ofBits_def, Ideal.ofBits_zero_f32, zero_add]
  refine Finset.sum_congr rfl fun n _ => ?_
  have e : idx_main_v89 (ix2 b i) n = ix3 b i n :=
    funext fun a => by match a with | ⟨0, _⟩ => rfl | ⟨1, _⟩ => rfl | ⟨2, _⟩ => rfl
  rw [e, v63_at x2 x5 x6 htgt hsamp]

include hsrc htgt hsamp in

theorem v74_at (b : Fin 4) (i : Fin 30) :
    val_main_v74 (F := Ideal) x1 x2 x4 x5 x6 (ix2 b i) = maskRow x1 x2 x4 x5 x6 b i := by
  rw [val_main_v74_apply, v72_at x1 x2 x4 x5 x6 hsrc htgt hsamp, val_main_v73_apply, val_main_cst_20_apply]
  rfl

include hsrc htgt hsamp in

theorem v97_at (b : Fin 4) (i : Fin 30) :
    val_main_v97 (F := Ideal) x1 x2 x4 x5 x6 (ix2 b i) = diceRow x1 x2 x4 x5 x6 b i := by
  rw [val_main_v97_apply, val_main_v96_apply, val_main_cst_33_apply, val_main_v95_apply, val_main_v92_apply,
    val_main_v94_apply, val_main_v87_apply, val_main_v86_apply, val_main_cst_28_apply, val_main_v91_apply,
    val_main_cst_31_apply, val_main_v90_apply, val_main_v93_apply, val_main_cst_32_apply,
    v85_at x1 x2 x4 x5 x6 hsrc htgt hsamp, v88_at x1 x4 x6 hsrc hsamp, v89_at x2 x5 x6 htgt hsamp]
  simp only [Ideal.subf_def, Ideal.hostDivf_def, Ideal.addf_def, Ideal.mulf_def, Ideal.ofBits_def, Ideal.ofBits_one_f32]
  rfl

include hsrc htgt hsamp in

theorem v76_at (j : S_.Idx) : val_main_v76 (F := Ideal) x1 x2 x4 x5 x6 j = lossMask x1 x2 x4 x5 x6 := by
  rw [val_main_v76_apply, val_main_v75_apply, val_main_cst_21_apply, val_main_cst_22_apply, Ideal.ofBits_def,
    Ideal.ofBits_zero_f32, zero_add,
    sum_rows (val_main_v74 (F := Ideal) x1 x2 x4 x5 x6) (maskRow x1 x2 x4 x5 x6) (v74_at x1 x2 x4 x5 x6 hsrc htgt hsamp)]
  rfl

include hsrc htgt hsamp in

theorem v99_at (j : S_.Idx) : val_main_v99 (F := Ideal) x1 x2 x4 x5 x6 j = lossDice x1 x2 x4 x5 x6 := by
  rw [val_main_v99_apply, val_main_v98_apply, val_main_cst_34_apply, val_main_cst_35_apply, Ideal.ofBits_def,
    Ideal.ofBits_zero_f32, zero_add,
    sum_rows (val_main_v97 (F := Ideal) x1 x2 x4 x5 x6) (diceRow x1 x2 x4 x5 x6) (v97_at x1 x2 x4 x5 x6 hsrc htgt hsamp)]
  rfl

theorem v106_at0 : val_main_v106 (F := Ideal) x0 x1 x2 x3 x4 x5 x6 (ix1 (0 : Fin 3))
    = val_main_v103 (F := Ideal) x0 x3 x4 x5 (ix1 (0 : Fin 1)) := by
  unfold val_main_v106
  exact concat3_at0 _ _ _

theorem v106_at1 : val_main_v106 (F := Ideal) x0 x1 x2 x3 x4 x5 x6 (ix1 (1 : Fin 3))
    = val_main_v104 (F := Ideal) x1 x2 x4 x5 x6 (ix1 (0 : Fin 1)) := by
  unfold val_main_v106
  exact concat3_at1 _ _ _

theorem v106_at2 : val_main_v106 (F := Ideal) x0 x1 x2 x3 x4 x5 x6 (ix1 (2 : Fin 3))
    = val_main_v105 (F := Ideal) x1 x2 x4 x5 x6 (ix1 (0 : Fin 1)) := by
  unfold val_main_v106
  exact concat3_at2 _ _ _

include hsrc htgt hsamp in

theorem v106_eq :
    val_main_v106 (F := Ideal) x0 x1 x2 x3 x4 x5 x6
      = result x1 x2 x4 x5 x6 (val_main_v44 (F := Ideal) x0 x3 x4 x5 ix0) := by
  funext j
  obtain ⟨k, rfl⟩ : ∃ k : Fin 3, j = ix1 k := ⟨j 0, eq_ix1 j⟩
  match k with
  | ⟨0, _⟩ =>
    refine (v106_at0 x0 x1 x2 x3 x4 x5 x6).trans ?_
    rw [val_main_v103_apply, val_main_v100_apply, val_main_cst_36_apply]
    rfl
  | ⟨1, _⟩ =>
    refine (v106_at1 x0 x1 x2 x3 x4 x5 x6).trans ?_
    rw [val_main_v104_apply, val_main_v101_apply, val_main_cst_37_apply, v99_at x1 x2 x4 x5 x6 hsrc htgt hsamp]
    rfl
  | ⟨2, _⟩ =>
    refine (v106_at2 x0 x1 x2 x3 x4 x5 x6).trans ?_
    rw [val_main_v105_apply, val_main_v102_apply, val_main_cst_38_apply, v76_at x1 x2 x4 x5 x6 hsrc htgt hsamp]
    rfl

end Rows

end Cert.ReferenceIdeal.RefVal

end
-- ==== Proof.Algebraic.lean ====
import proofs.«422094_j90494960927125_3_alg».proof.Defs
import proofs.«422094_j90494960927125_3_alg».proof.Proof.KernelValue
import proofs.«422094_j90494960927125_3_alg».proof.Proof.KernelLink
import proofs.«422094_j90494960927125_3_alg».proof.Proof.KernelEnd
import proofs.«422094_j90494960927125_3_alg».proof.Proof.ClsLossV
import proofs.«422094_j90494960927125_3_alg».proof.Proof.PreAt
import proofs.«422094_j90494960927125_3_alg».proof.Proof.RefValue
import proofs.«422094_j90494960927125_3_alg».proof.Proof.RefRunP

noncomputable section

namespace Cert.Algebraic

open Idealize.ShloMosaic Idealize.ShloMosaic.TcCoe Idealize.SL.Sem Idealize.ShloMosaic.ValueIdx

theorem algebraic : Cert.algebraic_KernelIdeal_ReferenceIdeal := by
  intro m ρ m' ρ' hpre hagree
  refine ⟨fun c => Cert.KernelIdeal.KVal.tailK (Cert.KernelIdeal.KVal.G m c) (Cert.KernelIdeal.GenH.V m c Cert.KernelIdeal.main_v44), Cert.KernelIdeal.KVal.run m ρ, ?_⟩
  refine (θ_run Cert.ReferenceIdeal.defs _ _).mono (fun _ h c => ⟨(h c).1.trans ?_, (h c).2⟩) (Cert.ReferenceIdeal.Value.run (F := Ideal) m' ρ')

  rw [(hagree c).1, (hagree c).2.1, (hagree c).2.2.1, (hagree c).2.2.2.1,
    (hagree c).2.2.2.2.1, (hagree c).2.2.2.2.2.1, (hagree c).2.2.2.2.2.2]

  rw [Cert.ReferenceIdeal.RefVal.v106_eq _ _ _ _ _ _ _ (Cert.PreAt.hsrc m hpre c) (Cert.PreAt.htgt m hpre c) (Cert.PreAt.hsmp m hpre c)]

  have hce := (Cert.ClsLoss.kernel_v44_V m c).trans (Cert.ClsLoss.ref_v44 _ _ _ _).symm
  rw [← hce]

  exact (Cert.Bridge.kernel_result_eq_loss (Cert.KernelIdeal.KVal.G m c) (Cert.KernelIdeal.GenH.V m c Cert.KernelIdeal.main_v44)
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    (Cert.PreAt.hx1 m hpre c) (Cert.PreAt.hinj m hpre c)
    (Cert.KernelIdeal.KVal.link0 m c (Cert.PreAt.hsmp m hpre c) (Cert.PreAt.hsrc m hpre c) (Cert.PreAt.htgt m hpre c) (Cert.PreAt.hinj m hpre c))
    (Cert.KernelIdeal.KVal.link1 m c (Cert.PreAt.hsmp m hpre c) (Cert.PreAt.hsrc m hpre c) (Cert.PreAt.htgt m hpre c) (Cert.PreAt.hinj m hpre c))).symm

end Cert.Algebraic

end
-- ==== Proof.lean ====
import proofs.«422094_j90494960927125_3_alg».proof.Defs
import proofs.«422094_j90494960927125_3_alg».proof.Proof.Gen.Kernel
import proofs.«422094_j90494960927125_3_alg».proof.Proof.Gen.KernelIdeal
import proofs.«422094_j90494960927125_3_alg».proof.Proof.Gen.ReferenceIdeal
import proofs.«422094_j90494960927125_3_alg».proof.Proof.Gen.Pre_finite_inputs
import proofs.«422094_j90494960927125_3_alg».proof.Proof.FrameCert
import proofs.«422094_j90494960927125_3_alg».proof.Proof.KFrameCert
import proofs.«422094_j90494960927125_3_alg».proof.Proof.RefRunP
import proofs.«422094_j90494960927125_3_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.GenH.frame m ρ

theorem frame_ki : Cert.frame_KernelIdeal := fun m ρ _ => Cert.KernelIdeal.GenH.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal :=
  IdealRules.named_const.statement Cert.KernelIdeal.κ "inv_45000" .f32 0x37BA69DC#32 ((1 / 45000 : ℝ) : EReal) rfl

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Algebraic.algebraic⟩

end Cert.Proof

end
